-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S50000x1024 : Shape := ⟨2, ![50000, 1024]⟩
abbrev S2x800000 : Shape := ⟨2, ![2, 800000]⟩
abbrev S2x400000 : Shape := ⟨2, ![2, 400000]⟩
abbrev S768x256 : Shape := ⟨2, ![768, 256]⟩
abbrev S1024x256 : Shape := ⟨2, ![1024, 256]⟩
abbrev S3x256x256 : Shape := ⟨3, ![3, 256, 256]⟩
abbrev S3x256 : Shape := ⟨2, ![3, 256]⟩
abbrev S_ : Shape := ⟨0, ![]⟩
abbrev S1x800000 : Shape := ⟨2, ![1, 800000]⟩
abbrev S800000 : Shape := ⟨1, ![800000]⟩
abbrev S1x400000 : Shape := ⟨2, ![1, 400000]⟩
abbrev S400000 : Shape := ⟨1, ![400000]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_
  bcast_S_S768x256 : S_.BroadcastsInDim S768x256 (![] : Fin 0 → Fin S768x256.rank)
  reducesTo_S768x256_S_d0_1 : S768x256.ReducesTo [0, 1] S_
  bcast_S_S1024x256 : S_.BroadcastsInDim S1024x256 (![] : Fin 0 → Fin S1024x256.rank)
  reducesTo_S1024x256_S_d0_1 : S1024x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part4 {F : FTy → Type} [FloatOps F] (main_arg4 : IVec S2x400000 32) (main_v66 : IVec S_ 1) (main_v68 : IVec S400000 32) (main_c_24 : IVec S_ 32) : IVec S_ 1 :=
  let main_v69 : IVec S400000 32 := broadcastInDim S400000 ![] bcast_S_S400000 main_c_24
  let main_v70 : IVec S400000 1 := cmpi .slt main_v68 main_v69
  let main_c_25 : IVec S_ 1 := constantI S_ 1 1#1
  let main_v71 : IVec S_ 1 := (fun x v => Host.reduce IntOp.andi x v reducesTo_S400000_S_d0 h_S_) main_v70 main_c_25
  let main_v72 : IVec S_ 1 := andi main_v66 main_v71
  let main_v73 : IVec S1x400000 32 := (extractStridedSlice S1x400000 ![0, 0] · slices_S2x400000_S1x400000_0_0) main_arg4
  let main_v74 : IVec S400000 32 := shapeCast S400000 main_v73 shapeCasts_S1x400000_S400000
  let main_c_26 : IVec S_ 32 := constantI S_ 32 0#32
  let main_v75 : IVec S400000 32 := broadcastInDim S400000 ![] bcast_S_S400000 main_c_26
  let main_v76 : IVec S400000 1 := cmpi .sge main_v74 main_v75
  let main_c_27 : IVec S_ 1 := constantI S_ 1 1#1
  let main_v77 : IVec S_ 1 := (fun x v => Host.reduce IntOp.andi x v reducesTo_S400000_S_d0 h_S_) main_v76 main_c_27
  let main_v78 : IVec S_ 1 := andi main_v72 main_v77
  let main_v79 : IVec S1x400000 32 := (extractStridedSlice S1x400000 ![0, 0] · slices_S2x400000_S1x400000_0_0) main_arg4
  let main_v80 : IVec S400000 32 := shapeCast S400000 main_v79 shapeCasts_S1x400000_S400000
  let main_c_28 : IVec S_ 32 := constantI S_ 32 50000#32
  let main_v81 : IVec S400000 32 := broadcastInDim S400000 ![] bcast_S_S400000 main_c_28
  let main_v82 : IVec S400000 1 := cmpi .slt main_v80 main_v81
  let main_c_29 : IVec S_ 1 := constantI S_ 1 1#1
  let main_v83 : IVec S_ 1 := (fun x v => Host.reduce IntOp.andi x v reducesTo_S400000_S_d0 h_S_) main_v82 main_c_29
  let main_v84 : IVec S_ 1 := andi main_v78 main_v83
  main_v84

def fn_part3 {F : FTy → Type} [FloatOps F] (main_arg2 : IVec S2x800000 32) (main_arg3 : IVec S2x400000 32) (main_arg4 : IVec S2x400000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![0, 0] · slices_S2x800000_S1x800000_0_0) main_arg2
  let main_v56 : IVec S800000 32 := shapeCast S800000 main_v55 shapeCasts_S1x800000_S800000
  let main_c_20 : IVec S_ 32 := constantI S_ 32 100000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  let main_v61 : IVec S1x400000 32 := (extractStridedSlice S1x400000 ![0, 0] · slices_S2x400000_S1x400000_0_0) main_arg3
  let main_v62 : IVec S400000 32 := shapeCast S400000 main_v61 shapeCasts_S1x400000_S400000
  let main_c_22 : IVec S_ 32 := constantI S_ 32 0#32
  let main_v63 : IVec S400000 32 := broadcastInDim S400000 ![] bcast_S_S400000 main_c_22
  let main_v64 : IVec S400000 1 := cmpi .sge main_v62 main_v63
  let main_c_23 : IVec S_ 1 := constantI S_ 1 1#1
  let main_v65 : IVec S_ 1 := (fun x v => Host.reduce IntOp.andi x v reducesTo_S400000_S_d0 h_S_) main_v64 main_c_23
  let main_v66 : IVec S_ 1 := andi main_v60 main_v65
  let main_v67 : IVec S1x400000 32 := (extractStridedSlice S1x400000 ![0, 0] · slices_S2x400000_S1x400000_0_0) main_arg3
  let main_v68 : IVec S400000 32 := shapeCast S400000 main_v67 shapeCasts_S1x400000_S400000
  let main_c_24 : IVec S_ 32 := constantI S_ 32 100000#32
  fn_part4 (F := F) main_arg4 main_v66 main_v68 main_c_24

def fn_part2 {F : FTy → Type} [FloatOps F] (main_arg2 : IVec S2x800000 32) (main_arg3 : IVec S2x400000 32) (main_arg4 : IVec S2x400000 32) (main_arg10 : FVec F S3x256x256 .f32) (main_arg11 : FVec F S3x256 .f32) (main_arg12 : FVec F S3x256x256 .f32) (main_v33 : IVec S_ 1) : IVec S_ 1 :=
  let main_v34 : FVec F S3x256x256 .f32 := Host.absf main_arg10
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg11
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg12
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : IVec S1x800000 32 := (extractStridedSlice S1x800000 ![0, 0] · slices_S2x800000_S1x800000_0_0) main_arg2
  let main_v50 : IVec S800000 32 := shapeCast S800000 main_v49 shapeCasts_S1x800000_S800000
  let main_c_18 : IVec S_ 32 := constantI S_ 32 0#32
  fn_part3 (F := F) main_arg2 main_arg3 main_arg4 main_v48 main_v50 main_c_18

def fn_part1 {F : FTy → Type} [FloatOps F] (main_arg2 : IVec S2x800000 32) (main_arg3 : IVec S2x400000 32) (main_arg4 : IVec S2x400000 32) (main_arg7 : FVec F S3x256x256 .f32) (main_arg8 : FVec F S3x256 .f32) (main_arg9 : FVec F S3x256x256 .f32) (main_arg10 : FVec F S3x256x256 .f32) (main_arg11 : FVec F S3x256 .f32) (main_arg12 : FVec F S3x256x256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S3x256x256 .f32 := Host.absf main_arg7
  let main_cst_6 : FVec F S_ .f32 := constant S_ .f32 0x7F800000#32
  let main_v20 : FVec F S3x256x256 .f32 := broadcastInDim S3x256x256 ![] bcast_S_S3x256x256 main_cst_6
  let main_v21 : IVec S3x256x256 1 := cmpf .olt main_v19 main_v20
  let main_c_7 : IVec S_ 1 := constantI S_ 1 1#1
  let main_v22 : IVec S_ 1 := (fun x v => Host.reduce IntOp.andi x v reducesTo_S3x256x256_S_d0_1_2 h_S_) main_v21 main_c_7
  let main_v23 : IVec S_ 1 := andi main_v18 main_v22
  let main_v24 : FVec F S3x256 .f32 := Host.absf main_arg8
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256x256 .f32 := Host.absf main_arg9
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg2 main_arg3 main_arg4 main_arg10 main_arg11 main_arg12 main_v33

def fn {F : FTy → Type} [FloatOps F] (main_arg0 : FVec F S100000x768 .f32) (main_arg1 : FVec F S50000x1024 .f32) (main_arg2 : IVec S2x800000 32) (main_arg3 : IVec S2x400000 32) (main_arg4 : IVec S2x400000 32) (main_arg5 : FVec F S768x256 .f32) (main_arg6 : FVec F S1024x256 .f32) (main_arg7 : FVec F S3x256x256 .f32) (main_arg8 : FVec F S3x256 .f32) (main_arg9 : FVec F S3x256x256 .f32) (main_arg10 : FVec F S3x256x256 .f32) (main_arg11 : FVec F S3x256 .f32) (main_arg12 : FVec F S3x256x256 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S50000x1024 .f32 := Host.absf main_arg1
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  let main_v9 : FVec F S768x256 .f32 := Host.absf main_arg5
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S1024x256 .f32 := Host.absf main_arg6
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg2 main_arg3 main_arg4 main_arg7 main_arg8 main_arg9 main_arg10 main_arg11 main_arg12 main_v13 main_v16
-- ==== Kernel.lean ====
abbrev S100000x768 : Shape := ⟨2, ![100000, 768]⟩
abbrev S50000x1024 : Shape := ⟨2, ![50000, 1024]⟩
abbrev S2x800000 : Shape := ⟨2, ![2, 800000]⟩
abbrev S2x400000 : Shape := ⟨2, ![2, 400000]⟩
abbrev S768x256 : Shape := ⟨2, ![768, 256]⟩
abbrev S1024x256 : Shape := ⟨2, ![1024, 256]⟩
abbrev S3x256x256 : Shape := ⟨3, ![3, 256, 256]⟩
abbrev S3x256 : Shape := ⟨2, ![3, 256]⟩
abbrev S1x800000 : Shape := ⟨2, ![1, 800000]⟩
abbrev S800000 : Shape := ⟨1, ![800000]⟩
abbrev S1x400000 : Shape := ⟨2, ![1, 400000]⟩
abbrev S400000 : Shape := ⟨1, ![400000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S50000 : Shape := ⟨1, ![50000]⟩
abbrev S400000x1 : Shape := ⟨2, ![400000, 1]⟩
abbrev S50000x1 : Shape := ⟨2, ![50000, 1]⟩
abbrev S100000x256 : Shape := ⟨2, ![100000, 256]⟩
abbrev S2000x768 : Shape := ⟨2, ![2000, 768]⟩
abbrev S2000x256 : Shape := ⟨2, ![2000, 256]⟩
abbrev S50000x256 : Shape := ⟨2, ![50000, 256]⟩
abbrev S2000x1024 : Shape := ⟨2, ![2000, 1024]⟩
abbrev S1 : Shape := ⟨1, ![1]⟩
abbrev S1x1 : Shape := ⟨2, ![1, 1]⟩
abbrev S800000x256 : Shape := ⟨2, ![800000, 256]⟩
abbrev S400000x256 : Shape := ⟨2, ![400000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000 : Shape := ⟨1, ![2000]⟩
abbrev S2000x1 : Shape := ⟨2, ![2000, 1]⟩

abbrev nBuf : Space → Nat
  | .hbm => 288
  | .vmem => 56
  | .smem => 0
  | _ => 0

abbrev hbmTy0_0 (i : Nat) : BufTy := match i % 128 with
  | 0 => ⟨S100000x768, .f32⟩
  | 1 => ⟨S50000x1024, .f32⟩
  | 2 => ⟨S2x800000, .i32⟩
  | 3 => ⟨S2x400000, .i32⟩
  | 4 => ⟨S2x400000, .i32⟩
  | 5 => ⟨S768x256, .f32⟩
  | 6 => ⟨S1024x256, .f32⟩
  | 7 => ⟨S3x256x256, .f32⟩
  | 8 => ⟨S3x256, .f32⟩
  | 9 => ⟨S3x256x256, .f32⟩
  | 10 => ⟨S3x256x256, .f32⟩
  | 11 => ⟨S3x256, .f32⟩
  | 12 => ⟨S3x256x256, .f32⟩
  | 13 => ⟨S1x800000, .i32⟩
  | 14 => ⟨S800000, .i32⟩
  | 15 => ⟨S1x800000, .i32⟩
  | 16 => ⟨S800000, .i32⟩
  | 17 => ⟨S1x400000, .i32⟩
  | 18 => ⟨S400000, .i32⟩
  | 19 => ⟨S1x400000, .i32⟩
  | 20 => ⟨S400000, .i32⟩
  | 21 => ⟨S1x400000, .i32⟩
  | 22 => ⟨S400000, .i32⟩
  | 23 => ⟨S1x400000, .i32⟩
  | 24 => ⟨S400000, .i32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S_, .f32⟩
  | 39 => ⟨S400000, .f32⟩
  | 40 => ⟨S_, .f32⟩
  | 41 => ⟨S50000, .f32⟩
  | 42 => ⟨S400000x1, .i32⟩
  | 43 => ⟨S50000, .f32⟩
  | 44 => ⟨S_, .f32⟩
  | 45 => ⟨S50000, .f32⟩
  | 46 => ⟨S50000, .f32⟩
  | 47 => ⟨S_, .f32⟩
  | 48 => ⟨S50000, .f32⟩
  | 49 => ⟨S50000, .f32⟩
  | 50 => ⟨S50000x1, .f32⟩
  | 51 => ⟨S_, .f32⟩
  | 52 => ⟨S400000, .f32⟩
  | 53 => ⟨S_, .f32⟩
  | 54 => ⟨S100000, .f32⟩
  | 55 => ⟨S400000x1, .i32⟩
  | 56 => ⟨S100000, .f32⟩
  | 57 => ⟨S_, .f32⟩
  | 58 => ⟨S100000, .f32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x256, .f32⟩
  | 65 => ⟨S50000x256, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x256, .f32⟩
  | 85 => ⟨S800000x256, .i1⟩
  | 86 => ⟨S_, .f32⟩
  | 87 => ⟨S800000x256, .f32⟩
  | 88 => ⟨S800000x256, .f32⟩
  | 89 => ⟨S_, .f32⟩
  | 90 => ⟨S100000x256, .f32⟩
  | 91 => ⟨S800000x1, .i32⟩
  | 92 => ⟨S100000x256, .f32⟩
  | 93 => ⟨S100000x256, .f32⟩
  | 94 => ⟨S100000x256, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S1, .i32⟩
  | 104 => ⟨S_, .i32⟩
  | 105 => ⟨S400000x1, .i32⟩
  | 106 => ⟨S400000x1, .i1⟩
  | 107 => ⟨S1x1, .i32⟩
  | 108 => ⟨S400000x1, .i32⟩
  | 109 => ⟨S400000x1, .i1⟩
  | 110 => ⟨S400000x1, .i1⟩
  | 111 => ⟨S_, .i1⟩
  | 112 => ⟨S400000, .i1⟩
  | 113 => ⟨S400000x256, .f32⟩
  | 114 => ⟨S400000x256, .i1⟩
  | 115 => ⟨S_, .f32⟩
  | 116 => ⟨S400000x256, .f32⟩
  | 117 => ⟨S400000x256, .f32⟩
  | 118 => ⟨S_, .f32⟩
  | 119 => ⟨S100000x256, .f32⟩
  | 120 => ⟨S400000x1, .i32⟩
  | 121 => ⟨S100000x256, .f32⟩
  | 122 => ⟨S100000x256, .f32⟩
  | 123 => ⟨S100000x256, .f32⟩
  | 124 => ⟨S_, .i32⟩
  | 125 => ⟨S400000, .i32⟩
  | 126 => ⟨S400000, .i1⟩
  | 127 => ⟨S_, .i32⟩
  | _ => ⟨S100000x768, .f32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S1, .i32⟩
  | 5 => ⟨S_, .i32⟩
  | 6 => ⟨S400000x1, .i32⟩
  | 7 => ⟨S400000x1, .i1⟩
  | 8 => ⟨S1x1, .i32⟩
  | 9 => ⟨S400000x1, .i32⟩
  | 10 => ⟨S400000x1, .i1⟩
  | 11 => ⟨S400000x1, .i1⟩
  | 12 => ⟨S_, .i1⟩
  | 13 => ⟨S400000, .i1⟩
  | 14 => ⟨S400000x256, .f32⟩
  | 15 => ⟨S400000x256, .i1⟩
  | 16 => ⟨S_, .f32⟩
  | 17 => ⟨S400000x256, .f32⟩
  | 18 => ⟨S400000x256, .f32⟩
  | 19 => ⟨S_, .f32⟩
  | 20 => ⟨S50000x256, .f32⟩
  | 21 => ⟨S400000x1, .i32⟩
  | 22 => ⟨S50000x256, .f32⟩
  | 23 => ⟨S50000x256, .f32⟩
  | 24 => ⟨S50000x256, .f32⟩
  | 25 => ⟨S1x256x256, .f32⟩
  | 26 => ⟨S256x256, .f32⟩
  | 27 => ⟨S1x256x256, .f32⟩
  | 28 => ⟨S256x256, .f32⟩
  | 29 => ⟨S256x256, .f32⟩
  | 30 => ⟨S1x256, .f32⟩
  | 31 => ⟨S256, .f32⟩
  | 32 => ⟨S1x256, .f32⟩
  | 33 => ⟨S256, .f32⟩
  | 34 => ⟨S256, .f32⟩
  | 35 => ⟨S1x256x256, .f32⟩
  | 36 => ⟨S256x256, .f32⟩
  | 37 => ⟨S1x256x256, .f32⟩
  | 38 => ⟨S256x256, .f32⟩
  | 39 => ⟨S1x256, .f32⟩
  | 40 => ⟨S100000x256, .f32⟩
  | 41 => ⟨S1x256x256, .f32⟩
  | 42 => ⟨S256x256, .f32⟩
  | 43 => ⟨S1x256x256, .f32⟩
  | 44 => ⟨S256x256, .f32⟩
  | 45 => ⟨S1x256, .f32⟩
  | 46 => ⟨S256, .f32⟩
  | 47 => ⟨S1x256, .f32⟩
  | 48 => ⟨S50000x256, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S1, .i32⟩
  | 58 => ⟨S_, .i32⟩
  | 59 => ⟨S800000x1, .i32⟩
  | 60 => ⟨S800000x1, .i1⟩
  | 61 => ⟨S1x1, .i32⟩
  | 62 => ⟨S800000x1, .i32⟩
  | 63 => ⟨S800000x1, .i1⟩
  | 64 => ⟨S800000x1, .i1⟩
  | 65 => ⟨S_, .i1⟩
  | 66 => ⟨S800000, .i1⟩
  | 67 => ⟨S800000x256, .f32⟩
  | 68 => ⟨S800000x256, .i1⟩
  | 69 => ⟨S_, .f32⟩
  | 70 => ⟨S800000x256, .f32⟩
  | 71 => ⟨S800000x256, .f32⟩
  | 72 => ⟨S_, .f32⟩
  | 73 => ⟨S100000x256, .f32⟩
  | 74 => ⟨S800000x1, .i32⟩
  | 75 => ⟨S100000x256, .f32⟩
  | 76 => ⟨S100000x256, .f32⟩
  | 77 => ⟨S100000x256, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S1, .i32⟩
  | 87 => ⟨S_, .i32⟩
  | 88 => ⟨S400000x1, .i32⟩
  | 89 => ⟨S400000x1, .i1⟩
  | 90 => ⟨S1x1, .i32⟩
  | 91 => ⟨S400000x1, .i32⟩
  | 92 => ⟨S400000x1, .i1⟩
  | 93 => ⟨S400000x1, .i1⟩
  | 94 => ⟨S_, .i1⟩
  | 95 => ⟨S400000, .i1⟩
  | 96 => ⟨S400000x256, .f32⟩
  | 97 => ⟨S400000x256, .i1⟩
  | 98 => ⟨S_, .f32⟩
  | 99 => ⟨S400000x256, .f32⟩
  | 100 => ⟨S400000x256, .f32⟩
  | 101 => ⟨S_, .f32⟩
  | 102 => ⟨S100000x256, .f32⟩
  | 103 => ⟨S400000x1, .i32⟩
  | 104 => ⟨S100000x256, .f32⟩
  | 105 => ⟨S100000x256, .f32⟩
  | 106 => ⟨S100000x256, .f32⟩
  | 107 => ⟨S_, .i32⟩
  | 108 => ⟨S400000, .i32⟩
  | 109 => ⟨S400000, .i1⟩
  | 110 => ⟨S_, .i32⟩
  | 111 => ⟨S400000, .i32⟩
  | 112 => ⟨S400000, .i32⟩
  | 113 => ⟨S400000, .i32⟩
  | 114 => ⟨S400000x1, .i32⟩
  | 115 => ⟨S1, .i32⟩
  | 116 => ⟨S_, .i32⟩
  | 117 => ⟨S400000x1, .i32⟩
  | 118 => ⟨S400000x1, .i1⟩
  | 119 => ⟨S1x1, .i32⟩
  | 120 => ⟨S400000x1, .i32⟩
  | 121 => ⟨S400000x1, .i1⟩
  | 122 => ⟨S400000x1, .i1⟩
  | 123 => ⟨S_, .i1⟩
  | 124 => ⟨S400000, .i1⟩
  | 125 => ⟨S400000x256, .f32⟩
  | 126 => ⟨S400000x256, .i1⟩
  | 127 => ⟨S_, .f32⟩
  | _ => ⟨S100000x768, .f32⟩

abbrev hbmTy0_2 (i : Nat) : BufTy := match i % 128 with
  | 0 => ⟨S400000x256, .f32⟩
  | 1 => ⟨S400000x256, .f32⟩
  | 2 => ⟨S_, .f32⟩
  | 3 => ⟨S50000x256, .f32⟩
  | 4 => ⟨S400000x1, .i32⟩
  | 5 => ⟨S50000x256, .f32⟩
  | 6 => ⟨S50000x256, .f32⟩
  | 7 => ⟨S50000x256, .f32⟩
  | 8 => ⟨S1x256x256, .f32⟩
  | 9 => ⟨S256x256, .f32⟩
  | 10 => ⟨S1x256x256, .f32⟩
  | 11 => ⟨S256x256, .f32⟩
  | 12 => ⟨S256x256, .f32⟩
  | 13 => ⟨S1x256, .f32⟩
  | 14 => ⟨S256, .f32⟩
  | 15 => ⟨S1x256, .f32⟩
  | 16 => ⟨S256, .f32⟩
  | 17 => ⟨S256, .f32⟩
  | 18 => ⟨S1x256x256, .f32⟩
  | 19 => ⟨S256x256, .f32⟩
  | 20 => ⟨S1x256x256, .f32⟩
  | 21 => ⟨S256x256, .f32⟩
  | 22 => ⟨S1x256, .f32⟩
  | 23 => ⟨S100000x256, .f32⟩
  | 24 => ⟨S1x256x256, .f32⟩
  | 25 => ⟨S256x256, .f32⟩
  | 26 => ⟨S1x256x256, .f32⟩
  | 27 => ⟨S256x256, .f32⟩
  | 28 => ⟨S1x256, .f32⟩
  | 29 => ⟨S256, .f32⟩
  | 30 => ⟨S1x256, .f32⟩
  | 31 => ⟨S50000x256, .f32⟩
  | _ => ⟨S100000x768, .f32⟩

abbrev hbmTy (i : Nat) : BufTy := match i / 128 with
  | 0 => hbmTy0_0 i
  | 1 => hbmTy0_1 i
  | 2 => hbmTy0_2 i
  | _ => ⟨S100000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S2000x256, .f32⟩
  | .local _ .vmem, ⟨4, _⟩ => ⟨S2000x256, .f32⟩
  | .local _ .vmem, ⟨5, _⟩ => ⟨S2000x1024, .f32⟩
  | .local _ .vmem, ⟨6, _⟩ => ⟨S2000x1024, .f32⟩
  | .local _ .vmem, ⟨7, _⟩ => ⟨S1024x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S1x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S256x256, .f32⟩
  | .local _ .vmem, ⟨52, _⟩ => ⟨S256x256, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call0_c : Ref sig .tc := ⟨.hbm, 66, rfl⟩
abbrev main_call0_v0 : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_c_1 : Ref sig .tc := ⟨.hbm, 74, rfl⟩
abbrev main_call0_c_2 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_3 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_call0_cst : Ref sig .tc := ⟨.hbm, 86, rfl⟩
abbrev main_call0_v15 : Ref sig .tc := ⟨.hbm, 87, rfl⟩
abbrev main_v41 : Ref sig .tc := ⟨.hbm, 88, rfl⟩
abbrev main_cst_11 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_call1_c : Ref sig .tc := ⟨.hbm, 95, rfl⟩
abbrev main_call1_v0 : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_c_1 : Ref sig .tc := ⟨.hbm, 103, rfl⟩
abbrev main_call1_c_2 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_c_3 : Ref sig .tc := ⟨.hbm, 111, rfl⟩
abbrev main_call1_v12 : Ref sig .tc := ⟨.hbm, 112, rfl⟩
abbrev main_call1_v13 : Ref sig .tc := ⟨.hbm, 113, rfl⟩
abbrev main_call1_v14 : Ref sig .tc := ⟨.hbm, 114, rfl⟩
abbrev main_call1_cst : Ref sig .tc := ⟨.hbm, 115, rfl⟩
abbrev main_call1_v15 : Ref sig .tc := ⟨.hbm, 116, rfl⟩
abbrev main_v47 : Ref sig .tc := ⟨.hbm, 117, rfl⟩
abbrev main_cst_12 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v53 : Ref sig .tc := ⟨.hbm, 146, rfl⟩
abbrev main_cst_13 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_call3_c : Ref sig .tc := ⟨.hbm, 177, rfl⟩
abbrev main_call3_v0 : Ref sig .tc := ⟨.hbm, 178, rfl⟩
abbrev main_call3_v1 : Ref sig .tc := ⟨.hbm, 179, rfl⟩
abbrev main_call3_c_0 : Ref sig .tc := ⟨.hbm, 180, rfl⟩
abbrev main_call3_v2 : Ref sig .tc := ⟨.hbm, 181, rfl⟩
abbrev main_call3_v3 : Ref sig .tc := ⟨.hbm, 182, rfl⟩
abbrev main_call3_v4 : Ref sig .tc := ⟨.hbm, 183, rfl⟩
abbrev main_call3_v5 : Ref sig .tc := ⟨.hbm, 184, rfl⟩
abbrev main_call3_c_1 : Ref sig .tc := ⟨.hbm, 185, rfl⟩
abbrev main_call3_c_2 : Ref sig .tc := ⟨.hbm, 186, rfl⟩
abbrev main_call3_v6 : Ref sig .tc := ⟨.hbm, 187, rfl⟩
abbrev main_call3_v7 : Ref sig .tc := ⟨.hbm, 188, rfl⟩
abbrev main_call3_v8 : Ref sig .tc := ⟨.hbm, 189, rfl⟩
abbrev main_call3_v9 : Ref sig .tc := ⟨.hbm, 190, rfl⟩
abbrev main_call3_v10 : Ref sig .tc := ⟨.hbm, 191, rfl⟩
abbrev main_call3_v11 : Ref sig .tc := ⟨.hbm, 192, rfl⟩
abbrev main_call3_c_3 : Ref sig .tc := ⟨.hbm, 193, rfl⟩
abbrev main_call3_v12 : Ref sig .tc := ⟨.hbm, 194, rfl⟩
abbrev main_call3_v13 : Ref sig .tc := ⟨.hbm, 195, rfl⟩
abbrev main_call3_v14 : Ref sig .tc := ⟨.hbm, 196, rfl⟩
abbrev main_call3_cst : Ref sig .tc := ⟨.hbm, 197, rfl⟩
abbrev main_call3_v15 : Ref sig .tc := ⟨.hbm, 198, rfl⟩
abbrev main_v83 : Ref sig .tc := ⟨.hbm, 199, rfl⟩
abbrev main_cst_14 : Ref sig .tc := ⟨.hbm, 200, rfl⟩
abbrev main_v84 : Ref sig .tc := ⟨.hbm, 201, rfl⟩
abbrev main_v85 : Ref sig .tc := ⟨.hbm, 202, rfl⟩
abbrev main_v86 : Ref sig .tc := ⟨.hbm, 203, rfl⟩
abbrev main_v87 : Ref sig .tc := ⟨.hbm, 204, rfl⟩
abbrev main_v88 : Ref sig .tc := ⟨.hbm, 205, rfl⟩
abbrev main_call4_c : Ref sig .tc := ⟨.hbm, 206, rfl⟩
abbrev main_call4_v0 : Ref sig .tc := ⟨.hbm, 207, rfl⟩
abbrev main_call4_v1 : Ref sig .tc := ⟨.hbm, 208, rfl⟩
abbrev main_call4_c_0 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_c_1 : Ref sig .tc := ⟨.hbm, 214, rfl⟩
abbrev main_call4_c_2 : Ref sig .tc := ⟨.hbm, 215, rfl⟩
abbrev main_call4_v6 : Ref sig .tc := ⟨.hbm, 216, rfl⟩
abbrev main_call4_v7 : Ref sig .tc := ⟨.hbm, 217, rfl⟩
abbrev main_call4_v8 : Ref sig .tc := ⟨.hbm, 218, rfl⟩
abbrev main_call4_v9 : Ref sig .tc := ⟨.hbm, 219, rfl⟩
abbrev main_call4_v10 : Ref sig .tc := ⟨.hbm, 220, rfl⟩
abbrev main_call4_v11 : Ref sig .tc := ⟨.hbm, 221, rfl⟩
abbrev main_call4_c_3 : Ref sig .tc := ⟨.hbm, 222, rfl⟩
abbrev main_call4_v12 : Ref sig .tc := ⟨.hbm, 223, rfl⟩
abbrev main_call4_v13 : Ref sig .tc := ⟨.hbm, 224, rfl⟩
abbrev main_call4_v14 : Ref sig .tc := ⟨.hbm, 225, rfl⟩
abbrev main_call4_cst : Ref sig .tc := ⟨.hbm, 226, rfl⟩
abbrev main_call4_v15 : Ref sig .tc := ⟨.hbm, 227, rfl⟩
abbrev main_v89 : Ref sig .tc := ⟨.hbm, 228, rfl⟩
abbrev main_cst_15 : Ref sig .tc := ⟨.hbm, 229, rfl⟩
abbrev main_v90 : Ref sig .tc := ⟨.hbm, 230, rfl⟩
abbrev main_v91 : Ref sig .tc := ⟨.hbm, 231, rfl⟩
abbrev main_v92 : Ref sig .tc := ⟨.hbm, 232, rfl⟩
abbrev main_v93 : Ref sig .tc := ⟨.hbm, 233, rfl⟩
abbrev main_v94 : Ref sig .tc := ⟨.hbm, 234, rfl⟩
abbrev main_call5_c : Ref sig .tc := ⟨.hbm, 235, rfl⟩
abbrev main_call5_v0 : Ref sig .tc := ⟨.hbm, 236, rfl⟩
abbrev main_call5_v1 : Ref sig .tc := ⟨.hbm, 237, rfl⟩
abbrev main_call5_c_0 : Ref sig .tc := ⟨.hbm, 238, rfl⟩
abbrev main_call5_v2 : Ref sig .tc := ⟨.hbm, 239, rfl⟩
abbrev main_call5_v3 : Ref sig .tc := ⟨.hbm, 240, rfl⟩
abbrev main_call5_v4 : Ref sig .tc := ⟨.hbm, 241, rfl⟩
abbrev main_call5_v5 : Ref sig .tc := ⟨.hbm, 242, rfl⟩
abbrev main_call5_c_1 : Ref sig .tc := ⟨.hbm, 243, rfl⟩
abbrev main_call5_c_2 : Ref sig .tc := ⟨.hbm, 244, rfl⟩
abbrev main_call5_v6 : Ref sig .tc := ⟨.hbm, 245, rfl⟩
abbrev main_call5_v7 : Ref sig .tc := ⟨.hbm, 246, rfl⟩
abbrev main_call5_v8 : Ref sig .tc := ⟨.hbm, 247, rfl⟩
abbrev main_call5_v9 : Ref sig .tc := ⟨.hbm, 248, rfl⟩
abbrev main_call5_v10 : Ref sig .tc := ⟨.hbm, 249, rfl⟩
abbrev main_call5_v11 : Ref sig .tc := ⟨.hbm, 250, rfl⟩
abbrev main_call5_c_3 : Ref sig .tc := ⟨.hbm, 251, rfl⟩
abbrev main_call5_v12 : Ref sig .tc := ⟨.hbm, 252, rfl⟩
abbrev main_call5_v13 : Ref sig .tc := ⟨.hbm, 253, rfl⟩
abbrev main_call5_v14 : Ref sig .tc := ⟨.hbm, 254, rfl⟩
abbrev main_call5_cst : Ref sig .tc := ⟨.hbm, 255, rfl⟩
abbrev main_call5_v15 : Ref sig .tc := ⟨.hbm, 256, rfl⟩
abbrev main_v95 : Ref sig .tc := ⟨.hbm, 257, rfl⟩
abbrev main_cst_16 : Ref sig .tc := ⟨.hbm, 258, rfl⟩
abbrev main_v96 : Ref sig .tc := ⟨.hbm, 259, rfl⟩
abbrev main_v97 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_v101 : Ref sig .tc := ⟨.hbm, 264, rfl⟩
abbrev main_v102 : Ref sig .tc := ⟨.hbm, 265, rfl⟩
abbrev main_v103 : Ref sig .tc := ⟨.hbm, 266, rfl⟩
abbrev main_v104 : Ref sig .tc := ⟨.hbm, 267, rfl⟩
abbrev main_v105 : Ref sig .tc := ⟨.hbm, 268, rfl⟩
abbrev main_v106 : Ref sig .tc := ⟨.hbm, 269, rfl⟩
abbrev main_v107 : Ref sig .tc := ⟨.hbm, 270, rfl⟩
abbrev main_v108 : Ref sig .tc := ⟨.hbm, 271, rfl⟩
abbrev main_v109 : Ref sig .tc := ⟨.hbm, 272, rfl⟩
abbrev main_v110 : Ref sig .tc := ⟨.hbm, 273, rfl⟩
abbrev main_v111 : Ref sig .tc := ⟨.hbm, 274, rfl⟩
abbrev main_v112 : Ref sig .tc := ⟨.hbm, 275, rfl⟩
abbrev main_v113 : Ref sig .tc := ⟨.hbm, 276, rfl⟩
abbrev main_v114 : Ref sig .tc := ⟨.hbm, 277, rfl⟩
abbrev main_v115 : Ref sig .tc := ⟨.hbm, 278, rfl⟩
abbrev main_v116 : Ref sig .tc := ⟨.hbm, 279, rfl⟩
abbrev main_v117 : Ref sig .tc := ⟨.hbm, 280, rfl⟩
abbrev main_v118 : Ref sig .tc := ⟨.hbm, 281, rfl⟩
abbrev main_v119 : Ref sig .tc := ⟨.hbm, 282, rfl⟩
abbrev main_v120 : Ref sig .tc := ⟨.hbm, 283, rfl⟩
abbrev main_v121 : Ref sig .tc := ⟨.hbm, 284, rfl⟩
abbrev main_v122 : Ref sig .tc := ⟨.hbm, 285, rfl⟩
abbrev main_v123 : Ref sig .tc := ⟨.hbm, 286, rfl⟩
abbrev main_v124 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  inb_S2000x768_S2000x768_0_0 : ∀ a, (![0, 0] : Fin 2 → Nat) a + S2000x768.size a ≤ S2000x768.size a
  h_S2000x768 : 0 < S2000x768.numel
  inb_S768x256_S768x256_0_0 : ∀ a, (![0, 0] : Fin 2 → Nat) a + S768x256.size a ≤ S768x256.size a
  h_S768x256 : 0 < S768x256.numel
  inb_S2000x256_S2000x256_0_0 : ∀ a, (![0, 0] : Fin 2 → Nat) a + S2000x256.size a ≤ S2000x256.size a
  h_S2000x256 : 0 < S2000x256.numel
  inb_S2000x1024_S2000x1024_0_0 : ∀ a, (![0, 0] : Fin 2 → Nat) a + S2000x1024.size a ≤ S2000x1024.size a
  h_S2000x1024 : 0 < S2000x1024.numel
  inb_S1024x256_S1024x256_0_0 : ∀ a, (![0, 0] : Fin 2 → Nat) a + S1024x256.size a ≤ S1024x256.size a
  h_S1024x256 : 0 < S1024x256.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x256_0 : S400000.BroadcastsInDim S400000x256 (![0] : Fin 1 → Fin S400000x256.rank)
  bcast_S_S400000x256 : S_.BroadcastsInDim S400000x256 (![] : Fin 0 → Fin S400000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S3x256x256_S1x256x256_0_0_0 : S3x256x256.Slices ![0, 0, 0] S1x256x256
  shapeCasts_S1x256x256_S256x256 : S1x256x256.ShapeCasts S256x256
  slices_S3x256x256_S1x256x256_2_0_0 : S3x256x256.Slices ![2, 0, 0] S1x256x256
  slices_S3x256_S1x256_0_0 : S3x256.Slices ![0, 0] S1x256
  shapeCasts_S1x256_S256 : S1x256.ShapeCasts S256
  slices_S3x256_S1x256_2_0 : S3x256.Slices ![2, 0] S1x256
  shapeCasts_S256_S1x256 : S256.ShapeCasts S1x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S3x256x256_S1x256x256_1_0_0 : S3x256x256.Slices ![1, 0, 0] S1x256x256
  slices_S3x256_S1x256_1_0 : S3x256.Slices ![1, 0] S1x256
  reduces_S2000x256_S2000 : S2000x256.Reduces [1] S2000
  shapeCasts_S2000_S2000x1 : S2000.ShapeCasts S2000x1
  broadcasts_S2000x1_S2000x256 : S2000x1.Broadcasts S2000x256
  scatter_S100000_S800000x1_S800000_n_0_0_1_wf : ScatterDims.WF S100000 S800000x1 S800000 [] [0] [0] 1
  scatter_S50000_S400000x1_S400000_n_0_0_1_wf : ScatterDims.WF S50000 S400000x1 S400000 [] [0] [0] 1
  scatter_S100000_S400000x1_S400000_n_0_0_1_wf : ScatterDims.WF S100000 S400000x1 S400000 [] [0] [0] 1
  dot_S2000x768_S768x256_S2000x256_1_0_0_1_n_n_wf : DotDims.WF S2000x768 S768x256 S2000x256 [1] [0] [0] [1] [] []
  dot_S2000x1024_S1024x256_S2000x256_1_0_0_1_n_n_wf : DotDims.WF S2000x1024 S1024x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  gather_S50000x256_S400000x1_S400000x256_1_0_n_n_0_1_1256_wf : GatherDims.WF S50000x256 S400000x1 S400000x256 [1] [0] [] [0] [] 1 ![1, 256]
  scatter_S100000x256_S400000x1_S400000x256_1_0_0_1_wf : ScatterDims.WF S100000x256 S400000x1 S400000x256 [1] [0] [0] 1
  gather_S100000x256_S400000x1_S400000x256_1_0_n_n_0_1_1256_wf : GatherDims.WF S100000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1024.size a ≤ S50000x1024.size a
  hwx1_0 : ∀ i : grid1.Coords, EltTy.bits .f32 = 32 ∨ (Rect.block (s := S50000x1024) S2000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .f32 = 32 ∨ (Rect.block (s := S1024x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S100000x256.size a
  hwx2_7 : ∀ i : grid2.Coords, EltTy.bits .f32 = 32 ∨ (Rect.block (s := S100000x256) S2000x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S100000x256.size a
  hwx2_8 : ∀ i : grid2.Coords, EltTy.bits .f32 = 32 ∨ (Rect.block (s := S100000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S100000x256.size a
  hwx4_7 : ∀ i : grid4.Coords, EltTy.bits .f32 = 32 ∨ (Rect.block (s := S100000x256) S2000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v70) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S2000x256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v74) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v58) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S2000x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v82) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v88) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v112) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v114) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v115) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v116) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v100) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x768 : Shape := ⟨2, ![100000, 768]⟩
abbrev S50000x1024 : Shape := ⟨2, ![50000, 1024]⟩
abbrev S2x800000 : Shape := ⟨2, ![2, 800000]⟩
abbrev S2x400000 : Shape := ⟨2, ![2, 400000]⟩
abbrev S768x256 : Shape := ⟨2, ![768, 256]⟩
abbrev S1024x256 : Shape := ⟨2, ![1024, 256]⟩
abbrev S3x256x256 : Shape := ⟨3, ![3, 256, 256]⟩
abbrev S3x256 : Shape := ⟨2, ![3, 256]⟩
abbrev S100000x256 : Shape := ⟨2, ![100000, 256]⟩
abbrev S50000x256 : Shape := ⟨2, ![50000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S100000x1 : Shape := ⟨2, ![100000, 1]⟩
abbrev S1x400000 : Shape := ⟨2, ![1, 400000]⟩
abbrev S400000 : Shape := ⟨1, ![400000]⟩
abbrev S400000x1 : Shape := ⟨2, ![400000, 1]⟩
abbrev S400000x256 : Shape := ⟨2, ![400000, 256]⟩
abbrev S50000x1 : Shape := ⟨2, ![50000, 1]⟩
abbrev S100000 : Shape := ⟨1, ![100000]⟩
abbrev S50000 : Shape := ⟨1, ![50000]⟩

abbrev nBuf : Space → Nat
  | .hbm => 297
  | .vmem => 0
  | .smem => 0
  | _ => 0

abbrev hbmTy0_0 (i : Nat) : BufTy := match i % 128 with
  | 0 => ⟨S100000x768, .f32⟩
  | 1 => ⟨S50000x1024, .f32⟩
  | 2 => ⟨S2x800000, .i32⟩
  | 3 => ⟨S2x400000, .i32⟩
  | 4 => ⟨S2x400000, .i32⟩
  | 5 => ⟨S768x256, .f32⟩
  | 6 => ⟨S1024x256, .f32⟩
  | 7 => ⟨S3x256x256, .f32⟩
  | 8 => ⟨S3x256, .f32⟩
  | 9 => ⟨S3x256x256, .f32⟩
  | 10 => ⟨S3x256x256, .f32⟩
  | 11 => ⟨S3x256, .f32⟩
  | 12 => ⟨S3x256x256, .f32⟩
  | 13 => ⟨S100000x256, .f32⟩
  | 14 => ⟨S50000x256, .f32⟩
  | 15 => ⟨S1x256x256, .f32⟩
  | 16 => ⟨S256x256, .f32⟩
  | 17 => ⟨S1x256, .f32⟩
  | 18 => ⟨S256, .f32⟩
  | 19 => ⟨S1x256x256, .f32⟩
  | 20 => ⟨S256x256, .f32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x256, .f32⟩
  | 32 => ⟨S1x800000, .i32⟩
  | 33 => ⟨S800000, .i32⟩
  | 34 => ⟨S_, .f32⟩
  | 35 => ⟨S100000x256, .f32⟩
  | 36 => ⟨S800000x1, .i32⟩
  | 37 => ⟨S100000x256, .f32⟩
  | 38 => ⟨S_, .f32⟩
  | 39 => ⟨S800000x1, .f32⟩
  | 40 => ⟨S1x800000, .i32⟩
  | 41 => ⟨S800000, .i32⟩
  | 42 => ⟨S_, .f32⟩
  | 43 => ⟨S100000x1, .f32⟩
  | 44 => ⟨S800000x1, .i32⟩
  | 45 => ⟨S100000x1, .f32⟩
  | 46 => ⟨S_, .f32⟩
  | 47 => ⟨S100000x1, .f32⟩
  | 48 => ⟨S100000x1, .f32⟩
  | 49 => ⟨S100000x256, .f32⟩
  | 50 => ⟨S100000x256, .f32⟩
  | 51 => ⟨S100000x256, .f32⟩
  | 52 => ⟨S1x256, .f32⟩
  | 53 => ⟨S100000x256, .f32⟩
  | 54 => ⟨S100000x256, .f32⟩
  | 55 => ⟨S100000x256, .f32⟩
  | 56 => ⟨S100000x256, .f32⟩
  | 57 => ⟨S1x256x256, .f32⟩
  | 58 => ⟨S256x256, .f32⟩
  | 59 => ⟨S1x256, .f32⟩
  | 60 => ⟨S256, .f32⟩
  | 61 => ⟨S1x256x256, .f32⟩
  | 62 => ⟨S256x256, .f32⟩
  | 63 => ⟨S1x400000, .i32⟩
  | 64 => ⟨S400000, .i32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S1x400000, .i32⟩
  | 75 => ⟨S400000, .i32⟩
  | 76 => ⟨S_, .f32⟩
  | 77 => ⟨S100000x256, .f32⟩
  | 78 => ⟨S400000x1, .i32⟩
  | 79 => ⟨S100000x256, .f32⟩
  | 80 => ⟨S_, .f32⟩
  | 81 => ⟨S400000x1, .f32⟩
  | 82 => ⟨S1x400000, .i32⟩
  | 83 => ⟨S400000, .i32⟩
  | 84 => ⟨S_, .f32⟩
  | 85 => ⟨S100000x1, .f32⟩
  | 86 => ⟨S400000x1, .i32⟩
  | 87 => ⟨S100000x1, .f32⟩
  | 88 => ⟨S_, .f32⟩
  | 89 => ⟨S100000x1, .f32⟩
  | 90 => ⟨S100000x1, .f32⟩
  | 91 => ⟨S100000x256, .f32⟩
  | 92 => ⟨S100000x256, .f32⟩
  | 93 => ⟨S100000x256, .f32⟩
  | 94 => ⟨S1x256, .f32⟩
  | 95 => ⟨S100000x256, .f32⟩
  | 96 => ⟨S100000x256, .f32⟩
  | 97 => ⟨S100000x256, .f32⟩
  | 98 => ⟨S100000x256, .f32⟩
  | 99 => ⟨S100000x256, .f32⟩
  | 100 => ⟨S1x256x256, .f32⟩
  | 101 => ⟨S256x256, .f32⟩
  | 102 => ⟨S1x256, .f32⟩
  | 103 => ⟨S256, .f32⟩
  | 104 => ⟨S1x256x256, .f32⟩
  | 105 => ⟨S256x256, .f32⟩
  | 106 => ⟨S1x400000, .i32⟩
  | 107 => ⟨S400000, .i32⟩
  | 108 => ⟨S_, .i32⟩
  | 109 => ⟨S400000, .i32⟩
  | 110 => ⟨S400000, .i1⟩
  | 111 => ⟨S_, .i32⟩
  | 112 => ⟨S400000, .i32⟩
  | 113 => ⟨S400000, .i32⟩
  | 114 => ⟨S400000, .i32⟩
  | 115 => ⟨S400000x1, .i32⟩
  | 116 => ⟨S400000x256, .f32⟩
  | 117 => ⟨S1x400000, .i32⟩
  | 118 => ⟨S400000, .i32⟩
  | 119 => ⟨S_, .f32⟩
  | 120 => ⟨S50000x256, .f32⟩
  | 121 => ⟨S400000x1, .i32⟩
  | 122 => ⟨S50000x256, .f32⟩
  | 123 => ⟨S_, .f32⟩
  | 124 => ⟨S400000x1, .f32⟩
  | 125 => ⟨S1x400000, .i32⟩
  | 126 => ⟨S400000, .i32⟩
  | 127 => ⟨S_, .f32⟩
  | _ => ⟨S100000x768, .f32⟩

abbrev hbmTy0_1 (i : Nat) : BufTy := match i % 128 with
  | 0 => ⟨S50000x1, .f32⟩
  | 1 => ⟨S400000x1, .i32⟩
  | 2 => ⟨S50000x1, .f32⟩
  | 3 => ⟨S_, .f32⟩
  | 4 => ⟨S50000x1, .f32⟩
  | 5 => ⟨S50000x1, .f32⟩
  | 6 => ⟨S50000x256, .f32⟩
  | 7 => ⟨S50000x256, .f32⟩
  | 8 => ⟨S50000x256, .f32⟩
  | 9 => ⟨S1x256, .f32⟩
  | 10 => ⟨S50000x256, .f32⟩
  | 11 => ⟨S50000x256, .f32⟩
  | 12 => ⟨S50000x256, .f32⟩
  | 13 => ⟨S50000x256, .f32⟩
  | 14 => ⟨S_, .f32⟩
  | 15 => ⟨S100000x256, .f32⟩
  | 16 => ⟨S100000x256, .f32⟩
  | 17 => ⟨S100000x256, .f32⟩
  | 18 => ⟨S_, .f32⟩
  | 19 => ⟨S50000x256, .f32⟩
  | 20 => ⟨S50000x256, .f32⟩
  | 21 => ⟨S50000x256, .f32⟩
  | 22 => ⟨S1x256x256, .f32⟩
  | 23 => ⟨S256x256, .f32⟩
  | 24 => ⟨S1x256, .f32⟩
  | 25 => ⟨S256, .f32⟩
  | 26 => ⟨S1x256x256, .f32⟩
  | 27 => ⟨S256x256, .f32⟩
  | 28 => ⟨S1x800000, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x256, .f32⟩
  | 39 => ⟨S1x800000, .i32⟩
  | 40 => ⟨S800000, .i32⟩
  | 41 => ⟨S_, .f32⟩
  | 42 => ⟨S100000x256, .f32⟩
  | 43 => ⟨S800000x1, .i32⟩
  | 44 => ⟨S100000x256, .f32⟩
  | 45 => ⟨S_, .f32⟩
  | 46 => ⟨S800000x1, .f32⟩
  | 47 => ⟨S1x800000, .i32⟩
  | 48 => ⟨S800000, .i32⟩
  | 49 => ⟨S_, .f32⟩
  | 50 => ⟨S100000x1, .f32⟩
  | 51 => ⟨S800000x1, .i32⟩
  | 52 => ⟨S100000x1, .f32⟩
  | 53 => ⟨S_, .f32⟩
  | 54 => ⟨S100000x1, .f32⟩
  | 55 => ⟨S100000x1, .f32⟩
  | 56 => ⟨S100000x256, .f32⟩
  | 57 => ⟨S100000x256, .f32⟩
  | 58 => ⟨S100000x256, .f32⟩
  | 59 => ⟨S1x256, .f32⟩
  | 60 => ⟨S100000x256, .f32⟩
  | 61 => ⟨S100000x256, .f32⟩
  | 62 => ⟨S100000x256, .f32⟩
  | 63 => ⟨S100000x256, .f32⟩
  | 64 => ⟨S1x256x256, .f32⟩
  | 65 => ⟨S256x256, .f32⟩
  | 66 => ⟨S1x256, .f32⟩
  | 67 => ⟨S256, .f32⟩
  | 68 => ⟨S1x256x256, .f32⟩
  | 69 => ⟨S256x256, .f32⟩
  | 70 => ⟨S1x400000, .i32⟩
  | 71 => ⟨S400000, .i32⟩
  | 72 => ⟨S_, .i32⟩
  | 73 => ⟨S400000, .i32⟩
  | 74 => ⟨S400000, .i1⟩
  | 75 => ⟨S_, .i32⟩
  | 76 => ⟨S400000, .i32⟩
  | 77 => ⟨S400000, .i32⟩
  | 78 => ⟨S400000, .i32⟩
  | 79 => ⟨S400000x1, .i32⟩
  | 80 => ⟨S400000x256, .f32⟩
  | 81 => ⟨S1x400000, .i32⟩
  | 82 => ⟨S400000, .i32⟩
  | 83 => ⟨S_, .f32⟩
  | 84 => ⟨S100000x256, .f32⟩
  | 85 => ⟨S400000x1, .i32⟩
  | 86 => ⟨S100000x256, .f32⟩
  | 87 => ⟨S_, .f32⟩
  | 88 => ⟨S400000x1, .f32⟩
  | 89 => ⟨S1x400000, .i32⟩
  | 90 => ⟨S400000, .i32⟩
  | 91 => ⟨S_, .f32⟩
  | 92 => ⟨S100000x1, .f32⟩
  | 93 => ⟨S400000x1, .i32⟩
  | 94 => ⟨S100000x1, .f32⟩
  | 95 => ⟨S_, .f32⟩
  | 96 => ⟨S100000x1, .f32⟩
  | 97 => ⟨S100000x1, .f32⟩
  | 98 => ⟨S100000x256, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S100000x256, .f32⟩
  | 105 => ⟨S100000x256, .f32⟩
  | 106 => ⟨S100000x256, .f32⟩
  | 107 => ⟨S1x256x256, .f32⟩
  | 108 => ⟨S256x256, .f32⟩
  | 109 => ⟨S1x256, .f32⟩
  | 110 => ⟨S256, .f32⟩
  | 111 => ⟨S1x256x256, .f32⟩
  | 112 => ⟨S256x256, .f32⟩
  | 113 => ⟨S1x400000, .i32⟩
  | 114 => ⟨S400000, .i32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x256, .f32⟩
  | 124 => ⟨S1x400000, .i32⟩
  | 125 => ⟨S400000, .i32⟩
  | 126 => ⟨S_, .f32⟩
  | 127 => ⟨S50000x256, .f32⟩
  | _ => ⟨S100000x768, .f32⟩

abbrev hbmTy0_2 (i : Nat) : BufTy := match i % 128 with
  | 0 => ⟨S400000x1, .i32⟩
  | 1 => ⟨S50000x256, .f32⟩
  | 2 => ⟨S_, .f32⟩
  | 3 => ⟨S400000x1, .f32⟩
  | 4 => ⟨S1x400000, .i32⟩
  | 5 => ⟨S400000, .i32⟩
  | 6 => ⟨S_, .f32⟩
  | 7 => ⟨S50000x1, .f32⟩
  | 8 => ⟨S400000x1, .i32⟩
  | 9 => ⟨S50000x1, .f32⟩
  | 10 => ⟨S_, .f32⟩
  | 11 => ⟨S50000x1, .f32⟩
  | 12 => ⟨S50000x1, .f32⟩
  | 13 => ⟨S50000x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S50000x256, .f32⟩
  | 20 => ⟨S50000x256, .f32⟩
  | 21 => ⟨S100000x256, .f32⟩
  | 22 => ⟨S_, .f32⟩
  | 23 => ⟨S100000, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S100000x256, .f32⟩
  | 30 => ⟨S100000x256, .f32⟩
  | 31 => ⟨S50000x256, .f32⟩
  | 32 => ⟨S_, .f32⟩
  | 33 => ⟨S50000, .f32⟩
  | 34 => ⟨S50000x1, .f32⟩
  | 35 => ⟨S50000x1, .f32⟩
  | 36 => ⟨S_, .f32⟩
  | 37 => ⟨S50000x1, .f32⟩
  | 38 => ⟨S50000x1, .f32⟩
  | 39 => ⟨S50000x256, .f32⟩
  | 40 => ⟨S50000x256, .f32⟩
  | _ => ⟨S100000x768, .f32⟩

abbrev hbmTy (i : Nat) : BufTy := match i / 128 with
  | 0 => hbmTy0_0 i
  | 1 => hbmTy0_1 i
  | 2 => hbmTy0_2 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_c_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_7 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_10 : Ref sig .tc := ⟨.hbm, 108, rfl⟩
abbrev main_v83 : Ref sig .tc := ⟨.hbm, 109, rfl⟩
abbrev main_v84 : Ref sig .tc := ⟨.hbm, 110, rfl⟩
abbrev main_c_11 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_12 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_13 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_14 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_15 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_call0_cst : Ref sig .tc := ⟨.hbm, 142, rfl⟩
abbrev main_call0_v0 : Ref sig .tc := ⟨.hbm, 143, rfl⟩
abbrev main_v111 : Ref sig .tc := ⟨.hbm, 144, rfl⟩
abbrev main_v112 : Ref sig .tc := ⟨.hbm, 145, rfl⟩
abbrev main_call1_cst : Ref sig .tc := ⟨.hbm, 146, rfl⟩
abbrev main_call1_v0 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_16 : Ref sig .tc := ⟨.hbm, 158, rfl⟩
abbrev main_v123 : Ref sig .tc := ⟨.hbm, 159, rfl⟩
abbrev main_v124 : Ref sig .tc := ⟨.hbm, 160, rfl⟩
abbrev main_c_17 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_18 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_19 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_20 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_21 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_c_22 : Ref sig .tc := ⟨.hbm, 200, rfl⟩
abbrev main_v159 : Ref sig .tc := ⟨.hbm, 201, rfl⟩
abbrev main_v160 : Ref sig .tc := ⟨.hbm, 202, rfl⟩
abbrev main_c_23 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_cst_24 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_25 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_cst_26 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_27 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_c_28 : Ref sig .tc := ⟨.hbm, 243, rfl⟩
abbrev main_v196 : Ref sig .tc := ⟨.hbm, 244, rfl⟩
abbrev main_v197 : Ref sig .tc := ⟨.hbm, 245, rfl⟩
abbrev main_c_29 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_cst_30 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_cst_31 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_cst_32 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_cst_33 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_cst_34 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_cst_35 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_cst_36 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_cst_37 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩

abbrev nD : Nat := 1
abbrev τ : Topo := Topo.v7x

variable {F : FTy → Type} [FloatOps F]

class Facts₀ : Prop where
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S100000x256 : S_.BroadcastsInDim S100000x256 (![] : Fin 0 → Fin S100000x256.rank)
  bcast_S_S800000x1 : S_.BroadcastsInDim S800000x1 (![] : Fin 0 → Fin S800000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S3x256x256_S1x256x256_2_0_0 : S3x256x256.Slices ![2, 0, 0] S1x256x256
  slices_S3x256_S1x256_2_0 : S3x256.Slices ![2, 0] S1x256
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  bcast_S_S400000x1 : S_.BroadcastsInDim S400000x1 (![] : Fin 0 → Fin S400000x1.rank)
  slices_S3x256x256_S1x256x256_1_0_0 : S3x256x256.Slices ![1, 0, 0] S1x256x256
  slices_S3x256_S1x256_1_0 : S3x256.Slices ![1, 0] S1x256
  bcast_S_S50000x256 : S_.BroadcastsInDim S50000x256 (![] : Fin 0 → Fin S50000x256.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  reducesTo_S50000x256_S50000_d1 : S50000x256.ReducesTo [1] S50000
  bcast_S50000_S50000x1_0 : S50000.BroadcastsInDim S50000x1 (![0] : Fin 1 → Fin S50000x1.rank)
  dot_S100000x768_S768x256_S100000x256_1_0_0_1_n_n_wf : DotDims.WF S100000x768 S768x256 S100000x256 [1] [0] [0] [1] [] []
  dot_S50000x1024_S1024x256_S50000x256_1_0_0_1_n_n_wf : DotDims.WF S50000x1024 S1024x256 S50000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000x1_S800000x1_S800000x1_1_0_0_1_wf : ScatterDims.WF S100000x1 S800000x1 S800000x1 [1] [0] [0] 1
  dot_S100000x256_S256x256_S100000x256_1_0_0_1_n_n_wf : DotDims.WF S100000x256 S256x256 S100000x256 [1] [0] [0] [1] [] []
  gather_S50000x256_S400000x1_S400000x256_1_0_n_n_0_1_1256_wf : GatherDims.WF S50000x256 S400000x1 S400000x256 [1] [0] [] [0] [] 1 ![1, 256]
  scatter_S100000x256_S400000x1_S400000x256_1_0_0_1_wf : ScatterDims.WF S100000x256 S400000x1 S400000x256 [1] [0] [0] 1
  scatter_S100000x1_S400000x1_S400000x1_1_0_0_1_wf : ScatterDims.WF S100000x1 S400000x1 S400000x1 [1] [0] [0] 1
  gather_S100000x256_S400000x1_S400000x256_1_0_n_n_0_1_1256_wf : GatherDims.WF S100000x256 S400000x1 S400000x256 [1] [0] [] [0] [] 1 ![1, 256]
  scatter_S50000x256_S400000x1_S400000x256_1_0_0_1_wf : ScatterDims.WF S50000x256 S400000x1 S400000x256 [1] [0] [0] 1
  scatter_S50000x1_S400000x1_S400000x1_1_0_0_1_wf : ScatterDims.WF S50000x1 S400000x1 S400000x1 [1] [0] [0] 1
  dot_S50000x256_S256x256_S50000x256_1_0_0_1_n_n_wf : DotDims.WF S50000x256 S256x256 S50000x256 [1] [0] [0] [1] [] []

variable [Facts₀]

def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def dot_S50000x1024_S1024x256_S50000x256_1_0_0_1_n_n : DotDims S50000x1024 S1024x256 S50000x256 where
  lhsContracting := [1]
  rhsContracting := [0]
  lhsNonContracting := [0]
  rhsNonContracting := [1]
  lhsBatch := []
  rhsBatch := []
  wf := dot_S50000x1024_S1024x256_S50000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KReg0.lean ====
import proofs.«412619_j24352464570114_1_alg».proof.Proof.Gen.Kernel.Launch
import proofs.«412619_j24352464570114_1_alg».proof.Proof.Gen.Kernel.Skeleton
import proofs.«412619_j24352464570114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA
open Idealize.ShloMosaic.Pipeline (Dat BodyObligation)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2000x768 := Rect.unit (s := S2000x768) ![0, 0] S2000x768.size inb_S2000x768_S2000x768_0_0
abbrev rP0 : Rect S768x256 := Rect.unit (s := S768x256) ![0, 0] S768x256.size inb_S768x256_S768x256_0_0
abbrev rO0 : Rect S2000x256 := Rect.unit (s := S2000x256) ![0, 0] S2000x256.size inb_S2000x256_S2000x256_0_0

def out0 (x0 : Vec F S2000x768 .f32) (x1 : Vec F S768x256 .f32) : Vec F S2000x256 .f32 :=
  View.canon [⟨rO0, k0_pay1 (View.ld x0 rX0) (View.ld x1 rP0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0 (iblk0 V c 0 t) (iblk0 V c 1 t) := by dsimp only [dat0]

theorem before0 (c : Dev nD) (t : Fin cfg0.N) :
    (∀ d, (dat0 V c).before 0 t d = iblk0 V c 0 t) ∧ (∀ d, (dat0 V c).before 1 t d = iblk0 V c 1 t) := by
  refine ⟨?_, ?_⟩ <;>
    exact fun d => ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0]
  dsimp only [dat0, Dat.owesAt, Dat.bound]
  sl_whnfR [defs₀, Defs.onTc]
  simp only [cc0__proj_kernel_eq_skeleton]; unfold cc0__proj_kernel_skel
  unfold owns
  iintro ⟨HΦ, Ho, ⟨%d0, %f0, %h0, H0⟩, ⟨%d1, %f1, %h1, H1⟩, ⟨%d2, %f2, -, H2⟩⟩
  sl_exec
  sl_step
  iframe HΦ Ho
  isplitl [H0]
  · iexists f0; isplitr; · ipureintro; exact h0
    iexact H0
  isplitl [H1]
  · iexists f1; isplitr; · ipureintro; exact h1
    iexact H1
  iexists _; isplitr
  swap; · iexact H2
  ipureintro
  rw [← h0, ← h1]
  exact View.read_writes_eq_canon _ _ _ (View.cover_of_tiled _ S2000x256.size (by rfl))

end Cert.Kernel.Hand

end
-- ==== Proof.KReg1.lean ====
import proofs.«412619_j24352464570114_1_alg».proof.Proof.Gen.Kernel.Launch
import proofs.«412619_j24352464570114_1_alg».proof.Proof.Gen.Kernel.Skeleton
import proofs.«412619_j24352464570114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S2000x1024 : Rect S2000x1024 := Rect.unit (s := S2000x1024) ![0, 0] S2000x1024.size inb_S2000x1024_S2000x1024_0_0
abbrev r1_S1024x256 : Rect S1024x256 := Rect.unit (s := S1024x256) ![0, 0] S1024x256.size inb_S1024x256_S1024x256_0_0
abbrev r1_S2000x256 : Rect S2000x256 := Rect.unit (s := S2000x256) ![0, 0] S2000x256.size inb_S2000x256_S2000x256_0_0

def out1 (x0 : Vec F S2000x1024 .f32) (x1 : Vec F S1024x256 .f32) : Vec F S2000x256 .f32 :=
  View.canon [⟨r1_S2000x256, k1_pay1 (View.ld x0 r1_S2000x1024) (View.ld x1 r1_S1024x256)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1 (iblk1 V c 0 t) (iblk1 V c 1 t) := by dsimp only [dat1]

theorem before1 (c : Dev nD) (t : Fin cfg1.N) :
    (∀ d, (dat1 V c).before 0 t d = iblk1 V c 0 t) ∧ (∀ d, (dat1 V c).before 1 t d = iblk1 V c 1 t) := by
  refine ⟨?_, ?_⟩ <;>
    exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1]
  dsimp only [dat1, Dat.owesAt, Dat.bound]
  sl_whnfR [defs₀, Defs.onTc]
  simp only [cc1__proj_kernel_eq_skeleton]; unfold cc1__proj_kernel_skel
  unfold owns
  iintro ⟨HΦ, Ho, ⟨%d0, %f0, %h0, H0⟩, ⟨%d1, %f1, %h1, H1⟩, ⟨%d2, %f2, -, H2⟩⟩
  sl_exec
  sl_step
  iframe HΦ Ho
  isplitl [H0]
  · iexists f0; isplitr; · ipureintro; exact h0
    iexact H0
  isplitl [H1]
  · iexists f1; isplitr; · ipureintro; exact h1
    iexact H1
  iexists _; isplitr
  swap; · iexact H2
  ipureintro
  rw [← h0, ← h1]
  exact View.read_writes_eq_canon _ _ _ (View.cover_of_tiled _ S2000x256.size (by rfl))

end Cert.Kernel.Hand

end
-- ==== Proof.KReg2.lean ====
import proofs.«412619_j24352464570114_1_alg».proof.Proof.Gen.Kernel.Launch
import proofs.«412619_j24352464570114_1_alg».proof.Proof.Gen.Kernel.Skeleton
import proofs.«412619_j24352464570114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S2000x256 : Rect S2000x256 := Rect.unit (s := S2000x256) ![0, 0] S2000x256.size inb_S2000x256_S2000x256_0_0
abbrev r2_S256x256 : Rect S256x256 := Rect.unit (s := S256x256) ![0, 0] S256x256.size inb_S256x256_S256x256_0_0
abbrev r2_S1x256 : Rect S1x256 := Rect.unit (s := S1x256) ![0, 0] S1x256.size inb_S1x256_S1x256_0_0

def out2 (x0 : Vec F S2000x256 .f32) (x1 : Vec F S2000x256 .f32) (x2 : Vec F S2000x256 .f32) (x3 : Vec F S256x256 .f32) (x4 : Vec F S256x256 .f32) (x5 : Vec F S256x256 .f32) (x6 : Vec F S1x256 .f32) (x7 : Vec F S2000x256 .f32) : Vec F S2000x256 .f32 :=
  View.canon [⟨r2_S2000x256, k2_pay1 (View.ld x0 r2_S2000x256) (View.ld x3 r2_S256x256) (View.ld x1 r2_S2000x256) (View.ld x4 r2_S256x256) (View.ld x2 r2_S2000x256) (View.ld x5 r2_S256x256) (View.ld x6 r2_S1x256) (View.ld x7 r2_S2000x256)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨2, _⟩ => fullShare.left
    | ⟨7, _⟩ => fullShare.right
    | _ => fullShare
  owed _ := 0

theorem A_eq2 (c : Dev nD) (w : Fin cfg2.W) : (dat2 V c).A w = V c (Pipeline.arrRef spec2 w) := by
  dsimp only [dat2]

theorem after2_8 (c : Dev nD) (t : Fin cfg2.N) : (dat2 V c).after 8 t = out2 (iblk2 V c 0 t) (iblk2 V c 1 t) (iblk2 V c 2 t) (iblk2 V c 3 t) (iblk2 V c 4 t) (iblk2 V c 5 t) (iblk2 V c 6 t) (iblk2 V c 7 t) := by dsimp only [dat2]

theorem before2 (c : Dev nD) (t : Fin cfg2.N) :
    (∀ d, (dat2 V c).before 0 t d = iblk2 V c 0 t) ∧ (∀ d, (dat2 V c).before 1 t d = iblk2 V c 1 t) ∧
    (∀ d, (dat2 V c).before 2 t d = iblk2 V c 2 t) ∧ (∀ d, (dat2 V c).before 3 t d = iblk2 V c 3 t) ∧
    (∀ d, (dat2 V c).before 4 t d = iblk2 V c 4 t) ∧ (∀ d, (dat2 V c).before 5 t d = iblk2 V c 5 t) ∧
    (∀ d, (dat2 V c).before 6 t d = iblk2 V c 6 t) ∧ (∀ d, (dat2 V c).before 7 t d = iblk2 V c 7 t) := by
  refine ⟨?_, ?_, ?_, ?_, ?_, ?_, ?_, ?_⟩ <;>
    exact fun d => ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2]
  dsimp only [dat2, Dat.owesAt, Dat.bound]
  sl_whnfR [defs₀, Defs.onTc]
  simp only [cc2_kernel_eq_skeleton]; unfold cc2_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, -, H8⟩⟩
  sl_exec
  sl_step
  iframe HΦ Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists _; isplitr
  swap; · iexact H8
  ipureintro
  rw [← h0, ← h1, ← h2, ← h3, ← h4, ← h5, ← h6, ← h7]
  exact View.read_writes_eq_canon _ _ _ (View.cover_of_tiled _ S2000x256.size (by rfl))

end Cert.Kernel.Hand

end
-- ==== Proof.KReg3.lean ====
import proofs.«412619_j24352464570114_1_alg».proof.Proof.Gen.Kernel.Launch
import proofs.«412619_j24352464570114_1_alg».proof.Proof.Gen.Kernel.Skeleton
import proofs.«412619_j24352464570114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S2000x256 : Rect S2000x256 := Rect.unit (s := S2000x256) ![0, 0] S2000x256.size inb_S2000x256_S2000x256_0_0
abbrev r3_S256x256 : Rect S256x256 := Rect.unit (s := S256x256) ![0, 0] S256x256.size inb_S256x256_S256x256_0_0
abbrev r3_S1x256 : Rect S1x256 := Rect.unit (s := S1x256) ![0, 0] S1x256.size inb_S1x256_S1x256_0_0

def out3 (x0 : Vec F S2000x256 .f32) (x1 : Vec F S2000x256 .f32) (x2 : Vec F S256x256 .f32) (x3 : Vec F S256x256 .f32) (x4 : Vec F S1x256 .f32) (x5 : Vec F S2000x256 .f32) : Vec F S2000x256 .f32 :=
  View.canon [⟨r3_S2000x256, k3_pay1 (View.ld x0 r3_S2000x256) (View.ld x2 r3_S256x256) (View.ld x1 r3_S2000x256) (View.ld x3 r3_S256x256) (View.ld x4 r3_S1x256) (View.ld x5 r3_S2000x256)⟩]

theorem sound_kernel3 (c : Dev nD) (E : Set ℕ) (i : grid3.Coords) {arg1 arg2 arg6 arg7 : Memref sig .tc .vmem S2000x256 .f32} {arg3 arg4 : Memref sig .tc .vmem S256x256 .f32} {arg5 : Memref sig .tc .vmem S1x256 .f32}
    (harg1 : arg1.IsWhole) (harg2 : arg2.IsWhole) (harg3 : arg3.IsWhole) (harg4 : arg4.IsWhole) (harg5 : arg5.IsWhole) (harg6 : arg6.IsWhole) (harg7 : arg7.IsWhole)
    (x0 x1 : Vec F S2000x256 .f32) (x2 x3 : Vec F S256x256 .f32) (x4 : Vec F S1x256 .f32) (x5 : Vec F S2000x256 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ (∃ d, owns c.tc arg7 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out3 x0 x1 x2 x3 x4 x5)) -∗ K ⟨⟩))
      ⊢ wp frame (wpE defs₀ Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x256.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := match w with
    | ⟨1, _⟩ => fullShare.left
    | ⟨5, _⟩ => fullShare.right
    | _ => fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3 (c : Dev nD) : ∀ w : Fin 7, (cfg3.win w).isOut = false → ∀ (t : Fin cfg3.N) d, (dat3 V c).before w t d = (dat3 V c).after w t
  | 0, _ | 1, _ | 2, _ | 3, _ | 4, _ | 5, _ => (dat3 V c).before_in_eq_fetched _ rfl (fun _ => rfl) (fun _ _ _ => rfl) fun _ => rfl
  | 6, h => nomatch h

theorem body_obligation3 (c : Dev nD) : BodyObligation (dat3 (F := F) V c) (defs₀ (F := F)) Variants.none () Set.univ := fun t => by
  rw [bigSep_W3, bigSep_W3]
  simp +decide only [before3 V c]
  dsimp only [dat3]
  conv in defs₀ _ _ _ => change bodyAt3 t
  iintro ⟨HΦ, Ho, ⟨%d0, H0⟩, ⟨%d1, H1⟩, ⟨%d2, H2⟩, ⟨%d3, H3⟩, ⟨%d4, H4⟩, ⟨%d5, H5⟩, %d6, H6⟩
  iapply (sound_kernel3 c Set.univ (grid3.coords t) _ _ _ _ _ _ _ (iblk3 V c 0 t) (iblk3 V c 1 t) (iblk3 V c 2 t) (iblk3 V c 3 t) (iblk3 V c 4 t) (iblk3 V c 5 t) _)
  iframe
  isplitl [H6]; · iexists _; iexact H6
  iintro H
  iframe
  iapply Ho

end Cert.Kernel.Hand

end
-- ==== Proof.KReg4.lean ====
import proofs.«412619_j24352464570114_1_alg».proof.Proof.Gen.Kernel.Launch
import proofs.«412619_j24352464570114_1_alg».proof.Proof.Gen.Kernel.Skeleton
import proofs.«412619_j24352464570114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S2000x256 : Rect S2000x256 := Rect.unit (s := S2000x256) ![0, 0] S2000x256.size inb_S2000x256_S2000x256_0_0
abbrev r4_S256x256 : Rect S256x256 := Rect.unit (s := S256x256) ![0, 0] S256x256.size inb_S256x256_S256x256_0_0
abbrev r4_S1x256 : Rect S1x256 := Rect.unit (s := S1x256) ![0, 0] S1x256.size inb_S1x256_S1x256_0_0

def out4 (x0 : Vec F S2000x256 .f32) (x1 : Vec F S2000x256 .f32) (x2 : Vec F S2000x256 .f32) (x3 : Vec F S256x256 .f32) (x4 : Vec F S256x256 .f32) (x5 : Vec F S256x256 .f32) (x6 : Vec F S1x256 .f32) : Vec F S2000x256 .f32 :=
  View.canon [⟨r4_S2000x256, k4_pay1 (View.ld x0 r4_S2000x256) (View.ld x3 r4_S256x256) (View.ld x1 r4_S2000x256) (View.ld x4 r4_S256x256) (View.ld x2 r4_S2000x256) (View.ld x5 r4_S256x256) (View.ld x6 r4_S1x256)⟩]

theorem sound_kernel4 (c : Dev nD) (E : Set ℕ) (i : grid4.Coords) {arg1 arg2 arg3 arg8 : Memref sig .tc .vmem S2000x256 .f32} {arg4 arg5 arg6 : Memref sig .tc .vmem S256x256 .f32} {arg7 : Memref sig .tc .vmem S1x256 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole)
    (x0 x1 x2 : Vec F S2000x256 .f32) (x3 x4 x5 : Vec F S256x256 .f32) (x6 : Vec F S1x256 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ (∃ d, owns c.tc arg8 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare (out4 x0 x1 x2 x3 x4 x5 x6)) -∗ K ⟨⟩))
      ⊢ wp frame (wpE defs₀ Variants.none c none) E (cc4_kernel i arg1 harg1 arg2 harg2 arg3 harg3 arg4 harg4 arg5 harg5 arg6 harg6 arg7 harg7 arg8 harg8) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S2000x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_7 (c : Dev nD) (t : Fin cfg4.N) : (dat4 V c).after 7 t = out4 (iblk4 V c 0 t) (iblk4 V c 1 t) (iblk4 V c 2 t) (iblk4 V c 3 t) (iblk4 V c 4 t) (iblk4 V c 5 t) (iblk4 V c 6 t) := by dsimp only [dat4]

theorem before4 (c : Dev nD) : ∀ w : Fin 8, (cfg4.win w).isOut = false → ∀ (t : Fin cfg4.N) d, (dat4 V c).before w t d = (dat4 V c).after w t
  | 0, _ | 1, _ | 2, _ | 3, _ | 4, _ | 5, _ | 6, _ => (dat4 V c).before_in_eq_fetched _ rfl (fun _ => rfl) (fun _ _ _ => rfl) fun _ => rfl
  | 7, h => nomatch h

theorem body_obligation4 (c : Dev nD) : BodyObligation (dat4 (F := F) V c) (defs₀ (F := F)) Variants.none () Set.univ := fun t => by
  rw [bigSep_W4, bigSep_W4]
  simp +decide only [before4 V c]
  dsimp only [dat4]
  conv in defs₀ _ _ _ => change bodyAt4 t
  iintro ⟨HΦ, Ho, ⟨%d0, H0⟩, ⟨%d1, H1⟩, ⟨%d2, H2⟩, ⟨%d3, H3⟩, ⟨%d4, H4⟩, ⟨%d5, H5⟩, ⟨%d6, H6⟩, %d7, H7⟩
  iapply (sound_kernel4 c Set.univ (grid4.coords t) _ _ _ _ _ _ _ _ (iblk4 V c 0 t) (iblk4 V c 1 t) (iblk4 V c 2 t) (iblk4 V c 3 t) (iblk4 V c 4 t) (iblk4 V c 5 t) (iblk4 V c 6 t) _)
  iframe
  isplitl [H7]; · iexists _; iexact H7
  iintro H
  iframe
  iapply Ho

end Cert.Kernel.Hand

end
-- ==== Proof.KReg5.lean ====
import proofs.«412619_j24352464570114_1_alg».proof.Proof.Gen.Kernel.Launch
import proofs.«412619_j24352464570114_1_alg».proof.Proof.Gen.Kernel.Skeleton
import proofs.«412619_j24352464570114_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_S2000x256 : Rect S2000x256 := Rect.unit (s := S2000x256) ![0, 0] S2000x256.size inb_S2000x256_S2000x256_0_0
abbrev r5_S256x256 : Rect S256x256 := Rect.unit (s := S256x256) ![0, 0] S256x256.size inb_S256x256_S256x256_0_0
abbrev r5_S1x256 : Rect S1x256 := Rect.unit (s := S1x256) ![0, 0] S1x256.size inb_S1x256_S1x256_0_0

def out5 (x0 : Vec F S2000x256 .f32) (x1 : Vec F S2000x256 .f32) (x2 : Vec F S256x256 .f32) (x3 : Vec F S256x256 .f32) (x4 : Vec F S1x256 .f32) : Vec F S2000x256 .f32 :=
  View.canon [⟨r5_S2000x256, k5_pay1 (View.ld x0 r5_S2000x256) (View.ld x2 r5_S256x256) (View.ld x1 r5_S2000x256) (View.ld x3 r5_S256x256) (View.ld x4 r5_S1x256)⟩]

theorem sound_kernel5 (c : Dev nD) (E : Set ℕ) (i : grid5.Coords) {arg1 arg2 arg6 : Memref sig .tc .vmem S2000x256 .f32} {arg3 arg4 : Memref sig .tc .vmem S256x256 .f32} {arg5 : Memref sig .tc .vmem S1x256 .f32}
    (harg1 : arg1.IsWhole) (harg2 : arg2.IsWhole) (harg3 : arg3.IsWhole) (harg4 : arg4.IsWhole) (harg5 : arg5.IsWhole) (harg6 : arg6.IsWhole)
    (x0 x1 : Vec F S2000x256 .f32) (x2 x3 : Vec F S256x256 .f32) (x4 : Vec F S1x256 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare (out5 x0 x1 x2 x3 x4)) -∗ K ⟨⟩))
      ⊢ wp frame (wpE defs₀ Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S2000x256.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) : (dat5 V c).after 5 t = out5 (iblk5 V c 0 t) (iblk5 V c 1 t) (iblk5 V c 2 t) (iblk5 V c 3 t) (iblk5 V c 4 t) := by dsimp only [dat5]

theorem before5 (c : Dev nD) : ∀ w : Fin 6, (cfg5.win w).isOut = false → ∀ (t : Fin cfg5.N) d, (dat5 V c).before w t d = (dat5 V c).after w t
  | 0, _ | 1, _ | 2, _ | 3, _ | 4, _ => (dat5 V c).before_in_eq_fetched _ rfl (fun _ => rfl) (fun _ _ _ => rfl) fun _ => rfl
  | 5, h => nomatch h

theorem body_obligation5 (c : Dev nD) : BodyObligation (dat5 (F := F) V c) (defs₀ (F := F)) Variants.none () Set.univ := fun t => by
  rw [bigSep_W5, bigSep_W5]
  simp +decide only [before5 V c]
  dsimp only [dat5]
  conv in defs₀ _ _ _ => change bodyAt5 t
  iintro ⟨HΦ, Ho, ⟨%d0, H0⟩, ⟨%d1, H1⟩, ⟨%d2, H2⟩, ⟨%d3, H3⟩, ⟨%d4, H4⟩, %d5, H5⟩
  iapply (sound_kernel5 c Set.univ (grid5.coords t) _ _ _ _ _ _ (iblk5 V c 0 t) (iblk5 V c 1 t) (iblk5 V c 2 t) (iblk5 V c 3 t) (iblk5 V c 4 t) _)
  iframe
  isplitl [H5]; · iexists _; iexact H5
  iintro H
  iframe
  iapply Ho

end Cert.Kernel.Hand

end
-- ==== Proof.KData.lean ====
import proofs.«412619_j24352464570114_1_alg».proof.Proof.KReg0
import proofs.«412619_j24352464570114_1_alg».proof.Proof.KReg1
import proofs.«412619_j24352464570114_1_alg».proof.Proof.KReg2
import proofs.«412619_j24352464570114_1_alg».proof.Proof.KReg3
import proofs.«412619_j24352464570114_1_alg».proof.Proof.KReg4
import proofs.«412619_j24352464570114_1_alg».proof.Proof.KReg5
import proofs.«412619_j24352464570114_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)
def W2 (c : Dev nD) : Valuation τ sig (Elt F) := Function.update (W1 m c) main_v39 ((dat0 (atTc (W1 m)) c).arrAt 2 cfg0.N)
def W3 (c : Dev nD) : Valuation τ sig (Elt F) := Function.update (W2 m c) main_v40 ((dat1 (atTc (W2 m)) c).arrAt 2 cfg1.N)
abbrev W4 (c : Dev nD) : Valuation τ sig (Elt F) := StableHlo.after hostOps2 (W3 m c)
abbrev W5 (c : Dev nD) : Valuation τ sig (Elt F) := StableHlo.after hostOps2_1 (W4 m c)
abbrev W6 (c : Dev nD) : Valuation τ sig (Elt F) := StableHlo.after hostOps2_2 (W5 m c)
abbrev W7 (c : Dev nD) : Valuation τ sig (Elt F) := StableHlo.after hostOps2_3 (W6 m c)
abbrev W8 (c : Dev nD) : Valuation τ sig (Elt F) := StableHlo.after hostOps2_4 (W7 m c)
abbrev W9 (c : Dev nD) : Valuation τ sig (Elt F) := StableHlo.after hostOps2_5 (W8 m c)
def W10 (c : Dev nD) : Valuation τ sig (Elt F) := Function.update (W9 m c) main_v74 ((dat2 (atTc (W9 m)) c).arrAt 8 cfg2.N)
abbrev W11 (c : Dev nD) : Valuation τ sig (Elt F) := StableHlo.after hostOps3 (W10 m c)
def W12 (c : Dev nD) : Valuation τ sig (Elt F) := Function.update (W11 m c) main_v82 ((dat3 (atTc (W11 m)) c).arrAt 6 cfg3.N)
abbrev W13 (c : Dev nD) : Valuation τ sig (Elt F) := StableHlo.after hostOps4 (W12 m c)
abbrev W14 (c : Dev nD) : Valuation τ sig (Elt F) := StableHlo.after hostOps4_1 (W13 m c)
abbrev W15 (c : Dev nD) : Valuation τ sig (Elt F) := StableHlo.after hostOps4_2 (W14 m c)
abbrev W16 (c : Dev nD) : Valuation τ sig (Elt F) := StableHlo.after hostOps4_3 (W15 m c)
abbrev W17 (c : Dev nD) : Valuation τ sig (Elt F) := StableHlo.after hostOps4_4 (W16 m c)
abbrev W18 (c : Dev nD) : Valuation τ sig (Elt F) := StableHlo.after hostOps4_5 (W17 m c)
def W19 (c : Dev nD) : Valuation τ sig (Elt F) := Function.update (W18 m c) main_v116 ((dat4 (atTc (W18 m)) c).arrAt 7 cfg4.N)
abbrev W20 (c : Dev nD) : Valuation τ sig (Elt F) := StableHlo.after hostOps5 (W19 m c)
def W21 (c : Dev nD) : Valuation τ sig (Elt F) := Function.update (W20 m c) main_v124 ((dat5 (atTc (W20 m)) c).arrAt 5 cfg5.N)

def outs : Outs (F := F) := fun J r c => match J with
  | 2 => W2 m c r
  | 3 => W3 m c r
  | 10 => W10 m c r
  | 12 => W12 m c r
  | 19 => W19 m c r
  | 21 => W21 m c r
  | _ => W0 m c r

/-- Storing, over equal contents, the entry already stored there gives the stored contents again. -/
theorem upd_eq {V V' : Valuation τ sig (Elt F)} (h : V = V') {b : DevRef τ sig} {v : b.ty.Contents (Elt F)} :
    Function.update V b (Function.update V' b v b) = Function.update V' b v := by rw [h, Function.update_self]

theorem V2_eq (c : Dev nD) : V2 m (outs m) c = W2 m c := upd_eq rfl
theorem V3_eq (c : Dev nD) : V3 m (outs m) c = W3 m c := upd_eq (V2_eq m c)
theorem V9_eq (c : Dev nD) : V9 m (outs m) c = W9 m c := by unfold V9 V8 V7 V6 V5 V4; rw [V3_eq]
theorem V10_eq (c : Dev nD) : V10 m (outs m) c = W10 m c := upd_eq (V9_eq m c)
theorem V11_eq (c : Dev nD) : V11 m (outs m) c = W11 m c := congrArg (StableHlo.after hostOps3) (V10_eq m c)
theorem V12_eq (c : Dev nD) : V12 m (outs m) c = W12 m c := upd_eq (V11_eq m c)
theorem V18_eq (c : Dev nD) : V18 m (outs m) c = W18 m c := by unfold V18 V17 V16 V15 V14 V13; rw [V12_eq]
theorem V19_eq (c : Dev nD) : V19 m (outs m) c = W19 m c := upd_eq (V18_eq m c)
theorem V20_eq (c : Dev nD) : V20 m (outs m) c = W20 m c := congrArg (StableHlo.after hostOps5) (V19_eq m c)
theorem V21_eq (c : Dev nD) : V21 m (outs m) c = W21 m c := upd_eq (V20_eq m c)

def pdats : (p : Fin 6) → (c : Dev nD) → Dat τ (Elt F) Unit ℕ (UR sig nD τ) ℕ (cfgs p) c
  | ⟨0, _⟩ => fun c => dat0 (atTc (W1 m)) c
  | ⟨1, _⟩ => fun c => dat1 (atTc (W2 m)) c
  | ⟨2, _⟩ => fun c => dat2 (atTc (W9 m)) c
  | ⟨3, _⟩ => fun c => dat3 (atTc (W11 m)) c
  | ⟨4, _⟩ => fun c => dat4 (atTc (W18 m)) c
  | ⟨5, _⟩ => fun c => dat5 (atTc (W20 m)) c

abbrev Rest (c : Dev nD) : sProp (MT nD τ sig Unit (Elt F) ℕ (UR sig nD τ) ℕ) :=
  iprop((∃ r, prngReg c r) ∗ ∃ W, owes (c : Thread nD τ) (0 : CellTallies nD τ sig Unit) W)

end Cert.Kernel.Hand

end
-- ==== Proof.KParams.lean ====
import proofs.«412619_j24352464570114_1_alg».proof.Proof.KData

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev 𝒱₀ : Variants := Variants.none
abbrev L : GSem nD τ sig → Finset Unit := fun _ => ∅
abbrev lv : GSem nD τ sig → Unit → ℕ := fun _ _ => 0

end Cert.Kernel.Hand

end
-- ==== Proof.KSegsA.lean ====
import proofs.«412619_j24352464570114_1_alg».proof.Proof.KParams

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Only the result window `o` is written: every other window is an input on another array, so its array keeps its entry contents. -/
theorem arrAt_update {p : Fin 6} {c : Dev nD} (D : Dat τ (Elt F) Unit ℕ (UR sig nD τ) ℕ (cfgs p) c) (V : Valuation τ sig (Elt F))
    (o : Fin (cfgs p).W) (hA : ∀ w, D.A w = V (Pipeline.arrRef (cfgs p).spec w))
    (hin : ∀ w, w ≠ o → ((cfgs p).win w).isOut = false ∧ Pipeline.arrRef (cfgs p).spec w ≠ Pipeline.arrRef (cfgs p).spec o)
    (w : Fin (cfgs p).W) :
    D.arrAt w (cfgs p).N
      = Function.update V (Proc.devRef .tc (Pipeline.arrRef (cfgs p).spec o) : DevRef τ sig) (D.arrAt o (cfgs p).N) (Pipeline.arrRef (cfgs p).spec w) := by
  by_cases h : w = o
  · subst h; exact Eq.symm (Function.update_self _ _ _)
  · rw [D.arrAt_in w (hin w h).1, hA]
    exact (Function.update_of_ne (StableHlo.devRef_ne_of_ne (hin w h).2) _ _).symm

/-- Region `p`'s data are plain over `V`: the body proved, the invariant `ΦA` kept, nothing owed, entry contents read off `V`, only window `o` written. -/
structure PlainAt (p : Fin 6) (o : Fin (cfgs p).W) (V : Dev nD → Valuation τ sig (Elt F)) : Prop where
  body : ∀ c, Pipeline.BodyObligation (pdats m p c) defs₀ 𝒱₀ () Set.univ
  Φ : ∀ c t, (pdats m p c).Φ t = Pipeline.ΦA (cfgs p).spec c := by intros; rfl
  owed : ∀ c t, (pdats m p c).owed t = 0 := by intros; rfl
  recorded : ∀ c t, (pdats m p c).recorded t = Set.univ := by intros; rfl
  A : ∀ c w, (pdats m p c).A w = atTc V c (Pipeline.arrRef (cfgs p).spec w) := by intros; rfl
  inp : ∀ w, w ≠ o → ((cfgs p).win w).isOut = false ∧ Pipeline.arrRef (cfgs p).spec w ≠ Pipeline.arrRef (cfgs p).spec o

/-- A region of plain data: entered with the unscoped buffers at `V`, left with them at `V` updated at the result window's array. -/
def plainReg {p : Fin 6} {o : Fin (cfgs p).W} {V : Dev nD → Valuation τ sig (Elt F)} (h : PlainAt m p o V)
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hsplit : ∀ c, (unscopedBufs c (atTc V c) : sProp 𝕄)
      ⊢ iprop((pdats m p c).arrays ((pdats m p c).arrAt · 0) ∗ Pipeline.unscopedRest (cfgs p).spec c (atTc V c)))
    (hjoin : ∀ c V', (∀ w, (pdats m p c).arrAt w (cfgs p).N = V' (Pipeline.arrRef (cfgs p).spec w)) →
      (∀ b, b ∉ Finset.univ.image (Pipeline.arrRef (cfgs p).spec) → V' b = atTc V c b) →
      iprop((pdats m p c).arrays ((pdats m p c).arrAt · (cfgs p).N) ∗ Pipeline.unscopedRest (cfgs p).spec c (atTc V c))
        ⊢ (unscopedBufs c V' : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (h.body c).loose
  hwaits := Pipeline.hwaits_of_owed_zero _ _ _ _ L lv p h.owed
  pre c := iprop(StableHlo.held (c : Thread nD τ) (Pipeline.ucRefs τ sig) (V c) ∗ Rest c)
  post c := iprop(StableHlo.held (c : Thread nD τ) (Pipeline.ucRefs τ sig)
    (Function.update (V c) (Proc.devRef .tc (Pipeline.arrRef (cfgs p).spec o) : DevRef τ sig) ((pdats m p c).arrAt o (cfgs p).N)) ∗ Rest c)
  X c := iprop(∃ r, prngReg c r)
  Y c := iprop(∃ r, prngReg c r)
  Z c := Pipeline.unscopedRest (cfgs p).spec c (atTc V c)
  hentry c := by
    have hsplit := hsplit c
    rw [Pipeline.unscopedBufs_held] at hsplit
    rw [Pipeline.ownSems0_none]
    unfold Pipeline.Dat.owesAt Pipeline.owesWithin Pipeline.Dat.bound Pipeline.prefHeld
    rw [h.owed, h.recorded, show (Finset.univ : Finset (Fin 0)) = ∅ from rfl, BI.bigSep_empty]
    iintro ⟨⟨Hub, Hp, HO⟩, -, -⟩
    ihave H := hsplit $$ Hub
    icases H with ⟨Ha, Hrest⟩
    imodintro
    isplitl [Ha]; · iexact Ha
    isplitr; · iempintro
    isplitl [HO]
    · icases HO with ⟨%W, HO⟩; iexists W; isplitr; · ipureintro; exact fun _ _ => Or.inl trivial
      iexact HO
    isplitl [Hp]; · iexact Hp
    iexact Hrest
  hin c := by
    rw [h.Φ]; unfold Pipeline.ΦA
    iintro ⟨Hp, -, Hr⟩
    isplitl [Hr]; · iexact Hr
    iexact Hp
  hout c := by
    rw [Pipeline.ownSems0_none, h.Φ]; unfold Pipeline.ΦA
    iintro ⟨Hr, Hp⟩
    isplitl [Hp]; · iexact Hp
    isplitr; · iempintro
    iexact Hr
  hexit c := by
    have hjoin := hjoin c (fun b => Function.update (V c) _ ((pdats m p c).arrAt o (cfgs p).N) b)
      (arrAt_update (pdats m p c) (V c) o (h.A c) h.inp) fun b hb =>
      Function.update_of_ne (StableHlo.devRef_ne_of_ne fun e => hb (Finset.mem_image.mpr ⟨o, Finset.mem_univ _, e.symm⟩)) _ _
    rw [Pipeline.unscopedBufs_held] at hjoin
    unfold Pipeline.Dat.owesAt Pipeline.owesWithin
    rw [h.owed]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-- The same for windows on pairwise distinct arrays, each held whole. -/
def fullReg (p : Fin 6) (o : Fin (cfgs p).W) (V : Dev nD → Valuation τ sig (Elt F)) (h : PlainAt m p o V)
    (lf : Pipeline.LaunchFacts (nD := nD) (τ := τ) cfgs p) (hq : ∀ c w, (pdats m p c).q w = fullShare) :
    Pipeline.RegionSeg (pcfgs (F := F)) adm (pdats m) () defs₀ 𝒱₀ L lv p :=
  plainReg m h lf.win.to₀ lf.block_pos lf.stage_whole
    (fun c => Pipeline.arrays_of_unscopedBufs (p := p) (pcfgs (F := F)) adm (pdats m) lf.win lf.arr_whole c
      ((pdats m p c).share_full (hq c)) (atTc V c) (h.A c))
    (fun c V' => Pipeline.unscopedBufs_of_arrays (p := p) (pcfgs (F := F)) adm lf.win lf.arr_whole c (pdats m)
      ((pdats m p c).share_full (hq c)) (atTc V c) V' ((pdats m p c).arrAt · (cfgs p).N))

def reg0 : Pipeline.RegionSeg (pcfgs (F := F)) adm (pdats m) () defs₀ 𝒱₀ L lv 0 :=
  fullReg m 0 (2 : Fin 3) (W1 m) { body := body_obligation0 _, inp := by decide }
    launch0 fun _ _ => rfl

def reg1 : Pipeline.RegionSeg (pcfgs (F := F)) adm (pdats m) () defs₀ 𝒱₀ L lv 1 :=
  fullReg m 1 (2 : Fin 3) (W2 m) { body := body_obligation1 _, inp := by decide }
    launch1 fun _ _ => rfl

def reg4 : Pipeline.RegionSeg (pcfgs (F := F)) adm (pdats m) () defs₀ 𝒱₀ L lv 4 :=
  fullReg m 4 (7 : Fin 8) (W18 m) { body := body_obligation4 _, inp := by decide }
    launch4 fun _ _ => rfl

def reg5 : Pipeline.RegionSeg (pcfgs (F := F)) adm (pdats m) () defs₀ 𝒱₀ L lv 5 :=
  fullReg m 5 (5 : Fin 6) (W20 m) { body := body_obligation5 _, inp := by decide }
    launch5 fun _ _ => rfl

end Cert.Kernel.Hand

end
-- ==== Proof.KSegsB.lean ====
import proofs.«412619_j24352464570114_1_alg».proof.Proof.KSegsA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Where `f` is injective but for `f j = f i`, a product over the image of `f` is the product over the indices, `f i`'s factor dealt to `i` and `j` by halves. -/
theorem bigSep_image_halves {I J M : Type} [Fintype I] [DecidableEq I] [DecidableEq J] [URA M] (f : I → J) {i j : I}
    (hne : i ≠ j) (hij : f j = f i) (hinj : ∀ a b, a ≠ j → b ≠ j → f a = f b → a = b)
    (T : PosShare TreeShare → J → sProp M) (hT : ∀ b, T fullShare b = BI.sep (T fullShare.left b) (T fullShare.right b))
    (q : I → PosShare TreeShare) (hq : ∀ w, q w = if w = i then fullShare.left else if w = j then fullShare.right else fullShare) :
    bigSep (Finset.univ.image f) (T fullShare) = bigSep Finset.univ fun w => T (q w) (f w) := by
  have hi : i ∈ Finset.univ.erase j := Finset.mem_erase.mpr ⟨hne, Finset.mem_univ i⟩
  have himg : Finset.univ.image f = (Finset.univ.erase j).image f :=
    Finset.Subset.antisymm (fun b hb => by
      obtain ⟨w, -, rfl⟩ := Finset.mem_image.mp hb
      by_cases h : w = j
      · rw [h, hij]; exact Finset.mem_image_of_mem f hi
      · exact Finset.mem_image_of_mem f (Finset.mem_erase.mpr ⟨h, Finset.mem_univ w⟩))
      (Finset.image_subset_image (Finset.erase_subset _ _))
  have hS : (bigSep ((Finset.univ.erase j).erase i) fun w => T (q w) (f w)) = bigSep ((Finset.univ.erase j).erase i) fun w => T fullShare (f w) :=
    bigSep_congr fun w hw => by
      rw [hq w, if_neg (Finset.ne_of_mem_erase hw), if_neg (Finset.ne_of_mem_erase (Finset.mem_of_mem_erase hw))]
  rw [himg, bigSep_image_of_injOn fun a ha b hb => hinj a b (Finset.ne_of_mem_erase (Finset.mem_coe.mp ha)) (Finset.ne_of_mem_erase (Finset.mem_coe.mp hb)),
    bigSep_erase hi, bigSep_univ_split j, bigSep_erase hi, hS, hq i, hq j, if_pos rfl, if_neg hne.symm, if_pos rfl, hij, hT]
  ac_rfl

/-- Windows `i` and `j` holding one array by halves, every other window its own array whole: the arrays are the distinct buffers behind them. -/
theorem arrays_halves {p : Fin 6} {c : Dev nD} (D : Dat τ (Elt F) Unit ℕ (UR sig nD τ) ℕ (cfgs p) c) {i j : Fin (cfgs p).W}
    (hne : i ≠ j) (hij : Pipeline.arrRef (cfgs p).spec j = Pipeline.arrRef (cfgs p).spec i)
    (hinj : ∀ a b, a ≠ j → b ≠ j → Pipeline.arrRef (cfgs p).spec a = Pipeline.arrRef (cfgs p).spec b → a = b)
    (harr : ∀ w, ((cfgs p).spec w).arr.IsWhole)
    (hq : ∀ w, D.share w = if w = i then fullShare.left else if w = j then fullShare.right else fullShare)
    (V' : (b : Ref sig .tc) → Buf (Elt F) ((c : Thread nD τ).loc b))
    (G : (w : Fin (cfgs p).W) → Buf (Elt F) (((cfgs p).win w).arr.view.loc (c : Thread nD τ)))
    (hG : ∀ w, G w = V' (Pipeline.arrRef (cfgs p).spec w)) :
    (Pipeline.arrBufs (cfgs p).spec c V' : sProp 𝕄) = D.arrays G := by
  unfold Pipeline.arrBufs Pipeline.Dat.arrays
  refine (bigSep_image_halves _ hne hij hinj (fun q b => ((c : Thread nD τ).loc b) ↦{q} V' b)
    (fun b => BI.Entails.antisymm (pointsTo_share (PosShare.mem_left_op_right fullShare)).1
      (pointsTo_share (PosShare.mem_left_op_right fullShare)).2) D.share hq).trans (bigSep_congr fun w _ => ?_)
  rw [(harr w).set_eq_univ, hG]

/-- `plainReg` for such windows. -/
def halvesReg (p : Fin 6) (o : Fin (cfgs p).W) (V : Dev nD → Valuation τ sig (Elt F)) (h : PlainAt m p o V)
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (harr : ∀ w, ((cfgs p).spec w).arr.IsWhole) {i j : Fin (cfgs p).W}
    (hne : i ≠ j) (hij : Pipeline.arrRef (cfgs p).spec j = Pipeline.arrRef (cfgs p).spec i)
    (hinj : ∀ a b, a ≠ j → b ≠ j → Pipeline.arrRef (cfgs p).spec a = Pipeline.arrRef (cfgs p).spec b → a = b)
    (hq : ∀ c w, (pdats m p c).share w = if w = i then fullShare.left else if w = j then fullShare.right else fullShare) :
    Pipeline.RegionSeg (pcfgs (F := F)) adm (pdats m) () defs₀ 𝒱₀ L lv p :=
  plainReg m h win block_pos stage_whole
    (fun c => by
      rw [Pipeline.unscopedBufs_split₀ cfgs p win.arr_unscoped c, arrays_halves (pdats m p c) hne hij hinj harr (hq c) _ _ (h.A c)]
      exact .rfl)
    (fun c V' hF hrest => by
      rw [Pipeline.unscopedBufs_split₀ cfgs p win.arr_unscoped c V', arrays_halves (pdats m p c) hne hij hinj harr (hq c) V' _ hF]
      refine sep_mono .rfl (Entails.of_eq ?_)
      unfold Pipeline.unscopedRest
      exact bigSep_congr fun b hb => by rw [hrest b (Finset.mem_sdiff.mp hb).2])

def reg2 : Pipeline.RegionSeg (pcfgs (F := F)) adm (pdats m) () defs₀ 𝒱₀ L lv 2 :=
  halvesReg m 2 (8 : Fin 9) (W9 m) { body := body_obligation2 _, inp := by decide }
    winFacts₀2 block_pos2 stage_whole2 arr_whole2 (i := (2 : Fin 9)) (j := (7 : Fin 9)) (by decide) (by decide) (by decide)
    fun _ w => by fin_cases w <;> rfl

def reg3 : Pipeline.RegionSeg (pcfgs (F := F)) adm (pdats m) () defs₀ 𝒱₀ L lv 3 :=
  halvesReg m 3 (6 : Fin 7) (W11 m) { body := body_obligation3 _, inp := by decide }
    winFacts₀3 block_pos3 stage_whole3 arr_whole3 (i := (1 : Fin 7)) (j := (5 : Fin 7)) (by decide) (by decide) (by decide)
    fun _ w => by fin_cases w <;> rfl

end Cert.Kernel.Hand

end
-- ==== Proof.KRun.lean ====
import proofs.«412619_j24352464570114_1_alg».proof.Proof.KSegsA
import proofs.«412619_j24352464570114_1_alg».proof.Proof.KSegsB
import proofs.«412619_j24352464570114_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal contents of the unscoped buffers may be exchanged under the rest. -/
theorem held_eq (c : Dev nD) {V W : Valuation τ sig (Elt F)} (h : V = W) :
    iprop(StableHlo.held (c : Thread nD τ) (Pipeline.ucRefs τ sig) V ∗ Rest c)
      ⊢ (iprop(StableHlo.held (c : Thread nD τ) (Pipeline.ucRefs τ sig) W ∗ Rest c) : sProp 𝕄) := by
  subst h; exact .rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W21 m c b) := by
  refine Pipeline.θ_run_regions_kit_dev (pcfgs (F := F)) adm (pdats m) () cellOf_inj emb₁ defs₀ 𝒱₀ L lv m ρ main
    (segs m (outs m) 𝒱₀ L lv (fun _ c => Rest c) () (pdats m) (reg0 m) (reg1 m) (reg2 m) (reg3 m) (reg4 m) (reg5 m))
    (fun c Q => by
      rewrite [main_chain c, Seg.run_eq_chain,
        show (segs m (outs m) 𝒱₀ L lv (fun _ c => Rest c) () (pdats m) (reg0 m) (reg1 m) (reg2 m) (reg3 m) (reg4 m) (reg5 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (V0 m c) ∗ Rest c))
    (Tₙ := fun c => StableHlo.held (c : Thread nD τ) (Pipeline.ucRefs τ sig) (V21 m (outs m) c))
    (hch := fun c => ⟨.rfl, .rfl, .rfl, held_eq c (V3_eq m c).symm, .rfl, .rfl, .rfl, .rfl, .rfl,
      held_eq c (V9_eq m c), held_eq c (V10_eq m c).symm, held_eq c (V11_eq m c), held_eq c (V12_eq m c).symm, .rfl, .rfl, .rfl, .rfl, .rfl,
      held_eq c (V18_eq m c), held_eq c (V19_eq m c).symm, held_eq c (V20_eq m c),
      (held_eq c (V21_eq m c).symm).trans (sep_mono .rfl (by iintro ⟨-, H⟩; iexact H))⟩)
    (hinit := ?hinit)
    (QY := fun c s => ∀ b ∈ Pipeline.ucRefs τ sig, s.mem ((c : Thread nD τ).1, b) = W21 m c b)
    (hfin := fun c s' => ?hfin) (hQ := fun _ h => h)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  case hfin =>
    unfold StableHlo.held
    iintro ⟨Hh, HSI⟩
    ihave Hr := (pointsTo_read_all (Pipeline.ucRefs τ sig) (fun b => ((c : Thread nD τ).1, b)) (V21 m (outs m) c) s') $$ [Hh HSI]
    · isplitl [Hh] <;> iassumption
    icases Hr with ⟨%h, HSI⟩
    imodintro
    isplitr
    · ipureintro
      exact fun b hb => (h b hb).trans (congrFun (V21_eq m c) b)
    · iexact HSI

/-- What the run leaves in an unscoped buffer, read at its reference. -/
theorem mem_at {s : MemSt nD τ sig (Elt F)} {c : Dev nD}
    (h : ∀ b ∈ Pipeline.ucRefs τ sig, s.mem ((c : Thread nD τ).1, b) = W21 m c b)
    (b : Ref sig .tc) (hs : ¬ (Proc.devRef .tc b : DevRef τ sig).isScoped) :
    s.mem ((c.tc : Thread nD τ).loc b) = W21 m c b :=
  h _ (Finset.mem_filter.mpr ⟨StableHlo.devRef_mem_tcRefs b, hs⟩)

/-- A buffer no item writes holds at the end what it held at launch. -/
theorem arg_at {s : MemSt nD τ sig (Elt F)} {c : Dev nD}
    (h : ∀ b ∈ Pipeline.ucRefs τ sig, s.mem ((c : Thread nD τ).1, b) = W21 m c b)
    (b : Ref sig .tc) (hs : ¬ (Proc.devRef .tc b : DevRef τ sig).isScoped)
    (e : V21 m (outs m) c b = m ((c.tc : Thread nD τ).loc b)) :
    s.mem ((c.tc : Thread nD τ).loc b) = m ((c.tc : Thread nD τ).loc b) :=
  (mem_at m h b hs).trans ((congrFun (V21_eq m c) b).symm.trans e)

/-- No item writes a launch argument, so each holds at the end what it held at launch. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨arg_at m (h c) _ (by decide) (V21_main_arg0 m _ c), arg_at m (h c) _ (by decide) (V21_main_arg1 m _ c),
      arg_at m (h c) _ (by decide) (V21_main_arg2 m _ c), arg_at m (h c) _ (by decide) (V21_main_arg3 m _ c),
      arg_at m (h c) _ (by decide) (V21_main_arg4 m _ c), arg_at m (h c) _ (by decide) (V21_main_arg5 m _ c),
      arg_at m (h c) _ (by decide) (V21_main_arg6 m _ c), arg_at m (h c) _ (by decide) (V21_main_arg7 m _ c),
      arg_at m (h c) _ (by decide) (V21_main_arg8 m _ c), arg_at m (h c) _ (by decide) (V21_main_arg9 m _ c),
      arg_at m (h c) _ (by decide) (V21_main_arg10 m _ c), arg_at m (h c) _ (by decide) (V21_main_arg11 m _ c),
      arg_at m (h c) _ (by decide) (V21_main_arg12 m _ c)⟩) (run_all m ρ)

end Cert.Kernel.Hand

end
-- ==== Proof.KiReg0.lean ====
import proofs.«412619_j24352464570114_1_alg».proof.Proof.Gen.KernelIdeal.Launch
import proofs.«412619_j24352464570114_1_alg».proof.Proof.Gen.KernelIdeal.Skeleton
import proofs.«412619_j24352464570114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA
open Idealize.ShloMosaic.Pipeline (Dat BodyObligation)

variable {F : FTy → Type} [FloatOps F]

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2000x768 := Rect.unit (s := S2000x768) ![0, 0] S2000x768.size inb_S2000x768_S2000x768_0_0
abbrev rP0 : Rect S768x256 := Rect.unit (s := S768x256) ![0, 0] S768x256.size inb_S768x256_S768x256_0_0
abbrev rO0 : Rect S2000x256 := Rect.unit (s := S2000x256) ![0, 0] S2000x256.size inb_S2000x256_S2000x256_0_0

def out0 (x0 : Vec F S2000x768 .f32) (x1 : Vec F S768x256 .f32) : Vec F S2000x256 .f32 :=
  View.canon [⟨rO0, k0_pay1 (View.ld x0 rX0) (View.ld x1 rP0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0 (iblk0 V c 0 t) (iblk0 V c 1 t) := by dsimp only [dat0]

theorem before0 (c : Dev nD) (t : Fin cfg0.N) :
    (∀ d, (dat0 V c).before 0 t d = iblk0 V c 0 t) ∧ (∀ d, (dat0 V c).before 1 t d = iblk0 V c 1 t) := by
  refine ⟨?_, ?_⟩ <;>
    exact fun d => ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0]
  dsimp only [dat0, Dat.owesAt, Dat.bound]
  sl_whnfR [defs₀, Defs.onTc]
  simp only [cc0__proj_kernel_eq_skeleton]; unfold cc0__proj_kernel_skel
  unfold owns
  iintro ⟨HΦ, Ho, ⟨%d0, %f0, %h0, H0⟩, ⟨%d1, %f1, %h1, H1⟩, ⟨%d2, %f2, -, H2⟩⟩
  sl_exec
  sl_step
  iframe HΦ Ho
  isplitl [H0]
  · iexists f0; isplitr; · ipureintro; exact h0
    iexact H0
  isplitl [H1]
  · iexists f1; isplitr; · ipureintro; exact h1
    iexact H1
  iexists _; isplitr
  swap; · iexact H2
  ipureintro
  rw [← h0, ← h1]
  exact View.read_writes_eq_canon _ _ _ (View.cover_of_tiled _ S2000x256.size (by rfl))

end Cert.KernelIdeal.Hand

end
-- ==== Proof.KiReg1.lean ====
import proofs.«412619_j24352464570114_1_alg».proof.Proof.Gen.KernelIdeal.Launch
import proofs.«412619_j24352464570114_1_alg».proof.Proof.Gen.KernelIdeal.Skeleton
import proofs.«412619_j24352464570114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_S2000x1024 : Rect S2000x1024 := Rect.unit (s := S2000x1024) ![0, 0] S2000x1024.size inb_S2000x1024_S2000x1024_0_0
abbrev r1_S1024x256 : Rect S1024x256 := Rect.unit (s := S1024x256) ![0, 0] S1024x256.size inb_S1024x256_S1024x256_0_0
abbrev r1_S2000x256 : Rect S2000x256 := Rect.unit (s := S2000x256) ![0, 0] S2000x256.size inb_S2000x256_S2000x256_0_0

def out1 (x0 : Vec F S2000x1024 .f32) (x1 : Vec F S1024x256 .f32) : Vec F S2000x256 .f32 :=
  View.canon [⟨r1_S2000x256, k1_pay1 (View.ld x0 r1_S2000x1024) (View.ld x1 r1_S1024x256)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1 (iblk1 V c 0 t) (iblk1 V c 1 t) := by dsimp only [dat1]

theorem before1 (c : Dev nD) (t : Fin cfg1.N) :
    (∀ d, (dat1 V c).before 0 t d = iblk1 V c 0 t) ∧ (∀ d, (dat1 V c).before 1 t d = iblk1 V c 1 t) := by
  refine ⟨?_, ?_⟩ <;>
    exact fun d => ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1]
  dsimp only [dat1, Dat.owesAt, Dat.bound]
  sl_whnfR [defs₀, Defs.onTc]
  simp only [cc1__proj_kernel_eq_skeleton]; unfold cc1__proj_kernel_skel
  unfold owns
  iintro ⟨HΦ, Ho, ⟨%d0, %f0, %h0, H0⟩, ⟨%d1, %f1, %h1, H1⟩, ⟨%d2, %f2, -, H2⟩⟩
  sl_exec
  sl_step
  iframe HΦ Ho
  isplitl [H0]
  · iexists f0; isplitr; · ipureintro; exact h0
    iexact H0
  isplitl [H1]
  · iexists f1; isplitr; · ipureintro; exact h1
    iexact H1
  iexists _; isplitr
  swap; · iexact H2
  ipureintro
  rw [← h0, ← h1]
  exact View.read_writes_eq_canon _ _ _ (View.cover_of_tiled _ S2000x256.size (by rfl))

end Cert.KernelIdeal.Hand

end
-- ==== Proof.KiReg2.lean ====
import proofs.«412619_j24352464570114_1_alg».proof.Proof.Gen.KernelIdeal.Launch
import proofs.«412619_j24352464570114_1_alg».proof.Proof.Gen.KernelIdeal.Skeleton
import proofs.«412619_j24352464570114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_S2000x256 : Rect S2000x256 := Rect.unit (s := S2000x256) ![0, 0] S2000x256.size inb_S2000x256_S2000x256_0_0
abbrev r2_S256x256 : Rect S256x256 := Rect.unit (s := S256x256) ![0, 0] S256x256.size inb_S256x256_S256x256_0_0
abbrev r2_S1x256 : Rect S1x256 := Rect.unit (s := S1x256) ![0, 0] S1x256.size inb_S1x256_S1x256_0_0

def out2 (x0 : Vec F S2000x256 .f32) (x1 : Vec F S2000x256 .f32) (x2 : Vec F S2000x256 .f32) (x3 : Vec F S256x256 .f32) (x4 : Vec F S256x256 .f32) (x5 : Vec F S256x256 .f32) (x6 : Vec F S1x256 .f32) (x7 : Vec F S2000x256 .f32) : Vec F S2000x256 .f32 :=
  View.canon [⟨r2_S2000x256, k2_pay1 (View.ld x0 r2_S2000x256) (View.ld x3 r2_S256x256) (View.ld x1 r2_S2000x256) (View.ld x4 r2_S256x256) (View.ld x2 r2_S2000x256) (View.ld x5 r2_S256x256) (View.ld x6 r2_S1x256) (View.ld x7 r2_S2000x256)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨2, _⟩ => fullShare.left
    | ⟨7, _⟩ => fullShare.right
    | _ => fullShare
  owed _ := 0

theorem A_eq2 (c : Dev nD) (w : Fin cfg2.W) : (dat2 V c).A w = V c (Pipeline.arrRef spec2 w) := by
  dsimp only [dat2]

theorem after2_8 (c : Dev nD) (t : Fin cfg2.N) : (dat2 V c).after 8 t = out2 (iblk2 V c 0 t) (iblk2 V c 1 t) (iblk2 V c 2 t) (iblk2 V c 3 t) (iblk2 V c 4 t) (iblk2 V c 5 t) (iblk2 V c 6 t) (iblk2 V c 7 t) := by dsimp only [dat2]

theorem before2 (c : Dev nD) (t : Fin cfg2.N) :
    (∀ d, (dat2 V c).before 0 t d = iblk2 V c 0 t) ∧ (∀ d, (dat2 V c).before 1 t d = iblk2 V c 1 t) ∧
    (∀ d, (dat2 V c).before 2 t d = iblk2 V c 2 t) ∧ (∀ d, (dat2 V c).before 3 t d = iblk2 V c 3 t) ∧
    (∀ d, (dat2 V c).before 4 t d = iblk2 V c 4 t) ∧ (∀ d, (dat2 V c).before 5 t d = iblk2 V c 5 t) ∧
    (∀ d, (dat2 V c).before 6 t d = iblk2 V c 6 t) ∧ (∀ d, (dat2 V c).before 7 t d = iblk2 V c 7 t) := by
  refine ⟨?_, ?_, ?_, ?_, ?_, ?_, ?_, ?_⟩ <;>
    exact fun d => ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2]
  dsimp only [dat2, Dat.owesAt, Dat.bound]
  sl_whnfR [defs₀, Defs.onTc]
  simp only [cc2_kernel_eq_skeleton]; unfold cc2_kernel_skel
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, -, H8⟩⟩
  sl_exec
  sl_step
  iframe HΦ Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  iexists _; isplitr
  swap; · iexact H8
  ipureintro
  rw [← h0, ← h1, ← h2, ← h3, ← h4, ← h5, ← h6, ← h7]
  exact View.read_writes_eq_canon _ _ _ (View.cover_of_tiled _ S2000x256.size (by rfl))

end Cert.KernelIdeal.Hand

end
-- ==== Proof.KiReg3.lean ====
import proofs.«412619_j24352464570114_1_alg».proof.Proof.Gen.KernelIdeal.Launch
import proofs.«412619_j24352464570114_1_alg».proof.Proof.Gen.KernelIdeal.Skeleton
import proofs.«412619_j24352464570114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S2000x256 : Rect S2000x256 := Rect.unit (s := S2000x256) ![0, 0] S2000x256.size inb_S2000x256_S2000x256_0_0
abbrev r3_S256x256 : Rect S256x256 := Rect.unit (s := S256x256) ![0, 0] S256x256.size inb_S256x256_S256x256_0_0
abbrev r3_S1x256 : Rect S1x256 := Rect.unit (s := S1x256) ![0, 0] S1x256.size inb_S1x256_S1x256_0_0

def out3 (x0 : Vec F S2000x256 .f32) (x1 : Vec F S2000x256 .f32) (x2 : Vec F S256x256 .f32) (x3 : Vec F S256x256 .f32) (x4 : Vec F S1x256 .f32) (x5 : Vec F S2000x256 .f32) : Vec F S2000x256 .f32 :=
  View.canon [⟨r3_S2000x256, k3_pay1 (View.ld x0 r3_S2000x256) (View.ld x2 r3_S256x256) (View.ld x1 r3_S2000x256) (View.ld x3 r3_S256x256) (View.ld x4 r3_S1x256) (View.ld x5 r3_S2000x256)⟩]

theorem sound_kernel3 (c : Dev nD) (E : Set ℕ) (i : grid3.Coords) {arg1 arg2 arg6 arg7 : Memref sig .tc .vmem S2000x256 .f32} {arg3 arg4 : Memref sig .tc .vmem S256x256 .f32} {arg5 : Memref sig .tc .vmem S1x256 .f32}
    (harg1 : arg1.IsWhole) (harg2 : arg2.IsWhole) (harg3 : arg3.IsWhole) (harg4 : arg4.IsWhole) (harg5 : arg5.IsWhole) (harg6 : arg6.IsWhole) (harg7 : arg7.IsWhole)
    (x0 x1 : Vec F S2000x256 .f32) (x2 x3 : Vec F S256x256 .f32) (x4 : Vec F S1x256 .f32) (x5 : Vec F S2000x256 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ (∃ d, owns c.tc arg7 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare (out3 x0 x1 x2 x3 x4 x5)) -∗ K ⟨⟩))
      ⊢ wp frame (wpE defs₀ Variants.none c none) E (cc3_kernel i arg1 harg1 arg2 harg2 arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x256.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := match w with
    | ⟨1, _⟩ => fullShare.left
    | ⟨5, _⟩ => fullShare.right
    | _ => fullShare
  owed _ := 0

theorem A_eq3 (c : Dev nD) (w : Fin cfg3.W) : (dat3 V c).A w = V c (Pipeline.arrRef spec3 w) := by
  dsimp only [dat3]

theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3 (c : Dev nD) : ∀ w : Fin 7, (cfg3.win w).isOut = false → ∀ (t : Fin cfg3.N) d, (dat3 V c).before w t d = (dat3 V c).after w t
  | 0, _ | 1, _ | 2, _ | 3, _ | 4, _ | 5, _ => (dat3 V c).before_in_eq_fetched _ rfl (fun _ => rfl) (fun _ _ _ => rfl) fun _ => rfl
  | 6, h => nomatch h

theorem body_obligation3 (c : Dev nD) : BodyObligation (dat3 (F := F) V c) (defs₀ (F := F)) Variants.none () Set.univ := fun t => by
  rw [bigSep_W3, bigSep_W3]
  simp +decide only [before3 V c]
  dsimp only [dat3]
  conv in defs₀ _ _ _ => change bodyAt3 t
  iintro ⟨HΦ, Ho, ⟨%d0, H0⟩, ⟨%d1, H1⟩, ⟨%d2, H2⟩, ⟨%d3, H3⟩, ⟨%d4, H4⟩, ⟨%d5, H5⟩, %d6, H6⟩
  iapply (sound_kernel3 c Set.univ (grid3.coords t) _ _ _ _ _ _ _ (iblk3 V c 0 t) (iblk3 V c 1 t) (iblk3 V c 2 t) (iblk3 V c 3 t) (iblk3 V c 4 t) (iblk3 V c 5 t) _)
  iframe
  isplitl [H6]; · iexists _; iexact H6
  iintro H
  iframe
  iapply Ho

end Cert.KernelIdeal.Hand

end
-- ==== Proof.KiReg4.lean ====
import proofs.«412619_j24352464570114_1_alg».proof.Proof.Gen.KernelIdeal.Launch
import proofs.«412619_j24352464570114_1_alg».proof.Proof.Gen.KernelIdeal.Skeleton
import proofs.«412619_j24352464570114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_S2000x256 : Rect S2000x256 := Rect.unit (s := S2000x256) ![0, 0] S2000x256.size inb_S2000x256_S2000x256_0_0
abbrev r4_S256x256 : Rect S256x256 := Rect.unit (s := S256x256) ![0, 0] S256x256.size inb_S256x256_S256x256_0_0
abbrev r4_S1x256 : Rect S1x256 := Rect.unit (s := S1x256) ![0, 0] S1x256.size inb_S1x256_S1x256_0_0

def out4 (x0 : Vec F S2000x256 .f32) (x1 : Vec F S2000x256 .f32) (x2 : Vec F S2000x256 .f32) (x3 : Vec F S256x256 .f32) (x4 : Vec F S256x256 .f32) (x5 : Vec F S256x256 .f32) (x6 : Vec F S1x256 .f32) : Vec F S2000x256 .f32 :=
  View.canon [⟨r4_S2000x256, k4_pay1 (View.ld x0 r4_S2000x256) (View.ld x3 r4_S256x256) (View.ld x1 r4_S2000x256) (View.ld x4 r4_S256x256) (View.ld x2 r4_S2000x256) (View.ld x5 r4_S256x256) (View.ld x6 r4_S1x256)⟩]

theorem sound_kernel4 (c : Dev nD) (E : Set ℕ) (i : grid4.Coords) {arg1 arg2 arg3 arg8 : Memref sig .tc .vmem S2000x256 .f32} {arg4 arg5 arg6 : Memref sig .tc .vmem S256x256 .f32} {arg7 : Memref sig .tc .vmem S1x256 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole)
    (x0 x1 x2 : Vec F S2000x256 .f32) (x3 x4 x5 : Vec F S256x256 .f32) (x6 : Vec F S1x256 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ (∃ d, owns c.tc arg8 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare (out4 x0 x1 x2 x3 x4 x5 x6)) -∗ K ⟨⟩))
      ⊢ wp frame (wpE defs₀ Variants.none c none) E (cc4_kernel i arg1 harg1 arg2 harg2 arg3 harg3 arg4 harg4 arg5 harg5 arg6 harg6 arg7 harg7 arg8 harg8) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S2000x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_7 (c : Dev nD) (t : Fin cfg4.N) : (dat4 V c).after 7 t = out4 (iblk4 V c 0 t) (iblk4 V c 1 t) (iblk4 V c 2 t) (iblk4 V c 3 t) (iblk4 V c 4 t) (iblk4 V c 5 t) (iblk4 V c 6 t) := by dsimp only [dat4]

theorem before4 (c : Dev nD) : ∀ w : Fin 8, (cfg4.win w).isOut = false → ∀ (t : Fin cfg4.N) d, (dat4 V c).before w t d = (dat4 V c).after w t
  | 0, _ | 1, _ | 2, _ | 3, _ | 4, _ | 5, _ | 6, _ => (dat4 V c).before_in_eq_fetched _ rfl (fun _ => rfl) (fun _ _ _ => rfl) fun _ => rfl
  | 7, h => nomatch h

theorem body_obligation4 (c : Dev nD) : BodyObligation (dat4 (F := F) V c) (defs₀ (F := F)) Variants.none () Set.univ := fun t => by
  rw [bigSep_W4, bigSep_W4]
  simp +decide only [before4 V c]
  dsimp only [dat4]
  conv in defs₀ _ _ _ => change bodyAt4 t
  iintro ⟨HΦ, Ho, ⟨%d0, H0⟩, ⟨%d1, H1⟩, ⟨%d2, H2⟩, ⟨%d3, H3⟩, ⟨%d4, H4⟩, ⟨%d5, H5⟩, ⟨%d6, H6⟩, %d7, H7⟩
  iapply (sound_kernel4 c Set.univ (grid4.coords t) _ _ _ _ _ _ _ _ (iblk4 V c 0 t) (iblk4 V c 1 t) (iblk4 V c 2 t) (iblk4 V c 3 t) (iblk4 V c 4 t) (iblk4 V c 5 t) (iblk4 V c 6 t) _)
  iframe
  isplitl [H7]; · iexists _; iexact H7
  iintro H
  iframe
  iapply Ho

end Cert.KernelIdeal.Hand

end
-- ==== Proof.KiReg5.lean ====
import proofs.«412619_j24352464570114_1_alg».proof.Proof.Gen.KernelIdeal.Launch
import proofs.«412619_j24352464570114_1_alg».proof.Proof.Gen.KernelIdeal.Skeleton
import proofs.«412619_j24352464570114_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_S2000x256 : Rect S2000x256 := Rect.unit (s := S2000x256) ![0, 0] S2000x256.size inb_S2000x256_S2000x256_0_0
abbrev r5_S256x256 : Rect S256x256 := Rect.unit (s := S256x256) ![0, 0] S256x256.size inb_S256x256_S256x256_0_0
abbrev r5_S1x256 : Rect S1x256 := Rect.unit (s := S1x256) ![0, 0] S1x256.size inb_S1x256_S1x256_0_0

def out5 (x0 : Vec F S2000x256 .f32) (x1 : Vec F S2000x256 .f32) (x2 : Vec F S256x256 .f32) (x3 : Vec F S256x256 .f32) (x4 : Vec F S1x256 .f32) : Vec F S2000x256 .f32 :=
  View.canon [⟨r5_S2000x256, k5_pay1 (View.ld x0 r5_S2000x256) (View.ld x2 r5_S256x256) (View.ld x1 r5_S2000x256) (View.ld x3 r5_S256x256) (View.ld x4 r5_S1x256)⟩]

theorem sound_kernel5 (c : Dev nD) (E : Set ℕ) (i : grid5.Coords) {arg1 arg2 arg6 : Memref sig .tc .vmem S2000x256 .f32} {arg3 arg4 : Memref sig .tc .vmem S256x256 .f32} {arg5 : Memref sig .tc .vmem S1x256 .f32}
    (harg1 : arg1.IsWhole) (harg2 : arg2.IsWhole) (harg3 : arg3.IsWhole) (harg4 : arg4.IsWhole) (harg5 : arg5.IsWhole) (harg6 : arg6.IsWhole)
    (x0 x1 : Vec F S2000x256 .f32) (x2 x3 : Vec F S256x256 .f32) (x4 : Vec F S1x256 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ (∃ d, owns c.tc arg6 fullShare d)
        ∗ ((owns c.tc arg1 fullShare x0 ∗ owns c.tc arg2 fullShare x1 ∗ owns c.tc arg3 fullShare x2 ∗ owns c.tc arg4 fullShare x3 ∗ owns c.tc arg5 fullShare x4 ∗ owns c.tc arg6 fullShare (out5 x0 x1 x2 x3 x4)) -∗ K ⟨⟩))
      ⊢ wp frame (wpE defs₀ Variants.none c none) E (cc5_kernel i arg1 harg1 arg2 harg2 arg3 harg3 arg4 harg4 arg5 harg5 arg6 harg6) K := by
  simp only [cc5_kernel_eq_skeleton]; unfold cc5_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S2000x256.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) : (dat5 V c).after 5 t = out5 (iblk5 V c 0 t) (iblk5 V c 1 t) (iblk5 V c 2 t) (iblk5 V c 3 t) (iblk5 V c 4 t) := by dsimp only [dat5]

theorem before5 (c : Dev nD) : ∀ w : Fin 6, (cfg5.win w).isOut = false → ∀ (t : Fin cfg5.N) d, (dat5 V c).before w t d = (dat5 V c).after w t
  | 0, _ | 1, _ | 2, _ | 3, _ | 4, _ => (dat5 V c).before_in_eq_fetched _ rfl (fun _ => rfl) (fun _ _ _ => rfl) fun _ => rfl
  | 5, h => nomatch h

theorem body_obligation5 (c : Dev nD) : BodyObligation (dat5 (F := F) V c) (defs₀ (F := F)) Variants.none () Set.univ := fun t => by
  rw [bigSep_W5, bigSep_W5]
  simp +decide only [before5 V c]
  dsimp only [dat5]
  conv in defs₀ _ _ _ => change bodyAt5 t
  iintro ⟨HΦ, Ho, ⟨%d0, H0⟩, ⟨%d1, H1⟩, ⟨%d2, H2⟩, ⟨%d3, H3⟩, ⟨%d4, H4⟩, %d5, H5⟩
  iapply (sound_kernel5 c Set.univ (grid5.coords t) _ _ _ _ _ _ (iblk5 V c 0 t) (iblk5 V c 1 t) (iblk5 V c 2 t) (iblk5 V c 3 t) (iblk5 V c 4 t) _)
  iframe
  isplitl [H5]; · iexists _; iexact H5
  iintro H
  iframe
  iapply Ho

end Cert.KernelIdeal.Hand

end
-- ==== Proof.KiData.lean ====
import proofs.«412619_j24352464570114_1_alg».proof.Proof.KiReg0
import proofs.«412619_j24352464570114_1_alg».proof.Proof.KiReg1
import proofs.«412619_j24352464570114_1_alg».proof.Proof.KiReg2
import proofs.«412619_j24352464570114_1_alg».proof.Proof.KiReg3
import proofs.«412619_j24352464570114_1_alg».proof.Proof.KiReg4
import proofs.«412619_j24352464570114_1_alg».proof.Proof.KiReg5
import proofs.«412619_j24352464570114_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 (c : Dev nD) : Valuation τ sig (Elt F) := fun b => m (c, b)
abbrev W1 (c : Dev nD) : Valuation τ sig (Elt F) := StableHlo.after hostOps0 (W0 m c)
def W2 (c : Dev nD) : Valuation τ sig (Elt F) := Function.update (W1 m c) main_v39 ((dat0 (atTc (W1 m)) c).arrAt 2 cfg0.N)
def W3 (c : Dev nD) : Valuation τ sig (Elt F) := Function.update (W2 m c) main_v40 ((dat1 (atTc (W2 m)) c).arrAt 2 cfg1.N)
abbrev W4 (c : Dev nD) : Valuation τ sig (Elt F) := StableHlo.after hostOps2 (W3 m c)
abbrev W5 (c : Dev nD) : Valuation τ sig (Elt F) := StableHlo.after hostOps2_1 (W4 m c)
abbrev W6 (c : Dev nD) : Valuation τ sig (Elt F) := StableHlo.after hostOps2_2 (W5 m c)
abbrev W7 (c : Dev nD) : Valuation τ sig (Elt F) := StableHlo.after hostOps2_3 (W6 m c)
abbrev W8 (c : Dev nD) : Valuation τ sig (Elt F) := StableHlo.after hostOps2_4 (W7 m c)
abbrev W9 (c : Dev nD) : Valuation τ sig (Elt F) := StableHlo.after hostOps2_5 (W8 m c)
def W10 (c : Dev nD) : Valuation τ sig (Elt F) := Function.update (W9 m c) main_v74 ((dat2 (atTc (W9 m)) c).arrAt 8 cfg2.N)
abbrev W11 (c : Dev nD) : Valuation τ sig (Elt F) := StableHlo.after hostOps3 (W10 m c)
def W12 (c : Dev nD) : Valuation τ sig (Elt F) := Function.update (W11 m c) main_v82 ((dat3 (atTc (W11 m)) c).arrAt 6 cfg3.N)
abbrev W13 (c : Dev nD) : Valuation τ sig (Elt F) := StableHlo.after hostOps4 (W12 m c)
abbrev W14 (c : Dev nD) : Valuation τ sig (Elt F) := StableHlo.after hostOps4_1 (W13 m c)
abbrev W15 (c : Dev nD) : Valuation τ sig (Elt F) := StableHlo.after hostOps4_2 (W14 m c)
abbrev W16 (c : Dev nD) : Valuation τ sig (Elt F) := StableHlo.after hostOps4_3 (W15 m c)
abbrev W17 (c : Dev nD) : Valuation τ sig (Elt F) := StableHlo.after hostOps4_4 (W16 m c)
abbrev W18 (c : Dev nD) : Valuation τ sig (Elt F) := StableHlo.after hostOps4_5 (W17 m c)
def W19 (c : Dev nD) : Valuation τ sig (Elt F) := Function.update (W18 m c) main_v116 ((dat4 (atTc (W18 m)) c).arrAt 7 cfg4.N)
abbrev W20 (c : Dev nD) : Valuation τ sig (Elt F) := StableHlo.after hostOps5 (W19 m c)
def W21 (c : Dev nD) : Valuation τ sig (Elt F) := Function.update (W20 m c) main_v124 ((dat5 (atTc (W20 m)) c).arrAt 5 cfg5.N)

def outs : Outs (F := F) := fun J r c => match J with
  | 2 => W2 m c r
  | 3 => W3 m c r
  | 10 => W10 m c r
  | 12 => W12 m c r
  | 19 => W19 m c r
  | 21 => W21 m c r
  | _ => W0 m c r

/-- Storing, over equal contents, the entry already stored there gives the stored contents again. -/
theorem upd_eq {V V' : Valuation τ sig (Elt F)} (h : V = V') {b : DevRef τ sig} {v : b.ty.Contents (Elt F)} :
    Function.update V b (Function.update V' b v b) = Function.update V' b v := by rw [h, Function.update_self]

theorem V2_eq (c : Dev nD) : V2 m (outs m) c = W2 m c := upd_eq rfl
theorem V3_eq (c : Dev nD) : V3 m (outs m) c = W3 m c := upd_eq (V2_eq m c)
theorem V9_eq (c : Dev nD) : V9 m (outs m) c = W9 m c := by unfold V9 V8 V7 V6 V5 V4; rw [V3_eq]
theorem V10_eq (c : Dev nD) : V10 m (outs m) c = W10 m c := upd_eq (V9_eq m c)
theorem V11_eq (c : Dev nD) : V11 m (outs m) c = W11 m c := congrArg (StableHlo.after hostOps3) (V10_eq m c)
theorem V12_eq (c : Dev nD) : V12 m (outs m) c = W12 m c := upd_eq (V11_eq m c)
theorem V18_eq (c : Dev nD) : V18 m (outs m) c = W18 m c := by unfold V18 V17 V16 V15 V14 V13; rw [V12_eq]
theorem V19_eq (c : Dev nD) : V19 m (outs m) c = W19 m c := upd_eq (V18_eq m c)
theorem V20_eq (c : Dev nD) : V20 m (outs m) c = W20 m c := congrArg (StableHlo.after hostOps5) (V19_eq m c)
theorem V21_eq (c : Dev nD) : V21 m (outs m) c = W21 m c := upd_eq (V20_eq m c)

def pdats : (p : Fin 6) → (c : Dev nD) → Dat τ (Elt F) Unit ℕ (UR sig nD τ) ℕ (cfgs p) c
  | ⟨0, _⟩ => fun c => dat0 (atTc (W1 m)) c
  | ⟨1, _⟩ => fun c => dat1 (atTc (W2 m)) c
  | ⟨2, _⟩ => fun c => dat2 (atTc (W9 m)) c
  | ⟨3, _⟩ => fun c => dat3 (atTc (W11 m)) c
  | ⟨4, _⟩ => fun c => dat4 (atTc (W18 m)) c
  | ⟨5, _⟩ => fun c => dat5 (atTc (W20 m)) c

abbrev Rest (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.Hand

end
-- ==== Proof.KiParams.lean ====
import proofs.«412619_j24352464570114_1_alg».proof.Proof.KiData

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev 𝒱₀ : Variants := Variants.none
abbrev L : GSem nD τ sig → Finset Unit := fun _ => ∅
abbrev lv : GSem nD τ sig → Unit → ℕ := fun _ _ => 0

end Cert.KernelIdeal.Hand

end
-- ==== Proof.KiSegsA.lean ====
import proofs.«412619_j24352464570114_1_alg».proof.Proof.KiParams

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Only the result window `o` is written: every other window is an input on another array, so its array keeps its entry contents. -/
theorem arrAt_update {p : Fin 6} {c : Dev nD} (D : Dat τ (Elt F) Unit ℕ (UR sig nD τ) ℕ (cfgs p) c) (V : Valuation τ sig (Elt F))
    (o : Fin (cfgs p).W) (hA : ∀ w, D.A w = V (Pipeline.arrRef (cfgs p).spec w))
    (hin : ∀ w, w ≠ o → ((cfgs p).win w).isOut = false ∧ Pipeline.arrRef (cfgs p).spec w ≠ Pipeline.arrRef (cfgs p).spec o)
    (w : Fin (cfgs p).W) :
    D.arrAt w (cfgs p).N
      = Function.update V (Proc.devRef .tc (Pipeline.arrRef (cfgs p).spec o) : DevRef τ sig) (D.arrAt o (cfgs p).N) (Pipeline.arrRef (cfgs p).spec w) := by
  by_cases h : w = o
  · subst h; exact Eq.symm (Function.update_self _ _ _)
  · rw [D.arrAt_in w (hin w h).1, hA]
    exact (Function.update_of_ne (StableHlo.devRef_ne_of_ne (hin w h).2) _ _).symm

/-- Region `p`'s data are plain over `V`: the body proved, the invariant `ΦA` kept, nothing owed, entry contents read off `V`, only window `o` written. -/
structure PlainAt (p : Fin 6) (o : Fin (cfgs p).W) (V : Dev nD → Valuation τ sig (Elt F)) : Prop where
  body : ∀ c, Pipeline.BodyObligation (pdats m p c) defs₀ 𝒱₀ () Set.univ
  Φ : ∀ c t, (pdats m p c).Φ t = Pipeline.ΦA (cfgs p).spec c := by intros; rfl
  owed : ∀ c t, (pdats m p c).owed t = 0 := by intros; rfl
  recorded : ∀ c t, (pdats m p c).recorded t = Set.univ := by intros; rfl
  A : ∀ c w, (pdats m p c).A w = atTc V c (Pipeline.arrRef (cfgs p).spec w) := by intros; rfl
  inp : ∀ w, w ≠ o → ((cfgs p).win w).isOut = false ∧ Pipeline.arrRef (cfgs p).spec w ≠ Pipeline.arrRef (cfgs p).spec o

/-- A region of plain data: entered with the unscoped buffers at `V`, left with them at `V` updated at the result window's array. -/
def plainReg {p : Fin 6} {o : Fin (cfgs p).W} {V : Dev nD → Valuation τ sig (Elt F)} (h : PlainAt m p o V)
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hsplit : ∀ c, (unscopedBufs c (atTc V c) : sProp 𝕄)
      ⊢ iprop((pdats m p c).arrays ((pdats m p c).arrAt · 0) ∗ Pipeline.unscopedRest (cfgs p).spec c (atTc V c)))
    (hjoin : ∀ c V', (∀ w, (pdats m p c).arrAt w (cfgs p).N = V' (Pipeline.arrRef (cfgs p).spec w)) →
      (∀ b, b ∉ Finset.univ.image (Pipeline.arrRef (cfgs p).spec) → V' b = atTc V c b) →
      iprop((pdats m p c).arrays ((pdats m p c).arrAt · (cfgs p).N) ∗ Pipeline.unscopedRest (cfgs p).spec c (atTc V c))
        ⊢ (unscopedBufs c V' : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (h.body c).loose
  hwaits := Pipeline.hwaits_of_owed_zero _ _ _ _ L lv p h.owed
  pre c := iprop(StableHlo.held (c : Thread nD τ) (Pipeline.ucRefs τ sig) (V c) ∗ Rest c)
  post c := iprop(StableHlo.held (c : Thread nD τ) (Pipeline.ucRefs τ sig)
    (Function.update (V c) (Proc.devRef .tc (Pipeline.arrRef (cfgs p).spec o) : DevRef τ sig) ((pdats m p c).arrAt o (cfgs p).N)) ∗ Rest c)
  X c := iprop(∃ r, prngReg c r)
  Y c := iprop(∃ r, prngReg c r)
  Z c := Pipeline.unscopedRest (cfgs p).spec c (atTc V c)
  hentry c := by
    have hsplit := hsplit c
    rw [Pipeline.unscopedBufs_held] at hsplit
    rw [Pipeline.ownSems0_none]
    unfold Pipeline.Dat.owesAt Pipeline.owesWithin Pipeline.Dat.bound Pipeline.prefHeld
    rw [h.owed, h.recorded, show (Finset.univ : Finset (Fin 0)) = ∅ from rfl, BI.bigSep_empty]
    iintro ⟨⟨Hub, Hp, HO⟩, -, -⟩
    ihave H := hsplit $$ Hub
    icases H with ⟨Ha, Hrest⟩
    imodintro
    isplitl [Ha]; · iexact Ha
    isplitr; · iempintro
    isplitl [HO]
    · icases HO with ⟨%W, HO⟩; iexists W; isplitr; · ipureintro; exact fun _ _ => Or.inl trivial
      iexact HO
    isplitl [Hp]; · iexact Hp
    iexact Hrest
  hin c := by
    rw [h.Φ]; unfold Pipeline.ΦA
    iintro ⟨Hp, -, Hr⟩
    isplitl [Hr]; · iexact Hr
    iexact Hp
  hout c := by
    rw [Pipeline.ownSems0_none, h.Φ]; unfold Pipeline.ΦA
    iintro ⟨Hr, Hp⟩
    isplitl [Hp]; · iexact Hp
    isplitr; · iempintro
    iexact Hr
  hexit c := by
    have hjoin := hjoin c (fun b => Function.update (V c) _ ((pdats m p c).arrAt o (cfgs p).N) b)
      (arrAt_update (pdats m p c) (V c) o (h.A c) h.inp) fun b hb =>
      Function.update_of_ne (StableHlo.devRef_ne_of_ne fun e => hb (Finset.mem_image.mpr ⟨o, Finset.mem_univ _, e.symm⟩)) _ _
    rw [Pipeline.unscopedBufs_held] at hjoin
    unfold Pipeline.Dat.owesAt Pipeline.owesWithin
    rw [h.owed]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-- The same for windows on pairwise distinct arrays, each held whole. -/
def fullReg (p : Fin 6) (o : Fin (cfgs p).W) (V : Dev nD → Valuation τ sig (Elt F)) (h : PlainAt m p o V)
    (lf : Pipeline.LaunchFacts (nD := nD) (τ := τ) cfgs p) (hq : ∀ c w, (pdats m p c).q w = fullShare) :
    Pipeline.RegionSeg (pcfgs (F := F)) adm (pdats m) () defs₀ 𝒱₀ L lv p :=
  plainReg m h lf.win.to₀ lf.block_pos lf.stage_whole
    (fun c => Pipeline.arrays_of_unscopedBufs (p := p) (pcfgs (F := F)) adm (pdats m) lf.win lf.arr_whole c
      ((pdats m p c).share_full (hq c)) (atTc V c) (h.A c))
    (fun c V' => Pipeline.unscopedBufs_of_arrays (p := p) (pcfgs (F := F)) adm lf.win lf.arr_whole c (pdats m)
      ((pdats m p c).share_full (hq c)) (atTc V c) V' ((pdats m p c).arrAt · (cfgs p).N))

def reg0 : Pipeline.RegionSeg (pcfgs (F := F)) adm (pdats m) () defs₀ 𝒱₀ L lv 0 :=
  fullReg m 0 (2 : Fin 3) (W1 m) { body := body_obligation0 _, inp := by decide }
    launch0 fun _ _ => rfl

def reg1 : Pipeline.RegionSeg (pcfgs (F := F)) adm (pdats m) () defs₀ 𝒱₀ L lv 1 :=
  fullReg m 1 (2 : Fin 3) (W2 m) { body := body_obligation1 _, inp := by decide }
    launch1 fun _ _ => rfl

def reg4 : Pipeline.RegionSeg (pcfgs (F := F)) adm (pdats m) () defs₀ 𝒱₀ L lv 4 :=
  fullReg m 4 (7 : Fin 8) (W18 m) { body := body_obligation4 _, inp := by decide }
    launch4 fun _ _ => rfl

def reg5 : Pipeline.RegionSeg (pcfgs (F := F)) adm (pdats m) () defs₀ 𝒱₀ L lv 5 :=
  fullReg m 5 (5 : Fin 6) (W20 m) { body := body_obligation5 _, inp := by decide }
    launch5 fun _ _ => rfl

end Cert.KernelIdeal.Hand

end
-- ==== Proof.KiSegsB.lean ====
import proofs.«412619_j24352464570114_1_alg».proof.Proof.KiSegsA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Where `f` is injective but for `f j = f i`, a product over the image of `f` is the product over the indices, `f i`'s factor dealt to `i` and `j` by halves. -/
theorem bigSep_image_halves {I J M : Type} [Fintype I] [DecidableEq I] [DecidableEq J] [URA M] (f : I → J) {i j : I}
    (hne : i ≠ j) (hij : f j = f i) (hinj : ∀ a b, a ≠ j → b ≠ j → f a = f b → a = b)
    (T : PosShare TreeShare → J → sProp M) (hT : ∀ b, T fullShare b = BI.sep (T fullShare.left b) (T fullShare.right b))
    (q : I → PosShare TreeShare) (hq : ∀ w, q w = if w = i then fullShare.left else if w = j then fullShare.right else fullShare) :
    bigSep (Finset.univ.image f) (T fullShare) = bigSep Finset.univ fun w => T (q w) (f w) := by
  have hi : i ∈ Finset.univ.erase j := Finset.mem_erase.mpr ⟨hne, Finset.mem_univ i⟩
  have himg : Finset.univ.image f = (Finset.univ.erase j).image f :=
    Finset.Subset.antisymm (fun b hb => by
      obtain ⟨w, -, rfl⟩ := Finset.mem_image.mp hb
      by_cases h : w = j
      · rw [h, hij]; exact Finset.mem_image_of_mem f hi
      · exact Finset.mem_image_of_mem f (Finset.mem_erase.mpr ⟨h, Finset.mem_univ w⟩))
      (Finset.image_subset_image (Finset.erase_subset _ _))
  have hS : (bigSep ((Finset.univ.erase j).erase i) fun w => T (q w) (f w)) = bigSep ((Finset.univ.erase j).erase i) fun w => T fullShare (f w) :=
    bigSep_congr fun w hw => by
      rw [hq w, if_neg (Finset.ne_of_mem_erase hw), if_neg (Finset.ne_of_mem_erase (Finset.mem_of_mem_erase hw))]
  rw [himg, bigSep_image_of_injOn fun a ha b hb => hinj a b (Finset.ne_of_mem_erase (Finset.mem_coe.mp ha)) (Finset.ne_of_mem_erase (Finset.mem_coe.mp hb)),
    bigSep_erase hi, bigSep_univ_split j, bigSep_erase hi, hS, hq i, hq j, if_pos rfl, if_neg hne.symm, if_pos rfl, hij, hT]
  ac_rfl

/-- Windows `i` and `j` holding one array by halves, every other window its own array whole: the arrays are the distinct buffers behind them. -/
theorem arrays_halves {p : Fin 6} {c : Dev nD} (D : Dat τ (Elt F) Unit ℕ (UR sig nD τ) ℕ (cfgs p) c) {i j : Fin (cfgs p).W}
    (hne : i ≠ j) (hij : Pipeline.arrRef (cfgs p).spec j = Pipeline.arrRef (cfgs p).spec i)
    (hinj : ∀ a b, a ≠ j → b ≠ j → Pipeline.arrRef (cfgs p).spec a = Pipeline.arrRef (cfgs p).spec b → a = b)
    (harr : ∀ w, ((cfgs p).spec w).arr.IsWhole)
    (hq : ∀ w, D.share w = if w = i then fullShare.left else if w = j then fullShare.right else fullShare)
    (V' : (b : Ref sig .tc) → Buf (Elt F) ((c : Thread nD τ).loc b))
    (G : (w : Fin (cfgs p).W) → Buf (Elt F) (((cfgs p).win w).arr.view.loc (c : Thread nD τ)))
    (hG : ∀ w, G w = V' (Pipeline.arrRef (cfgs p).spec w)) :
    (Pipeline.arrBufs (cfgs p).spec c V' : sProp 𝕄) = D.arrays G := by
  unfold Pipeline.arrBufs Pipeline.Dat.arrays
  refine (bigSep_image_halves _ hne hij hinj (fun q b => ((c : Thread nD τ).loc b) ↦{q} V' b)
    (fun b => BI.Entails.antisymm (pointsTo_share (PosShare.mem_left_op_right fullShare)).1
      (pointsTo_share (PosShare.mem_left_op_right fullShare)).2) D.share hq).trans (bigSep_congr fun w _ => ?_)
  rw [(harr w).set_eq_univ, hG]

/-- `plainReg` for such windows. -/
def halvesReg (p : Fin 6) (o : Fin (cfgs p).W) (V : Dev nD → Valuation τ sig (Elt F)) (h : PlainAt m p o V)
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (harr : ∀ w, ((cfgs p).spec w).arr.IsWhole) {i j : Fin (cfgs p).W}
    (hne : i ≠ j) (hij : Pipeline.arrRef (cfgs p).spec j = Pipeline.arrRef (cfgs p).spec i)
    (hinj : ∀ a b, a ≠ j → b ≠ j → Pipeline.arrRef (cfgs p).spec a = Pipeline.arrRef (cfgs p).spec b → a = b)
    (hq : ∀ c w, (pdats m p c).share w = if w = i then fullShare.left else if w = j then fullShare.right else fullShare) :
    Pipeline.RegionSeg (pcfgs (F := F)) adm (pdats m) () defs₀ 𝒱₀ L lv p :=
  plainReg m h win block_pos stage_whole
    (fun c => by
      rw [Pipeline.unscopedBufs_split₀ cfgs p win.arr_unscoped c, arrays_halves (pdats m p c) hne hij hinj harr (hq c) _ _ (h.A c)]
      exact .rfl)
    (fun c V' hF hrest => by
      rw [Pipeline.unscopedBufs_split₀ cfgs p win.arr_unscoped c V', arrays_halves (pdats m p c) hne hij hinj harr (hq c) V' _ hF]
      refine sep_mono .rfl (Entails.of_eq ?_)
      unfold Pipeline.unscopedRest
      exact bigSep_congr fun b hb => by rw [hrest b (Finset.mem_sdiff.mp hb).2])

def reg2 : Pipeline.RegionSeg (pcfgs (F := F)) adm (pdats m) () defs₀ 𝒱₀ L lv 2 :=
  halvesReg m 2 (8 : Fin 9) (W9 m) { body := body_obligation2 _, inp := by decide }
    winFacts₀2 block_pos2 stage_whole2 arr_whole2 (i := (2 : Fin 9)) (j := (7 : Fin 9)) (by decide) (by decide) (by decide)
    fun _ w => by fin_cases w <;> rfl

def reg3 : Pipeline.RegionSeg (pcfgs (F := F)) adm (pdats m) () defs₀ 𝒱₀ L lv 3 :=
  halvesReg m 3 (6 : Fin 7) (W11 m) { body := body_obligation3 _, inp := by decide }
    winFacts₀3 block_pos3 stage_whole3 arr_whole3 (i := (1 : Fin 7)) (j := (5 : Fin 7)) (by decide) (by decide) (by decide)
    fun _ w => by fin_cases w <;> rfl

end Cert.KernelIdeal.Hand

end
-- ==== Proof.KiRun.lean ====
import proofs.«412619_j24352464570114_1_alg».proof.Proof.KiSegsA
import proofs.«412619_j24352464570114_1_alg».proof.Proof.KiSegsB
import proofs.«412619_j24352464570114_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Equal contents of the unscoped buffers may be exchanged under the rest. -/
theorem held_eq (c : Dev nD) {V W : Valuation τ sig (Elt F)} (h : V = W) :
    iprop(StableHlo.held (c : Thread nD τ) (Pipeline.ucRefs τ sig) V ∗ Rest c)
      ⊢ (iprop(StableHlo.held (c : Thread nD τ) (Pipeline.ucRefs τ sig) W ∗ Rest c) : sProp 𝕄) := by
  subst h; exact .rfl

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W21 m c b) := by
  refine Pipeline.θ_run_regions_kit_dev (pcfgs (F := F)) adm (pdats m) () cellOf_inj emb₁ defs₀ 𝒱₀ L lv m ρ main
    (segs m (outs m) 𝒱₀ L lv (fun _ c => Rest c) () (pdats m) (reg0 m) (reg1 m) (reg2 m) (reg3 m) (reg4 m) (reg5 m))
    (fun c Q => by
      rewrite [main_chain c, Seg.run_eq_chain,
        show (segs m (outs m) 𝒱₀ L lv (fun _ c => Rest c) () (pdats m) (reg0 m) (reg1 m) (reg2 m) (reg3 m) (reg4 m) (reg5 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (V0 m c) ∗ Rest c))
    (Tₙ := fun c => StableHlo.held (c : Thread nD τ) (Pipeline.ucRefs τ sig) (V21 m (outs m) c))
    (hch := fun c => ⟨.rfl, .rfl, .rfl, held_eq c (V3_eq m c).symm, .rfl, .rfl, .rfl, .rfl, .rfl,
      held_eq c (V9_eq m c), held_eq c (V10_eq m c).symm, held_eq c (V11_eq m c), held_eq c (V12_eq m c).symm, .rfl, .rfl, .rfl, .rfl, .rfl,
      held_eq c (V18_eq m c), held_eq c (V19_eq m c).symm, held_eq c (V20_eq m c),
      (held_eq c (V21_eq m c).symm).trans (sep_mono .rfl (by iintro ⟨-, H⟩; iexact H))⟩)
    (hinit := ?hinit)
    (QY := fun c s => ∀ b ∈ Pipeline.ucRefs τ sig, s.mem ((c : Thread nD τ).1, b) = W21 m c b)
    (hfin := fun c s' => ?hfin) (hQ := fun _ h => h)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  case hfin =>
    unfold StableHlo.held
    iintro ⟨Hh, HSI⟩
    ihave Hr := (pointsTo_read_all (Pipeline.ucRefs τ sig) (fun b => ((c : Thread nD τ).1, b)) (V21 m (outs m) c) s') $$ [Hh HSI]
    · isplitl [Hh] <;> iassumption
    icases Hr with ⟨%h, HSI⟩
    imodintro
    isplitr
    · ipureintro
      exact fun b hb => (h b hb).trans (congrFun (V21_eq m c) b)
    · iexact HSI

/-- What the run leaves in an unscoped buffer, read at its reference. -/
theorem mem_at {s : MemSt nD τ sig (Elt F)} {c : Dev nD}
    (h : ∀ b ∈ Pipeline.ucRefs τ sig, s.mem ((c : Thread nD τ).1, b) = W21 m c b)
    (b : Ref sig .tc) (hs : ¬ (Proc.devRef .tc b : DevRef τ sig).isScoped) :
    s.mem ((c.tc : Thread nD τ).loc b) = W21 m c b :=
  h _ (Finset.mem_filter.mpr ⟨StableHlo.devRef_mem_tcRefs b, hs⟩)

/-- A buffer no item writes holds at the end what it held at launch. -/
theorem arg_at {s : MemSt nD τ sig (Elt F)} {c : Dev nD}
    (h : ∀ b ∈ Pipeline.ucRefs τ sig, s.mem ((c : Thread nD τ).1, b) = W21 m c b)
    (b : Ref sig .tc) (hs : ¬ (Proc.devRef .tc b : DevRef τ sig).isScoped)
    (e : V21 m (outs m) c b = m ((c.tc : Thread nD τ).loc b)) :
    s.mem ((c.tc : Thread nD τ).loc b) = m ((c.tc : Thread nD τ).loc b) :=
  (mem_at m h b hs).trans ((congrFun (V21_eq m c) b).symm.trans e)

/-- No item writes a launch argument, so each holds at the end what it held at launch. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨arg_at m (h c) _ (by decide) (V21_main_arg0 m _ c), arg_at m (h c) _ (by decide) (V21_main_arg1 m _ c),
      arg_at m (h c) _ (by decide) (V21_main_arg2 m _ c), arg_at m (h c) _ (by decide) (V21_main_arg3 m _ c),
      arg_at m (h c) _ (by decide) (V21_main_arg4 m _ c), arg_at m (h c) _ (by decide) (V21_main_arg5 m _ c),
      arg_at m (h c) _ (by decide) (V21_main_arg6 m _ c), arg_at m (h c) _ (by decide) (V21_main_arg7 m _ c),
      arg_at m (h c) _ (by decide) (V21_main_arg8 m _ c), arg_at m (h c) _ (by decide) (V21_main_arg9 m _ c),
      arg_at m (h c) _ (by decide) (V21_main_arg10 m _ c), arg_at m (h c) _ (by decide) (V21_main_arg11 m _ c),
      arg_at m (h c) _ (by decide) (V21_main_arg12 m _ c)⟩) (run_all m ρ)

end Cert.KernelIdeal.Hand

end
-- ==== Proof.Spec.lean ====
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

abbrev Arr (r c : Nat) := (⟨2, ![r, c]⟩ : Shape).Idx → EReal

abbrev row {r c : Nat} (i : (⟨2, ![r, c]⟩ : Shape).Idx) : Fin r := ⟨(i 0).val, idx2_lt0 i⟩
abbrev col {r c : Nat} (i : (⟨2, ![r, c]⟩ : Shape).Idx) : Fin c := ⟨(i 1).val, idx2_lt1 i⟩

theorem eq_row_col {r c : Nat} (i : (⟨2, ![r, c]⟩ : Shape).Idx) : i = ix2 (row i) (col i) := by
  funext a
  match a with
  | ⟨0, _⟩ => rfl
  | ⟨1, _⟩ => rfl

def mm {n k p : Nat} (X : Arr n k) (W : Arr k p) : Arr n p :=
  fun i => ∑ q : Fin k, X (ix2 (row i) q) * W (ix2 q (col i))

def comb3 {n : Nat} (A B H : Arr n 256) (Wa Wb Wc : Arr 256 256) (bias : Arr 1 256) : Arr n 256 :=
  fun i => ((mm A Wa i + mm B Wb i) + mm H Wc i) + bias (ix2 0 (col i))

def comb2 {n : Nat} (A H : Arr n 256) (Wa Wc : Arr 256 256) (bias : Arr 1 256) : Arr n 256 :=
  fun i => (mm A Wa i + mm H Wc i) + bias (ix2 0 (col i))

def reluRes {n : Nat} (acc Id : Arr n 256) : Arr n 256 :=
  fun i => max (acc i) 0 + Id i

abbrev epsWord : EReal := Ideal.ofBits .f32 0x2B8CBCCC#32

def rowSq {n : Nat} (acc : Arr n 256) (i : (⟨2, ![n, 256]⟩ : Shape).Idx) : EReal :=
  ∑ j : Fin 256, acc (ix2 (row i) j) * acc (ix2 (row i) j)

def l2n {n : Nat} (acc : Arr n 256) : Arr n 256 :=
  fun i => Ideal.div (acc i) (max (Ideal.sqrt (rowSq acc i)) epsWord)

def IsReal {r c : Nat} (X : Arr r c) : Prop := ∀ i, ∃ x : ℝ, X i = (x : EReal)

end Cert.Sage

end
-- ==== Proof.RowBlocks.lean ====
import proofs.«412619_j24352464570114_1_alg».proof.Proof.Spec
import Idealize.ShloMosaic.Lib.Pipeline.Value
import Idealize.ShloMosaic.Lib.ValueLayout
import Idealize.ShloMosaic.Lib.StackMember

noncomputable section

namespace Cert.Sage.RowBlocks

open Cert.Sage
open Idealize.ShloMosaic Idealize.ShloMosaic.ValueIdx

theorem origin2 : (![0, 0] : Fin 2 → Nat) = fun _ => 0 := funext fun a => by fin_cases a <;> rfl

-- A product into the zero accumulator is, entry by entry, the sum over the contracted coordinate.
theorem matmul_eq_mm {m k n : Nat} (X : FVec Ideal ⟨2, ![m, k]⟩ .f32) (W : FVec Ideal ⟨2, ![k, n]⟩ .f32) :
    (matmul (DotDims.plain m k n) none X W (constant (F := Ideal) ⟨2, ![m, n]⟩ .f32 0x00000000#32) : Arr m n) = mm (X : Arr m k) (W : Arr k n) :=
  funext fun i => (congrFun (matmul_zero_eq_dotGeneral _ none X W) i).trans
    ((congrArg _ (eq_row_col i)).trans (StackMember.dotGeneral_plain_apply none X W (row i) (col i)))

-- An entry of a product reads one row of the left factor and one column of the right factor.
theorem mm_at {m n k c c' : Nat} (x : Arr m k) (X : Arr n k) (w : Arr k c) (W : Arr k c')
    (y : (⟨2, ![m, c]⟩ : Shape).Idx) (i : (⟨2, ![n, c']⟩ : Shape).Idx)
    (hx : ∀ q, x (ix2 (row y) q) = X (ix2 (row i) q)) (hw : ∀ q, w (ix2 q (col y)) = W (ix2 q (col i))) : mm x w y = mm X W i :=
  Finset.sum_congr rfl fun q _ => congrArg₂ (· * ·) (hx q) (hw q)

-- With one right factor on both sides, only the row of the left factor matters.
theorem mm_row {m n k c : Nat} (x : Arr m k) (X : Arr n k) (W : Arr k c)
    (y : (⟨2, ![m, c]⟩ : Shape).Idx) (i : (⟨2, ![n, c]⟩ : Shape).Idx) (hc : col y = col i)
    (hx : ∀ q, x (ix2 (row y) q) = X (ix2 (row i) q)) : mm x W y = mm X W i :=
  mm_at x X W W y i hx fun q => congrArg (fun z => W (ix2 q z)) hc

-- Rows cut into blocks of 2000: row r lies in block r / 2000, and every column lies in the one column block.
theorem row_cover {n C : Nat} (i : (⟨2, ![n, C]⟩ : Shape).Idx) (b s : Fin 2 → Nat)
    (h0 : b 0 = (i 0).val / 2000) (h1 : b 1 = 0) (s0 : s 0 = 2000) (s1 : s 1 = C) (a : Fin 2) :
    b a * s a ≤ (i a).val ∧ (i a).val < b a * s a + s a := by
  have := idx2_lt1 i
  match a with
  | ⟨0, _⟩ => show b 0 * s 0 ≤ (i 0).val ∧ (i 0).val < b 0 * s 0 + s 0; rw [h0, s0]; omega
  | ⟨1, _⟩ => show b 1 * s 1 ≤ (i 1).val ∧ (i 1).val < b 1 * s 1 + s 1; rw [h1, s1]; omega

-- One term of the accumulator: a block of rows times a weight matrix.
abbrev blockProd {m k n : Nat} (x : FVec Ideal ⟨2, ![m, k]⟩ .f32) (w : FVec Ideal ⟨2, ![k, n]⟩ .f32)
    (hx : (⟨2, ![m, k]⟩ : Shape).ShapeCasts ⟨2, ![m, k]⟩) (hw : (⟨2, ![k, n]⟩ : Shape).ShapeCasts ⟨2, ![k, n]⟩) : FVec Ideal ⟨2, ![m, n]⟩ .f32 :=
  matmul (DotDims.plain m k n) none (shapeCast ⟨2, ![m, k]⟩ x hx) (shapeCast ⟨2, ![k, n]⟩ w hw) (constant (F := Ideal) ⟨2, ![m, n]⟩ .f32 0x00000000#32)

-- The bias row laid under every row of the block.
abbrev biasRows {m n : Nat} (b : FVec Ideal ⟨2, ![1, n]⟩ .f32) (hb : (⟨2, ![1, n]⟩ : Shape).ShapeCasts ⟨2, ![1, n]⟩)
    (hB : (⟨2, ![1, n]⟩ : Shape).Broadcasts ⟨2, ![m, n]⟩) : FVec Ideal ⟨2, ![m, n]⟩ .f32 :=
  broadcastTo ⟨2, ![m, n]⟩ (shapeCast ⟨2, ![1, n]⟩ b hb) hB

theorem blockProd_eq {m k n : Nat} (x : FVec Ideal ⟨2, ![m, k]⟩ .f32) (w : FVec Ideal ⟨2, ![k, n]⟩ .f32) (hx hw) (j : (⟨2, ![m, n]⟩ : Shape).Idx) :
    (blockProd x w hx hw j : EReal) = mm (x : Arr m k) (w : Arr k n) j := by
  unfold blockProd
  rw [shapeCast_self x, shapeCast_self w]
  exact congrFun (matmul_eq_mm x w) j

theorem biasRows_eq {m n : Nat} (b : FVec Ideal ⟨2, ![1, n]⟩ .f32) (hb) (hB : (⟨2, ![1, n]⟩ : Shape).Broadcasts ⟨2, ![m, n]⟩) (j : (⟨2, ![m, n]⟩ : Shape).Idx) :
    (biasRows b hb hB j : EReal) = (b : Arr 1 n) (ix2 0 (col j)) := by
  unfold biasRows
  rw [shapeCast_self b]
  exact (congrArg _ (eq_row_col j)).trans (broadcastTo_1b_ab_apply b _ (row j) (col j))

theorem acc3_eq {m : Nat} (x0 x1 x2 : FVec Ideal ⟨2, ![m, 256]⟩ .f32) (w0 w1 w2 : FVec Ideal ⟨2, ![256, 256]⟩ .f32) (b : FVec Ideal ⟨2, ![1, 256]⟩ .f32)
    (hx hw hb) (hB : (⟨2, ![1, 256]⟩ : Shape).Broadcasts ⟨2, ![m, 256]⟩) :
    (addf (addf (addf (blockProd x0 w0 hx hw) (blockProd x1 w1 hx hw)) (blockProd x2 w2 hx hw)) (biasRows b hb hB) : Arr m 256)
      = comb3 (x0 : Arr m 256) (x1 : Arr m 256) (x2 : Arr m 256) (w0 : Arr 256 256) (w1 : Arr 256 256) (w2 : Arr 256 256) (b : Arr 1 256) :=
  funext fun j => congrArg₂ (· + ·) (congrArg₂ (· + ·) (congrArg₂ (· + ·) (blockProd_eq x0 w0 hx hw j) (blockProd_eq x1 w1 hx hw j))
    (blockProd_eq x2 w2 hx hw j)) (biasRows_eq b hb hB j)

theorem acc2_eq {m : Nat} (x0 x1 : FVec Ideal ⟨2, ![m, 256]⟩ .f32) (w0 w1 : FVec Ideal ⟨2, ![256, 256]⟩ .f32) (b : FVec Ideal ⟨2, ![1, 256]⟩ .f32)
    (hx hw hb) (hB : (⟨2, ![1, 256]⟩ : Shape).Broadcasts ⟨2, ![m, 256]⟩) :
    (addf (addf (blockProd x0 w0 hx hw) (blockProd x1 w1 hx hw)) (biasRows b hb hB) : Arr m 256)
      = comb2 (x0 : Arr m 256) (x1 : Arr m 256) (w0 : Arr 256 256) (w1 : Arr 256 256) (b : Arr 1 256) :=
  funext fun j => congrArg₂ (· + ·) (congrArg₂ (· + ·) (blockProd_eq x0 w0 hx hw j) (blockProd_eq x1 w1 hx hw j)) (biasRows_eq b hb hB j)

-- The accumulator of a block of rows is the block of the accumulator: it reads one row of each array.
theorem comb3_at {m n : Nat} (a b h : Arr m 256) (A B H : Arr n 256) (wa wb wc Wa Wb Wc : Arr 256 256) (bs Bs : Arr 1 256)
    (y : (⟨2, ![m, 256]⟩ : Shape).Idx) (i : (⟨2, ![n, 256]⟩ : Shape).Idx) (hc : col y = col i)
    (ha : ∀ q, a (ix2 (row y) q) = A (ix2 (row i) q)) (hb : ∀ q, b (ix2 (row y) q) = B (ix2 (row i) q))
    (hh : ∀ q, h (ix2 (row y) q) = H (ix2 (row i) q)) (ea : wa = Wa) (eb : wb = Wb) (ec : wc = Wc) (es : bs = Bs) :
    comb3 a b h wa wb wc bs y = comb3 A B H Wa Wb Wc Bs i := by
  subst ea eb ec es
  unfold comb3
  rw [mm_row a A wa y i hc ha, mm_row b B wb y i hc hb, mm_row h H wc y i hc hh, hc]

theorem comb2_at {m n : Nat} (a h : Arr m 256) (A H : Arr n 256) (wa wc Wa Wc : Arr 256 256) (bs Bs : Arr 1 256)
    (y : (⟨2, ![m, 256]⟩ : Shape).Idx) (i : (⟨2, ![n, 256]⟩ : Shape).Idx) (hc : col y = col i)
    (ha : ∀ q, a (ix2 (row y) q) = A (ix2 (row i) q)) (hh : ∀ q, h (ix2 (row y) q) = H (ix2 (row i) q))
    (ea : wa = Wa) (ec : wc = Wc) (es : bs = Bs) :
    comb2 a h wa wc bs y = comb2 A H Wa Wc Bs i := by
  subst ea ec es
  unfold comb2
  rw [mm_row a A wa y i hc ha, mm_row h H wc y i hc hh, hc]

end Cert.Sage.RowBlocks

end
-- ==== Proof.KiBlocks01.lean ====
import proofs.«412619_j24352464570114_1_alg».proof.Proof.KiReg0
import proofs.«412619_j24352464570114_1_alg».proof.Proof.KiReg1
import proofs.«412619_j24352464570114_1_alg».proof.Proof.RowBlocks
import Idealize.ShloMosaic.Lib.Pipeline.Value

noncomputable section

namespace Cert.KernelIdeal.Hand

open Cert.KernelIdeal Cert.KernelIdeal.Gen Cert.Sage Cert.Sage.RowBlocks
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

private theorem idxA : ∀ t : Fin cfg0.N, win0_2.index t (0 : Fin 2) = t.val :=
  (by decide +kernel : ∀ t : Fin grid0.N, _)

private theorem coverA (i : S100000x256.Idx) :
    ∃ t : Fin cfg0.N, (cfg0.win 2).flush t = true ∧ i ∈ ((cfg0.win 2).blk t).view.set := by
  have := idx2_lt0 i
  obtain ⟨t, ht⟩ : ∃ t : Fin cfg0.N, t.val = (i 0).val / 2000 :=
    ⟨⟨(i 0).val / 2000, by show _ < grid0.N; rw [N_0]; omega⟩, rfl⟩
  refine ⟨t, flush0_2 t, ?_⟩
  show i ∈ ((View.whole main_v39).slice (win0_2.rect t)).set
  rw [View.set_slice_whole, Rect.mem_set_unit]
  exact row_cover i _ _ ((idxA t).trans ht) rfl rfl rfl

theorem final0 (c : Dev nD) :
    ((dat0 (F := Ideal) V c).arrAt 2 cfg0.N : S100000x256.Idx → EReal)
      = mm (V c main_arg0 : S100000x768.Idx → EReal) (V c main_arg5 : S768x256.Idx → EReal) :=
  (dat0 (F := Ideal) V c).arrAt_eq_of_cover 2 _ (fun t _ => by
    show (cfg0.win 2).cut (grid0.coords t) ((dat0 (F := Ideal) V c).after 2 t) = _
    rw [after0_2]
    unfold out0
    rw [View.canon_unit_zero origin2]
    simp only [View.ld_unit_zero (S := S2000x768) origin2, View.ld_unit_zero (S := S768x256) origin2]
    funext j
    exact (congrFun (matmul_eq_mm (m := 2000) (k := 768) (n := 256) (iblk0 V c 0 t) (iblk0 V c 1 t)) _).trans
      (mm_at _ _ _ _ _ (((cfg0.win 2).blk t).view.emb j)
        (fun q => congrArg (V c main_arg0 : S100000x768.Idx → EReal) (Shape.idx_ext₂ rfl (win0_0.rect_emb_val_of_index_zero t (1 : Fin 2) rfl _)))
        (fun q => congrArg (V c main_arg5 : S768x256.Idx → EReal) (Shape.idx_ext₂ (win0_1.rect_emb_val_of_index_zero t (0 : Fin 2) rfl _)
          ((win0_1.rect_emb_val_of_index_zero t (1 : Fin 2) rfl _).trans (win0_2.rect_emb_val_of_index_zero t (1 : Fin 2) rfl j).symm))))) coverA

private theorem idxB : ∀ t : Fin cfg1.N, win1_2.index t (0 : Fin 2) = t.val :=
  (by decide +kernel : ∀ t : Fin grid1.N, _)

private theorem coverB (i : S50000x256.Idx) :
    ∃ t : Fin cfg1.N, (cfg1.win 2).flush t = true ∧ i ∈ ((cfg1.win 2).blk t).view.set := by
  have := idx2_lt0 i
  obtain ⟨t, ht⟩ : ∃ t : Fin cfg1.N, t.val = (i 0).val / 2000 :=
    ⟨⟨(i 0).val / 2000, by show _ < grid1.N; rw [N_1]; omega⟩, rfl⟩
  refine ⟨t, flush1_2 t, ?_⟩
  show i ∈ ((View.whole main_v40).slice (win1_2.rect t)).set
  rw [View.set_slice_whole, Rect.mem_set_unit]
  exact row_cover i _ _ ((idxB t).trans ht) rfl rfl rfl

theorem final1 (c : Dev nD) :
    ((dat1 (F := Ideal) V c).arrAt 2 cfg1.N : S50000x256.Idx → EReal)
      = mm (V c main_arg1 : S50000x1024.Idx → EReal) (V c main_arg6 : S1024x256.Idx → EReal) :=
  (dat1 (F := Ideal) V c).arrAt_eq_of_cover 2 _ (fun t _ => by
    show (cfg1.win 2).cut (grid1.coords t) ((dat1 (F := Ideal) V c).after 2 t) = _
    rw [after1_2]
    unfold out1
    rw [View.canon_unit_zero origin2]
    simp only [View.ld_unit_zero (S := S2000x1024) origin2, View.ld_unit_zero (S := S1024x256) origin2]
    funext j
    exact (congrFun (matmul_eq_mm (m := 2000) (k := 1024) (n := 256) (iblk1 V c 0 t) (iblk1 V c 1 t)) _).trans
      (mm_at _ _ _ _ _ (((cfg1.win 2).blk t).view.emb j)
        (fun q => congrArg (V c main_arg1 : S50000x1024.Idx → EReal) (Shape.idx_ext₂ rfl (win1_0.rect_emb_val_of_index_zero t (1 : Fin 2) rfl _)))
        (fun q => congrArg (V c main_arg6 : S1024x256.Idx → EReal) (Shape.idx_ext₂ (win1_1.rect_emb_val_of_index_zero t (0 : Fin 2) rfl _)
          ((win1_1.rect_emb_val_of_index_zero t (1 : Fin 2) rfl _).trans (win1_2.rect_emb_val_of_index_zero t (1 : Fin 2) rfl j).symm))))) coverB

end Cert.KernelIdeal.Hand

end
-- ==== Proof.KiBlocks23.lean ====
import proofs.«412619_j24352464570114_1_alg».proof.Proof.KiReg2
import proofs.«412619_j24352464570114_1_alg».proof.Proof.KiReg3
import proofs.«412619_j24352464570114_1_alg».proof.Proof.RowBlocks
import Idealize.ShloMosaic.Lib.Pipeline.Value

noncomputable section

namespace Cert.KernelIdeal.Hand

open Cert.KernelIdeal Cert.KernelIdeal.Gen Cert.Sage Cert.Sage.RowBlocks
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

-- Clamp below at zero, then add the block carried through.
private theorem relu_eq (acc r : FVec Ideal S2000x256 .f32) :
    (addf (maximumf acc (broadcast S2000x256 (Scalar.ofBits (F := Ideal) .f32 0x00000000#32))) (shapeCast S2000x256 r shapeCasts_S2000x256_S2000x256) : Arr 2000 256)
      = reluRes (acc : Arr 2000 256) (r : Arr 2000 256) := by
  rw [shapeCast_self r]
  exact funext fun j => congrArg (fun z : EReal => max (acc j) z + r j) Ideal.ofBits_zero_f32

private theorem pay2_eq (x0 x1 x2 : Vec Ideal S2000x256 .f32) (w0 w1 w2 : Vec Ideal S256x256 .f32) (b : Vec Ideal S1x256 .f32) (r : Vec Ideal S2000x256 .f32) :
    (k2_pay1 (F := Ideal) x0 w0 x1 w1 x2 w2 b r : Arr 2000 256)
      = reluRes (comb3 (x0 : Arr 2000 256) (x1 : Arr 2000 256) (x2 : Arr 2000 256) (w0 : Arr 256 256) (w1 : Arr 256 256) (w2 : Arr 256 256) (b : Arr 1 256)) (r : Arr 2000 256) :=
  (relu_eq _ r).trans (congrArg (reluRes · (r : Arr 2000 256)) (acc3_eq x0 x1 x2 w0 w1 w2 b _ _ _ _))

private theorem pay3_eq (x0 x1 : Vec Ideal S2000x256 .f32) (w0 w1 : Vec Ideal S256x256 .f32) (b : Vec Ideal S1x256 .f32) (r : Vec Ideal S2000x256 .f32) :
    (k3_pay1 (F := Ideal) x0 w0 x1 w1 b r : Arr 2000 256)
      = reluRes (comb2 (x0 : Arr 2000 256) (x1 : Arr 2000 256) (w0 : Arr 256 256) (w1 : Arr 256 256) (b : Arr 1 256)) (r : Arr 2000 256) :=
  (relu_eq _ r).trans (congrArg (reluRes · (r : Arr 2000 256)) (acc2_eq x0 x1 w0 w1 b _ _ _ _))

private theorem idx2 : ∀ t : Fin cfg2.N, win2_8.index t (0 : Fin 2) = t.val := (by decide +kernel : ∀ t : Fin grid2.N, _)

private theorem rows_cover2 (i : S100000x256.Idx) :
    ∃ t : Fin cfg2.N, (cfg2.win 8).flush t = true ∧ i ∈ ((cfg2.win 8).blk t).view.set := by
  have := idx2_lt0 i
  obtain ⟨t, ht⟩ : ∃ t : Fin cfg2.N, t.val = (i 0).val / 2000 :=
    ⟨⟨(i 0).val / 2000, lt_of_lt_of_eq (by omega : (i 0).val / 2000 < 50) N_2.symm⟩, rfl⟩
  refine ⟨t, flush2_8 t, ?_⟩
  show i ∈ ((View.whole main_v74).slice (win2_8.rect t)).set
  rw [View.set_slice_whole, Rect.mem_set_unit]
  exact row_cover i _ _ ((idx2 t).trans ht) rfl rfl rfl

theorem final2 (c : Dev nD) :
    ((dat2 (F := Ideal) V c).arrAt 8 cfg2.N : S100000x256.Idx → EReal)
      = reluRes (comb3 (V c main_v46 : S100000x256.Idx → EReal) (V c main_v52 : S100000x256.Idx → EReal) (V c main_v39 : S100000x256.Idx → EReal)
          (V c main_v70 : S256x256.Idx → EReal) (V c main_v72 : S256x256.Idx → EReal) (V c main_v63 : S256x256.Idx → EReal) (V c main_v73 : S1x256.Idx → EReal))
        (V c main_v39 : S100000x256.Idx → EReal) :=
  (dat2 (F := Ideal) V c).arrAt_eq_of_cover 8 _ (fun t _ => by
    show (cfg2.win 8).cut (grid2.coords t) ((dat2 V c).after 8 t) = _
    rw [after2_8]
    unfold out2
    rw [View.canon_unit_zero origin2]
    simp only [View.ld_unit_zero (S := S2000x256) origin2, View.ld_unit_zero (S := S256x256) origin2, View.ld_unit_zero (S := S1x256) origin2]
    funext j
    have hr : ∀ q : Fin 256, ((cfg2.win 8).blk t).view.emb (ix2 (row ((cfg2.win 8).xinj (grid2.coords t) j)) q) = ix2 (row (((cfg2.win 8).blk t).view.emb j)) q :=
      fun q => Shape.idx_ext₂ rfl (win2_8.rect_emb_val_of_index_zero t (1 : Fin 2) rfl _)
    refine (congrFun (pay2_eq _ _ _ _ _ _ _ _) _).trans (congrArg₂ (fun u v => max u 0 + v) ?_ rfl)
    refine comb3_at _ _ _ _ _ _ _ _ _ _ _ _ _ _ _ (((cfg2.win 8).blk t).view.emb j)
      (Fin.ext (win2_8.rect_emb_val_of_index_zero t (1 : Fin 2) rfl j).symm) (fun q => congrArg _ (hr q)) (fun q => congrArg _ (hr q)) (fun q => congrArg _ (hr q)) ?_ ?_ ?_ ?_
    all_goals exact funext fun y => congrArg _ (Shape.idx_ext₂ (Window.rect_emb_val_of_index_zero _ t (0 : Fin 2) rfl y) (Window.rect_emb_val_of_index_zero _ t (1 : Fin 2) rfl y))) rows_cover2

private theorem idx3 : ∀ t : Fin cfg3.N, win3_6.index t (0 : Fin 2) = t.val := (by decide +kernel : ∀ t : Fin grid3.N, _)

private theorem rows_cover3 (i : S50000x256.Idx) :
    ∃ t : Fin cfg3.N, (cfg3.win 6).flush t = true ∧ i ∈ ((cfg3.win 6).blk t).view.set := by
  have := idx2_lt0 i
  obtain ⟨t, ht⟩ : ∃ t : Fin cfg3.N, t.val = (i 0).val / 2000 :=
    ⟨⟨(i 0).val / 2000, lt_of_lt_of_eq (by omega : (i 0).val / 2000 < 25) N_3.symm⟩, rfl⟩
  refine ⟨t, flush3_6 t, ?_⟩
  show i ∈ ((View.whole main_v82).slice (win3_6.rect t)).set
  rw [View.set_slice_whole, Rect.mem_set_unit]
  exact row_cover i _ _ ((idx3 t).trans ht) rfl rfl rfl

theorem final3 (c : Dev nD) :
    ((dat3 (F := Ideal) V c).arrAt 6 cfg3.N : S50000x256.Idx → EReal)
      = reluRes (comb2 (V c main_v58 : S50000x256.Idx → EReal) (V c main_v40 : S50000x256.Idx → EReal)
          (V c main_v76 : S256x256.Idx → EReal) (V c main_v78 : S256x256.Idx → EReal) (V c main_v81 : S1x256.Idx → EReal))
        (V c main_v40 : S50000x256.Idx → EReal) :=
  (dat3 (F := Ideal) V c).arrAt_eq_of_cover 6 _ (fun t _ => by
    show (cfg3.win 6).cut (grid3.coords t) ((dat3 V c).after 6 t) = _
    rw [after3_6]
    unfold out3
    rw [View.canon_unit_zero origin2]
    simp only [View.ld_unit_zero (S := S2000x256) origin2, View.ld_unit_zero (S := S256x256) origin2, View.ld_unit_zero (S := S1x256) origin2]
    funext j
    have hr : ∀ q : Fin 256, ((cfg3.win 6).blk t).view.emb (ix2 (row ((cfg3.win 6).xinj (grid3.coords t) j)) q) = ix2 (row (((cfg3.win 6).blk t).view.emb j)) q :=
      fun q => Shape.idx_ext₂ rfl (win3_6.rect_emb_val_of_index_zero t (1 : Fin 2) rfl _)
    refine (congrFun (pay3_eq _ _ _ _ _ _) _).trans (congrArg₂ (fun u v => max u 0 + v) ?_ rfl)
    refine comb2_at _ _ _ _ _ _ _ _ _ _ _ (((cfg3.win 6).blk t).view.emb j)
      (Fin.ext (win3_6.rect_emb_val_of_index_zero t (1 : Fin 2) rfl j).symm) (fun q => congrArg _ (hr q)) (fun q => congrArg _ (hr q)) ?_ ?_ ?_
    all_goals exact funext fun y => congrArg _ (Shape.idx_ext₂ (Window.rect_emb_val_of_index_zero _ t (0 : Fin 2) rfl y) (Window.rect_emb_val_of_index_zero _ t (1 : Fin 2) rfl y))) rows_cover3

end Cert.KernelIdeal.Hand

end
-- ==== Proof.KiBlocks45.lean ====
import proofs.«412619_j24352464570114_1_alg».proof.Proof.KiReg4
import proofs.«412619_j24352464570114_1_alg».proof.Proof.KiReg5
import proofs.«412619_j24352464570114_1_alg».proof.Proof.RowBlocks
import Idealize.ShloMosaic.Lib.Pipeline.Value
import Idealize.ShloMosaic.PureOps.Ideal.Laws

noncomputable section

namespace Cert.KernelIdeal.Hand

open Cert.KernelIdeal Cert.KernelIdeal.Gen Cert.Sage Cert.Sage.RowBlocks
open Idealize.ShloMosaic Idealize.ShloMosaic.TcCoe Idealize.ShloMosaic.ValueIdx
open Idealize.SL Idealize.SL.Sem
open Idealize.ShloMosaic.Pipeline (Dat Cfg Window)

private theorem shapeCast_col_apply {α : Type} (x : S2000.Idx → α) (h : S2000.ShapeCasts S2000x1) (p : Fin 2000) (u : Fin 1) :
    shapeCast S2000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

private theorem broadcastTo_col_apply {α : Type} (x : S2000x1.Idx → α) (h : S2000x1.Broadcasts S2000x256) (p : Fin 2000) (q : Fin 256) :
    broadcastTo S2000x256 x h (ix2 p q) = x (ix2 p (0 : Fin 1)) :=
  broadcastTo_apply x h (ix2 p q) (ix2 p (0 : Fin 1)) fun ax => match ax with
    | ⟨0, _⟩ => rfl
    | ⟨1, _⟩ => rfl

private theorem laneSum_apply (x : FVec Ideal S2000x256 .f32) (h : S2000x256.Reduces [1] S2000) (p : Fin 2000) :
    multiReduction (F := Ideal) .add [1] S2000 x 0x00000000#32 h (.inl rfl) rfl (ix1 p) = ∑ k : Fin 256, x (ix2 p k) :=
  (Ideal.multiReduction_add_single x _ h _ _ (ix1 p)).trans
    (Finset.sum_congr rfl fun k _ => congrArg x (funext fun a => match a with
      | ⟨0, _⟩ => rfl
      | ⟨1, _⟩ => rfl))

-- Each row divided by its length, the length kept away from zero.
private theorem norm_eq (acc : FVec Ideal S2000x256 .f32) :
    (divf acc (broadcastTo S2000x256 (maximumf (sqrt (shapeCast S2000x1 (multiReduction (F := Ideal) .add [1] S2000 (mulf acc acc) 0x00000000#32 reduces_S2000x256_S2000 (.inl rfl) rfl) shapeCasts_S2000_S2000x1))
        (broadcast S2000x1 (Scalar.ofBits (F := Ideal) .f32 0x2B8CBCCC#32))) broadcasts_S2000x1_S2000x256) : S2000x256.Idx → EReal)
      = l2n (acc : S2000x256.Idx → EReal) := by
  funext j
  obtain ⟨p, q, rfl⟩ : ∃ (p : Fin 2000) (q : Fin 256), j = ix2 p q := ⟨j 0, j 1, eq_ix2 j⟩
  unfold l2n rowSq
  refine congrArg (Ideal.div (acc (ix2 p q))) ?_
  refine (broadcastTo_col_apply _ _ p q).trans ?_
  refine congrArg (fun z => max (Ideal.sqrt z) epsWord) ?_
  exact (shapeCast_col_apply _ _ p 0).trans (laneSum_apply _ _ p)

-- A normalised entry reads one row.
private theorem l2n_at {m n : Nat} (x : Arr m 256) (X : Arr n 256) (y : (⟨2, ![m, 256]⟩ : Shape).Idx) (i : (⟨2, ![n, 256]⟩ : Shape).Idx)
    (hc : col y = col i) (hx : ∀ q, x (ix2 (row y) q) = X (ix2 (row i) q)) : l2n x y = l2n X i :=
  congrArg₂ (fun u v => Ideal.div u (max (Ideal.sqrt v) epsWord))
    ((congrArg x (eq_row_col y)).trans ((hx (col y)).trans ((congrArg (fun z => X (ix2 (row i) z)) hc).trans (congrArg X (eq_row_col i)).symm)))
    (Finset.sum_congr rfl fun q _ => congrArg₂ (· * ·) (hx q) (hx q))

variable (V : (c : Dev nD) → (b : Ref sig .tc) → Buf (Elt Ideal) ((c : Thread nD τ).loc b))

private theorem pay4_eq (x0 x1 x2 : Vec Ideal S2000x256 .f32) (w0 w1 w2 : Vec Ideal S256x256 .f32) (b : Vec Ideal S1x256 .f32) :
    (k4_pay1 (F := Ideal) x0 w0 x1 w1 x2 w2 b : S2000x256.Idx → EReal)
      = l2n (comb3 (x0 : Arr 2000 256) (x1 : Arr 2000 256) (x2 : Arr 2000 256) (w0 : Arr 256 256) (w1 : Arr 256 256) (w2 : Arr 256 256) (b : Arr 1 256)) :=
  (norm_eq _).trans (congrArg l2n (acc3_eq x0 x1 x2 w0 w1 w2 b _ _ _ _))

private theorem pay5_eq (x0 x1 : Vec Ideal S2000x256 .f32) (w0 w1 : Vec Ideal S256x256 .f32) (b : Vec Ideal S1x256 .f32) :
    (k5_pay1 (F := Ideal) x0 w0 x1 w1 b : S2000x256.Idx → EReal)
      = l2n (comb2 (x0 : Arr 2000 256) (x1 : Arr 2000 256) (w0 : Arr 256 256) (w1 : Arr 256 256) (b : Arr 1 256)) :=
  (norm_eq _).trans (congrArg l2n (acc2_eq x0 x1 w0 w1 b _ _ _ _))

private theorem idx4 : ∀ t : Fin cfg4.N, win4_7.index t (0 : Fin 2) = t.val := (by decide +kernel : ∀ t : Fin grid4.N, _)

private theorem covered4 (i : S100000x256.Idx) : ∃ t : Fin cfg4.N, (cfg4.win 7).flush t = true ∧ i ∈ ((cfg4.win 7).blk t).view.set := by
  have := idx2_lt0 i
  obtain ⟨t, ht⟩ : ∃ t : Fin cfg4.N, t.val = (i 0).val / 2000 :=
    ⟨⟨(i 0).val / 2000, lt_of_lt_of_eq (by omega : (i 0).val / 2000 < 50) N_4.symm⟩, rfl⟩
  refine ⟨t, flush4_7 t, ?_⟩
  show i ∈ ((View.whole main_v116).slice (win4_7.rect t)).set
  rw [View.set_slice_whole, Rect.mem_set_unit]
  exact row_cover i _ _ ((idx4 t).trans ht) rfl rfl rfl

theorem final4 (c : Dev nD) :
    ((dat4 (F := Ideal) V c).arrAt 7 cfg4.N : S100000x256.Idx → EReal)
      = l2n (comb3 (V c main_v88 : S100000x256.Idx → EReal) (V c main_v94 : S100000x256.Idx → EReal) (V c main_v74 : S100000x256.Idx → EReal)
          (V c main_v112 : S256x256.Idx → EReal) (V c main_v114 : S256x256.Idx → EReal) (V c main_v105 : S256x256.Idx → EReal) (V c main_v115 : S1x256.Idx → EReal)) :=
  (dat4 (F := Ideal) V c).arrAt_eq_of_cover 7 _ (fun t _ => by
    show (cfg4.win 7).cut (grid4.coords t) ((dat4 V c).after 7 t) = _
    rw [after4_7]
    unfold out4
    rw [View.canon_unit_zero origin2]
    simp only [View.ld_unit_zero (S := S2000x256) origin2, View.ld_unit_zero (S := S256x256) origin2, View.ld_unit_zero (S := S1x256) origin2]
    funext j
    have hr : ∀ q : Fin 256, ((cfg4.win 7).blk t).view.emb (ix2 (row ((cfg4.win 7).xinj (grid4.coords t) j)) q) = ix2 (row (((cfg4.win 7).blk t).view.emb j)) q :=
      fun q => Shape.idx_ext₂ rfl (win4_7.rect_emb_val_of_index_zero t (1 : Fin 2) rfl _)
    refine (congrFun (pay4_eq _ _ _ _ _ _ _) _).trans (l2n_at _ _ _ (((cfg4.win 7).blk t).view.emb j)
      (Fin.ext (win4_7.rect_emb_val_of_index_zero t (1 : Fin 2) rfl j).symm) fun k => ?_)
    refine comb3_at _ _ _ _ _ _ _ _ _ _ _ _ _ _ _ _ rfl (fun q => congrArg _ (hr q)) (fun q => congrArg _ (hr q)) (fun q => congrArg _ (hr q)) ?_ ?_ ?_ ?_
    all_goals exact funext fun y => congrArg _ (Shape.idx_ext₂ (Window.rect_emb_val_of_index_zero _ t (0 : Fin 2) rfl y) (Window.rect_emb_val_of_index_zero _ t (1 : Fin 2) rfl y))) covered4

private theorem idx5 : ∀ t : Fin cfg5.N, win5_5.index t (0 : Fin 2) = t.val := (by decide +kernel : ∀ t : Fin grid5.N, _)

private theorem covered5 (i : S50000x256.Idx) : ∃ t : Fin cfg5.N, (cfg5.win 5).flush t = true ∧ i ∈ ((cfg5.win 5).blk t).view.set := by
  have := idx2_lt0 i
  obtain ⟨t, ht⟩ : ∃ t : Fin cfg5.N, t.val = (i 0).val / 2000 :=
    ⟨⟨(i 0).val / 2000, lt_of_lt_of_eq (by omega : (i 0).val / 2000 < 25) N_5.symm⟩, rfl⟩
  refine ⟨t, flush5_5 t, ?_⟩
  show i ∈ ((View.whole main_v124).slice (win5_5.rect t)).set
  rw [View.set_slice_whole, Rect.mem_set_unit]
  exact row_cover i _ _ ((idx5 t).trans ht) rfl rfl rfl

theorem final5 (c : Dev nD) :
    ((dat5 (F := Ideal) V c).arrAt 5 cfg5.N : S50000x256.Idx → EReal)
      = l2n (comb2 (V c main_v100 : S50000x256.Idx → EReal) (V c main_v82 : S50000x256.Idx → EReal)
          (V c main_v118 : S256x256.Idx → EReal) (V c main_v120 : S256x256.Idx → EReal) (V c main_v123 : S1x256.Idx → EReal)) :=
  (dat5 (F := Ideal) V c).arrAt_eq_of_cover 5 _ (fun t _ => by
    show (cfg5.win 5).cut (grid5.coords t) ((dat5 V c).after 5 t) = _
    rw [after5_5]
    unfold out5
    rw [View.canon_unit_zero origin2]
    simp only [View.ld_unit_zero (S := S2000x256) origin2, View.ld_unit_zero (S := S256x256) origin2, View.ld_unit_zero (S := S1x256) origin2]
    funext j
    have hr : ∀ q : Fin 256, ((cfg5.win 5).blk t).view.emb (ix2 (row ((cfg5.win 5).xinj (grid5.coords t) j)) q) = ix2 (row (((cfg5.win 5).blk t).view.emb j)) q :=
      fun q => Shape.idx_ext₂ rfl (win5_5.rect_emb_val_of_index_zero t (1 : Fin 2) rfl _)
    refine (congrFun (pay5_eq _ _ _ _ _) _).trans (l2n_at _ _ _ (((cfg5.win 5).blk t).view.emb j)
      (Fin.ext (win5_5.rect_emb_val_of_index_zero t (1 : Fin 2) rfl j).symm) fun k => ?_)
    refine comb2_at _ _ _ _ _ _ _ _ _ _ _ _ rfl (fun q => congrArg _ (hr q)) (fun q => congrArg _ (hr q)) ?_ ?_ ?_
    all_goals exact funext fun y => congrArg _ (Shape.idx_ext₂ (Window.rect_emb_val_of_index_zero _ t (0 : Fin 2) rfl y) (Window.rect_emb_val_of_index_zero _ t (1 : Fin 2) rfl y))) covered5

end Cert.KernelIdeal.Hand

end
-- ==== Proof.MeanDefs.lean ====
import proofs.«412619_j24352464570114_1_alg».proof.KernelIdeal
import proofs.«412619_j24352464570114_1_alg».proof.ReferenceIdeal
import proofs.«412619_j24352464570114_1_alg».proof.Proof.Gen.KernelIdeal
import proofs.«412619_j24352464570114_1_alg».proof.Proof.Gen.ReferenceIdeal

noncomputable section

namespace Cert.Mean

open Idealize.ShloMosaic

abbrev Z : Shape := ⟨0, ![]⟩
abbrev V (n : Nat) : Shape := ⟨1, ![n]⟩
abbrev M (n m : Nat) : Shape := ⟨2, ![n, m]⟩

-- the shape side conditions of the mean over E edges from Ns source rows into Nd destination rows
structure EdgeW (E Ns Nd : Nat) : Prop where
  s0 : (M 2 E).Slices ![0, 0] (M 1 E)
  s1 : (M 2 E).Slices ![1, 0] (M 1 E)
  c : (M 1 E).ShapeCasts (V E)
  zE : Z.BroadcastsInDim (V E) ![]
  zE1 : Z.BroadcastsInDim (M E 1) ![]
  zEC : Z.BroadcastsInDim (M E 256) ![]
  zN : Z.BroadcastsInDim (V Nd) ![]
  zN1 : Z.BroadcastsInDim (M Nd 1) ![]
  zNC : Z.BroadcastsInDim (M Nd 256) ![]
  eE1 : (V E).BroadcastsInDim (M E 1) ![0]
  eEC : (V E).BroadcastsInDim (M E 256) ![0]
  o11 : (V 1).BroadcastsInDim (M 1 1) ![1]
  oE1 : (M 1 1).BroadcastsInDim (M E 1) ![0, 1]
  red : (M E 1).ReducesTo [1] (V E)
  nN1 : (V Nd).BroadcastsInDim (M Nd 1) ![0]
  nNC : (M Nd 1).BroadcastsInDim (M Nd 256) ![0, 1]
  g : GatherDims.WF (M Ns 256) (M E 1) (M E 256) [1] [0] [] [0] [] 1 ![1, 256]
  sv : ScatterDims.WF (V Nd) (M E 1) (V E) [] [0] [0] 1
  sN1 : ScatterDims.WF (M Nd 1) (M E 1) (M E 1) [1] [0] [0] 1
  sNC : ScatterDims.WF (M Nd 256) (M E 1) (M E 256) [1] [0] [0] 1

theorem w_ee : EdgeW 800000 100000 100000 := by constructor <;> decide
theorem w_ce : EdgeW 400000 50000 100000 := by constructor <;> decide
theorem w_ec : EdgeW 400000 100000 50000 := by constructor <;> decide

abbrev sdv {E Nd : Nat} (wf : ScatterDims.WF (V Nd) (M E 1) (V E) [] [0] [0] 1) : ScatterDims (V Nd) (M E 1) (V E) :=
  ⟨[], [0], [0], 1, wf⟩

abbrev sdm {E Nd C : Nat} (wf : ScatterDims.WF (M Nd C) (M E 1) (M E C) [1] [0] [0] 1) :
    ScatterDims (M Nd C) (M E 1) (M E C) :=
  ⟨[1], [0], [0], 1, wf⟩

variable {F : FTy → Type} [FloatOps F] {E Ns Nd : Nat} (w : EdgeW E Ns Nd)

def fill (t : Shape) (h : Z.BroadcastsInDim t ![]) (b : BitVec 32) : FVec F t .f32 :=
  broadcastInDim t ![] h (constant Z .f32 b)

def fillI (t : Shape) (h : Z.BroadcastsInDim t ![]) (b : BitVec 32) : IVec t 32 :=
  broadcastInDim t ![] h (constantI Z 32 b)

def src (x : IVec (M 2 E) 32) : IVec (V E) 32 :=
  shapeCast (V E) (extractStridedSlice (M 1 E) ![0, 0] x w.s0) w.c

def dst (x : IVec (M 2 E) 32) : IVec (V E) 32 :=
  shapeCast (V E) (extractStridedSlice (M 1 E) ![1, 0] x w.s1) w.c

def col (v : IVec (V E) 32) : IVec (M E 1) 32 := broadcastInDim (M E 1) ![0] w.eE1 v

def wrap (v : IVec (V E) 32) : IVec (V E) 32 :=
  select (cmpi .slt v (fillI (V E) w.zE 0#32)) (addi v (fillI (V E) w.zE (BitVec.ofNat 32 Ns))) v

def mask (v : IVec (V E) 32) : IVec (V E) 1 :=
  Host.reduce IntOp.andi
    (andi (cmpi .sge (col w (wrap w v)) (fillI (M E 1) w.zE1 0#32))
      (cmpi .sle (col w (wrap w v))
        (broadcastInDim (M E 1) ![0, 1] w.oE1
          (broadcastInDim (M 1 1) ![1] w.o11 (constantI (V 1) 32 (BitVec.ofNat 32 (Ns - 1)))))))
    (constantI Z 1 1#1) w.red (by decide)

def gd : GatherDims (M Ns 256) (M E 1) (M E 256) := ⟨[1], [0], [], [], [0], 1, ![1, 256], w.g⟩

def kTake (X : FVec F (M Ns 256) .f32) (v : IVec (V E) 32) : FVec F (M E 256) .f32 :=
  select (broadcastInDim (M E 256) ![0] w.eEC (mask w v)) (Host.gather (gd w) X (col w (wrap w v)))
    (fill (M E 256) w.zEC 0x7FC00000#32)

def kInv (x : IVec (M 2 E) 32) : FVec F (M Nd 1) .f32 :=
  broadcastInDim (M Nd 1) ![0] w.nN1
    (Host.divf (fill (V Nd) w.zN 0x3F800000#32)
      (maximumf
        (Host.scatterAdd (sdv w.sv) (fill (V Nd) w.zN 0x00000000#32) (col w (dst w x)) (fill (V E) w.zE 0x3F800000#32))
        (fill (V Nd) w.zN 0x3F800000#32)))

def kMean (X : FVec F (M Ns 256) .f32) (x : IVec (M 2 E) 32) : FVec F (M Nd 256) .f32 :=
  mulf
    (Host.scatterAdd (sdm w.sNC) (fill (M Nd 256) w.zNC 0x00000000#32) (col w (dst w x))
      (kTake w X (src w x)))
    (broadcastInDim (M Nd 256) ![0, 1] w.nNC (kInv w x))

def rCol (x : IVec (M 2 E) 32) : IVec (M E 1) 32 := col w (wrap w (src w x))

def rSum (X : FVec F (M Ns 256) .f32) (x : IVec (M 2 E) 32) : FVec F (M Nd 256) .f32 :=
  Host.scatterAdd (sdm w.sNC) (fill (M Nd 256) w.zNC 0x00000000#32) (col w (dst w x))
    (Host.gather (gd w) X (rCol w x))

def rCnt (x : IVec (M 2 E) 32) : FVec F (M Nd 1) .f32 :=
  maximumf
    (Host.scatterAdd (sdm w.sN1) (fill (M Nd 1) w.zN1 0x00000000#32) (col w (dst w x))
      (fill (M E 1) w.zE1 0x3F800000#32))
    (fill (M Nd 1) w.zN1 0x3F800000#32)

def rMean (X : FVec F (M Ns 256) .f32) (x : IVec (M 2 E) 32) : FVec F (M Nd 256) .f32 :=
  Host.divf (rSum w X x) (broadcastInDim (M Nd 256) ![0, 1] w.nNC (rCnt w x))

end Cert.Mean

namespace Cert.KernelIdeal.Hand

open Cert.KernelIdeal Cert.Mean Idealize.ShloMosaic

variable {F : FTy → Type} [FloatOps F]

def kSrc_ee (x : IVec S2x800000 32) : IVec S800000 32 := src w_ee x
def kDst_ee (x : IVec S2x800000 32) : IVec S800000 32 := dst w_ee x
def kInv_ee (x : IVec S2x800000 32) : FVec F S100000x1 .f32 := kInv w_ee x
def kTake_ee (X : FVec F S100000x256 .f32) (idx : IVec S800000 32) : FVec F S800000x256 .f32 := kTake w_ee X idx
def kMean_ee (X : FVec F S100000x256 .f32) (x : IVec S2x800000 32) : FVec F S100000x256 .f32 := kMean w_ee X x

def kSrc_ce (x : IVec S2x400000 32) : IVec S400000 32 := src w_ce x
def kDst_ce (x : IVec S2x400000 32) : IVec S400000 32 := dst w_ce x
def kInv_ce (x : IVec S2x400000 32) : FVec F S100000x1 .f32 := kInv w_ce x
def kTake_ce (X : FVec F S50000x256 .f32) (idx : IVec S400000 32) : FVec F S400000x256 .f32 := kTake w_ce X idx
def kMean_ce (X : FVec F S50000x256 .f32) (x : IVec S2x400000 32) : FVec F S100000x256 .f32 := kMean w_ce X x

def kSrc_ec (x : IVec S2x400000 32) : IVec S400000 32 := src w_ec x
def kDst_ec (x : IVec S2x400000 32) : IVec S400000 32 := dst w_ec x
def kInv_ec (x : IVec S2x400000 32) : FVec F S50000x1 .f32 := kInv w_ec x
def kTake_ec (X : FVec F S100000x256 .f32) (idx : IVec S400000 32) : FVec F S400000x256 .f32 := kTake w_ec X idx
def kMean_ec (X : FVec F S100000x256 .f32) (x : IVec S2x400000 32) : FVec F S50000x256 .f32 := kMean w_ec X x

end Cert.KernelIdeal.Hand

namespace Cert.ReferenceIdeal.Hand

open Cert.ReferenceIdeal Cert.Mean Idealize.ShloMosaic

variable {F : FTy → Type} [FloatOps F]

def rSrc_ee (x : IVec S2x800000 32) : IVec S800000 32 := src w_ee x
def rCol_ee (x : IVec S2x800000 32) : IVec S800000x1 32 := rCol w_ee x
def rSum_ee (X : FVec F S100000x256 .f32) (x : IVec S2x800000 32) : FVec F S100000x256 .f32 := rSum w_ee X x
def rCnt_ee (x : IVec S2x800000 32) : FVec F S100000x1 .f32 := rCnt w_ee x
def rMean_ee (X : FVec F S100000x256 .f32) (x : IVec S2x800000 32) : FVec F S100000x256 .f32 := rMean w_ee X x

def rSrc_ce (x : IVec S2x400000 32) : IVec S400000 32 := src w_ce x
def rCol_ce (x : IVec S2x400000 32) : IVec S400000x1 32 := rCol w_ce x
def rSum_ce (X : FVec F S50000x256 .f32) (x : IVec S2x400000 32) : FVec F S100000x256 .f32 := rSum w_ce X x
def rCnt_ce (x : IVec S2x400000 32) : FVec F S100000x1 .f32 := rCnt w_ce x
def rMean_ce (X : FVec F S50000x256 .f32) (x : IVec S2x400000 32) : FVec F S100000x256 .f32 := rMean w_ce X x

def rSrc_ec (x : IVec S2x400000 32) : IVec S400000 32 := src w_ec x
def rCol_ec (x : IVec S2x400000 32) : IVec S400000x1 32 := rCol w_ec x
def rSum_ec (X : FVec F S100000x256 .f32) (x : IVec S2x400000 32) : FVec F S50000x256 .f32 := rSum w_ec X x
def rCnt_ec (x : IVec S2x400000 32) : FVec F S50000x1 .f32 := rCnt w_ec x
def rMean_ec (X : FVec F S100000x256 .f32) (x : IVec S2x400000 32) : FVec F S50000x256 .f32 := rMean w_ec X x

end Cert.ReferenceIdeal.Hand

end
-- ==== Proof.KiHost.lean ====
import proofs.«412619_j24352464570114_1_alg».proof.Proof.KiData
import proofs.«412619_j24352464570114_1_alg».proof.Proof.MeanDefs

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v39] : List (Ref sig .tc))) : W2 m c r = W1 m c r := by
  unfold W2; exact Function.update_of_ne (StableHlo.devRef_ne_of_ne (List.ne_of_not_mem_cons h)) _ _
theorem W3_of (c : Dev nD) (r : Ref sig .tc) (h : r ∉ ([main_v40] : List (Ref sig .tc))) : W3 m c r = W2 m c r := by
  unfold W3; exact Function.update_of_ne (StableHlo.devRef_ne_of_ne (List.ne_of_not_mem_cons h)) _ _
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : r ∉ hostOps2_1_W) : W5 m c r = W4 m c r :=
  StableHlo.after_of_writes_sub hostOps2_1 _ hostOps2_1_writes h
theorem W6_of (c : Dev nD) (r : Ref sig .tc) (h : r ∉ hostOps2_2_W) : W6 m c r = W5 m c r :=
  StableHlo.after_of_writes_sub hostOps2_2 _ hostOps2_2_writes h
theorem W7_of (c : Dev nD) (r : Ref sig .tc) (h : r ∉ hostOps2_3_W) : W7 m c r = W6 m c r :=
  StableHlo.after_of_writes_sub hostOps2_3 _ hostOps2_3_writes h
theorem W8_of (c : Dev nD) (r : Ref sig .tc) (h : r ∉ hostOps2_4_W) : W8 m c r = W7 m c r :=
  StableHlo.after_of_writes_sub hostOps2_4 _ hostOps2_4_writes h
theorem W9_of (c : Dev nD) (r : Ref sig .tc) (h : r ∉ hostOps2_5_W) : W9 m c r = W8 m c r :=
  StableHlo.after_of_writes_sub hostOps2_5 _ hostOps2_5_writes h
theorem W10_of (c : Dev nD) (r : Ref sig .tc) (h : r ∉ ([main_v74] : List (Ref sig .tc))) : W10 m c r = W9 m c r := by
  unfold W10; exact Function.update_of_ne (StableHlo.devRef_ne_of_ne (List.ne_of_not_mem_cons h)) _ _
theorem W11_of (c : Dev nD) (r : Ref sig .tc) (h : r ∉ hostOps3_W) : W11 m c r = W10 m c r :=
  StableHlo.after_of_writes_sub hostOps3 _ hostOps3_writes h
theorem W12_of (c : Dev nD) (r : Ref sig .tc) (h : r ∉ ([main_v82] : List (Ref sig .tc))) : W12 m c r = W11 m c r := by
  unfold W12; exact Function.update_of_ne (StableHlo.devRef_ne_of_ne (List.ne_of_not_mem_cons h)) _ _
theorem W13_of (c : Dev nD) (r : Ref sig .tc) (h : r ∉ hostOps4_W) : W13 m c r = W12 m c r :=
  StableHlo.after_of_writes_sub hostOps4 _ hostOps4_writes h
theorem W14_of (c : Dev nD) (r : Ref sig .tc) (h : r ∉ hostOps4_1_W) : W14 m c r = W13 m c r :=
  StableHlo.after_of_writes_sub hostOps4_1 _ hostOps4_1_writes h
theorem W15_of (c : Dev nD) (r : Ref sig .tc) (h : r ∉ hostOps4_2_W) : W15 m c r = W14 m c r :=
  StableHlo.after_of_writes_sub hostOps4_2 _ hostOps4_2_writes h
theorem W16_of (c : Dev nD) (r : Ref sig .tc) (h : r ∉ hostOps4_3_W) : W16 m c r = W15 m c r :=
  StableHlo.after_of_writes_sub hostOps4_3 _ hostOps4_3_writes h
theorem W17_of (c : Dev nD) (r : Ref sig .tc) (h : r ∉ hostOps4_4_W) : W17 m c r = W16 m c r :=
  StableHlo.after_of_writes_sub hostOps4_4 _ hostOps4_4_writes h
theorem W18_of (c : Dev nD) (r : Ref sig .tc) (h : r ∉ hostOps4_5_W) : W18 m c r = W17 m c r :=
  StableHlo.after_of_writes_sub hostOps4_5 _ hostOps4_5_writes h
theorem W19_of (c : Dev nD) (r : Ref sig .tc) (h : r ∉ ([main_v116] : List (Ref sig .tc))) : W19 m c r = W18 m c r := by
  unfold W19; exact Function.update_of_ne (StableHlo.devRef_ne_of_ne (List.ne_of_not_mem_cons h)) _ _
theorem W20_of (c : Dev nD) (r : Ref sig .tc) (h : r ∉ hostOps5_W) : W20 m c r = W19 m c r :=
  StableHlo.after_of_writes_sub hostOps5 _ hostOps5_writes h

theorem ofBuf_toBuf {T : BufTy} (x : StableHlo.TRef sig T) (v : T.Contents (Elt F)) :
    x.ofBuf (x.toBuf (Val := Elt F) v) = v := by
  obtain ⟨r, h, _, _⟩ := x
  subst h
  rfl

theorem W1_v1 (c : Dev nD) : W1 m c main_v1 = kSrc_ee (m ((c : Thread nD τ).loc main_arg2)) := by
  after_results_simp
  rfl
theorem W1_v3 (c : Dev nD) : W1 m c main_v3 = kDst_ee (m ((c : Thread nD τ).loc main_arg2)) := by
  after_results_simp
  rfl
theorem W1_v5 (c : Dev nD) : W1 m c main_v5 = kSrc_ec (m ((c : Thread nD τ).loc main_arg3)) := by
  after_results_simp
  rfl
theorem W1_v7 (c : Dev nD) : W1 m c main_v7 = kDst_ec (m ((c : Thread nD τ).loc main_arg3)) := by
  after_results_simp
  rfl
theorem W1_v9 (c : Dev nD) : W1 m c main_v9 = kSrc_ce (m ((c : Thread nD τ).loc main_arg4)) := by
  after_results_simp
  rfl
theorem W1_v11 (c : Dev nD) : W1 m c main_v11 = kDst_ce (m ((c : Thread nD τ).loc main_arg4)) := by
  after_results_simp
  rfl
theorem W1_v20 (c : Dev nD) : W1 m c main_v20 = kInv_ee (m ((c : Thread nD τ).loc main_arg2)) := by
  after_results_simp
  rfl
theorem W1_v29 (c : Dev nD) : W1 m c main_v29 = kInv_ec (m ((c : Thread nD τ).loc main_arg3)) := by
  after_results_simp
  rfl
theorem W1_v38 (c : Dev nD) : W1 m c main_v38 = kInv_ce (m ((c : Thread nD τ).loc main_arg4)) := by
  after_results_simp
  rfl

theorem W3_v1 (c : Dev nD) : W3 m c main_v1 = kSrc_ee (m ((c : Thread nD τ).loc main_arg2)) :=
  ((W3_of m c main_v1 (by decide)).trans <| (W2_of m c main_v1 (by decide))).trans (W1_v1 m c)
theorem W3_v39 (c : Dev nD) : W3 m c main_v39 = W2 m c main_v39 :=
  (W3_of m c main_v39 (by decide))
theorem W4_v41 (c : Dev nD) : W4 m c main_v41 = kTake_ee (W2 m c main_v39) (kSrc_ee (m ((c : Thread nD τ).loc main_arg2))) := by
  have e1 := W3_v1 m c
  have e2 := W3_v39 m c
  show StableHlo.after hostOps2 (W3 m c) (Proc.devRef .tc main_v41) = _
  rw [← e1, ← e2]
  generalize W3 m c = V
  have key : (StableHlo.TRef.of main_v41 : StableHlo.TRef sig ⟨S800000x256, .f32⟩).ofBuf (StableHlo.after hostOps2 V (Proc.devRef .tc main_v41)) = kTake_ee (V main_v39) (V main_v1) := by
    after_results_simp
    simp only [ofBuf_toBuf]
    rfl
  generalize StableHlo.after hostOps2 V (Proc.devRef .tc main_v41) = A at key ⊢
  exact Eq.trans rfl key
theorem W4_v3 (c : Dev nD) : W4 m c main_v3 = kDst_ee (m ((c : Thread nD τ).loc main_arg2)) :=
  ((W4_of m c main_v3 (by decide)).trans <| (W3_of m c main_v3 (by decide)).trans <| (W2_of m c main_v3 (by decide))).trans (W1_v3 m c)
theorem W4_v20 (c : Dev nD) : W4 m c main_v20 = kInv_ee (m ((c : Thread nD τ).loc main_arg2)) :=
  ((W4_of m c main_v20 (by decide)).trans <| (W3_of m c main_v20 (by decide)).trans <| (W2_of m c main_v20 (by decide))).trans (W1_v20 m c)
theorem W5_v46 (c : Dev nD) : W5 m c main_v46 = kMean_ee (W2 m c main_v39) (m ((c : Thread nD τ).loc main_arg2)) := by
  have e1 := W4_v3 m c
  have e2 := W4_v20 m c
  have e3 := W4_v41 m c
  show StableHlo.after hostOps2_1 (W4 m c) (Proc.devRef .tc main_v46) = _
  generalize W4 m c = V at e1 e2 e3 ⊢
  after_results_simp
  rw [e1, e2, e3]
  rfl

theorem W5_v9 (c : Dev nD) : W5 m c main_v9 = kSrc_ce (m ((c : Thread nD τ).loc main_arg4)) :=
  ((W5_of m c main_v9 (by decide)).trans <| (W4_of m c main_v9 (by decide)).trans <| (W3_of m c main_v9 (by decide)).trans <| (W2_of m c main_v9 (by decide))).trans (W1_v9 m c)
theorem W5_v40 (c : Dev nD) : W5 m c main_v40 = W3 m c main_v40 :=
  (W5_of m c main_v40 (by decide)).trans <| (W4_of m c main_v40 (by decide))
theorem W6_v47 (c : Dev nD) : W6 m c main_v47 = kTake_ce (W3 m c main_v40) (kSrc_ce (m ((c : Thread nD τ).loc main_arg4))) := by
  have e1 := W5_v9 m c
  have e2 := W5_v40 m c
  show StableHlo.after hostOps2_2 (W5 m c) (Proc.devRef .tc main_v47) = _
  rw [← e1, ← e2]
  generalize W5 m c = V
  have key : (StableHlo.TRef.of main_v47 : StableHlo.TRef sig ⟨S400000x256, .f32⟩).ofBuf (StableHlo.after hostOps2_2 V (Proc.devRef .tc main_v47)) = kTake_ce (V main_v40) (V main_v9) := by
    after_results_simp
    simp only [ofBuf_toBuf]
    rfl
  generalize StableHlo.after hostOps2_2 V (Proc.devRef .tc main_v47) = A at key ⊢
  exact Eq.trans rfl key
theorem W6_v11 (c : Dev nD) : W6 m c main_v11 = kDst_ce (m ((c : Thread nD τ).loc main_arg4)) :=
  ((W6_of m c main_v11 (by decide)).trans <| (W5_of m c main_v11 (by decide)).trans <| (W4_of m c main_v11 (by decide)).trans <| (W3_of m c main_v11 (by decide)).trans <| (W2_of m c main_v11 (by decide))).trans (W1_v11 m c)
theorem W6_v38 (c : Dev nD) : W6 m c main_v38 = kInv_ce (m ((c : Thread nD τ).loc main_arg4)) :=
  ((W6_of m c main_v38 (by decide)).trans <| (W5_of m c main_v38 (by decide)).trans <| (W4_of m c main_v38 (by decide)).trans <| (W3_of m c main_v38 (by decide)).trans <| (W2_of m c main_v38 (by decide))).trans (W1_v38 m c)
theorem W7_v52 (c : Dev nD) : W7 m c main_v52 = kMean_ce (W3 m c main_v40) (m ((c : Thread nD τ).loc main_arg4)) := by
  have e1 := W6_v11 m c
  have e2 := W6_v38 m c
  have e3 := W6_v47 m c
  show StableHlo.after hostOps2_3 (W6 m c) (Proc.devRef .tc main_v52) = _
  generalize W6 m c = V at e1 e2 e3 ⊢
  after_results_simp
  rw [e1, e2, e3]
  rfl

theorem W7_v5 (c : Dev nD) : W7 m c main_v5 = kSrc_ec (m ((c : Thread nD τ).loc main_arg3)) :=
  ((W7_of m c main_v5 (by decide)).trans <| (W6_of m c main_v5 (by decide)).trans <| (W5_of m c main_v5 (by decide)).trans <| (W4_of m c main_v5 (by decide)).trans <| (W3_of m c main_v5 (by decide)).trans <| (W2_of m c main_v5 (by decide))).trans (W1_v5 m c)
theorem W7_v39 (c : Dev nD) : W7 m c main_v39 = W2 m c main_v39 :=
  (W7_of m c main_v39 (by decide)).trans <| (W6_of m c main_v39 (by decide)).trans <| (W5_of m c main_v39 (by decide)).trans <| (W4_of m c main_v39 (by decide)).trans <| (W3_of m c main_v39 (by decide))
theorem W8_v53 (c : Dev nD) : W8 m c main_v53 = kTake_ec (W2 m c main_v39) (kSrc_ec (m ((c : Thread nD τ).loc main_arg3))) := by
  have e1 := W7_v5 m c
  have e2 := W7_v39 m c
  show StableHlo.after hostOps2_4 (W7 m c) (Proc.devRef .tc main_v53) = _
  rw [← e1, ← e2]
  generalize W7 m c = V
  have key : (StableHlo.TRef.of main_v53 : StableHlo.TRef sig ⟨S400000x256, .f32⟩).ofBuf (StableHlo.after hostOps2_4 V (Proc.devRef .tc main_v53)) = kTake_ec (V main_v39) (V main_v5) := by
    after_results_simp
    simp only [ofBuf_toBuf]
    rfl
  generalize StableHlo.after hostOps2_4 V (Proc.devRef .tc main_v53) = A at key ⊢
  exact Eq.trans rfl key
theorem W8_v7 (c : Dev nD) : W8 m c main_v7 = kDst_ec (m ((c : Thread nD τ).loc main_arg3)) :=
  ((W8_of m c main_v7 (by decide)).trans <| (W7_of m c main_v7 (by decide)).trans <| (W6_of m c main_v7 (by decide)).trans <| (W5_of m c main_v7 (by decide)).trans <| (W4_of m c main_v7 (by decide)).trans <| (W3_of m c main_v7 (by decide)).trans <| (W2_of m c main_v7 (by decide))).trans (W1_v7 m c)
theorem W8_v29 (c : Dev nD) : W8 m c main_v29 = kInv_ec (m ((c : Thread nD τ).loc main_arg3)) :=
  ((W8_of m c main_v29 (by decide)).trans <| (W7_of m c main_v29 (by decide)).trans <| (W6_of m c main_v29 (by decide)).trans <| (W5_of m c main_v29 (by decide)).trans <| (W4_of m c main_v29 (by decide)).trans <| (W3_of m c main_v29 (by decide)).trans <| (W2_of m c main_v29 (by decide))).trans (W1_v29 m c)
theorem W9_v58 (c : Dev nD) : W9 m c main_v58 = kMean_ec (W2 m c main_v39) (m ((c : Thread nD τ).loc main_arg3)) := by
  have e1 := W8_v7 m c
  have e2 := W8_v29 m c
  have e3 := W8_v53 m c
  show StableHlo.after hostOps2_5 (W8 m c) (Proc.devRef .tc main_v58) = _
  generalize W8 m c = V at e1 e2 e3 ⊢
  after_results_simp
  rw [e1, e2, e3]
  rfl

theorem W12_v1 (c : Dev nD) : W12 m c main_v1 = kSrc_ee (m ((c : Thread nD τ).loc main_arg2)) :=
  ((W12_of m c main_v1 (by decide)).trans <| (W11_of m c main_v1 (by decide)).trans <| (W10_of m c main_v1 (by decide)).trans <| (W9_of m c main_v1 (by decide)).trans <| (W8_of m c main_v1 (by decide)).trans <| (W7_of m c main_v1 (by decide)).trans <| (W6_of m c main_v1 (by decide)).trans <| (W5_of m c main_v1 (by decide)).trans <| (W4_of m c main_v1 (by decide)).trans <| (W3_of m c main_v1 (by decide)).trans <| (W2_of m c main_v1 (by decide))).trans (W1_v1 m c)
theorem W12_v74 (c : Dev nD) : W12 m c main_v74 = W10 m c main_v74 :=
  (W12_of m c main_v74 (by decide)).trans <| (W11_of m c main_v74 (by decide))
theorem W13_v83 (c : Dev nD) : W13 m c main_v83 = kTake_ee (W10 m c main_v74) (kSrc_ee (m ((c : Thread nD τ).loc main_arg2))) := by
  have e1 := W12_v1 m c
  have e2 := W12_v74 m c
  show StableHlo.after hostOps4 (W12 m c) (Proc.devRef .tc main_v83) = _
  rw [← e1, ← e2]
  generalize W12 m c = V
  have key : (StableHlo.TRef.of main_v83 : StableHlo.TRef sig ⟨S800000x256, .f32⟩).ofBuf (StableHlo.after hostOps4 V (Proc.devRef .tc main_v83)) = kTake_ee (V main_v74) (V main_v1) := by
    after_results_simp
    simp only [ofBuf_toBuf]
    rfl
  generalize StableHlo.after hostOps4 V (Proc.devRef .tc main_v83) = A at key ⊢
  exact Eq.trans rfl key
theorem W13_v3 (c : Dev nD) : W13 m c main_v3 = kDst_ee (m ((c : Thread nD τ).loc main_arg2)) :=
  ((W13_of m c main_v3 (by decide)).trans <| (W12_of m c main_v3 (by decide)).trans <| (W11_of m c main_v3 (by decide)).trans <| (W10_of m c main_v3 (by decide)).trans <| (W9_of m c main_v3 (by decide)).trans <| (W8_of m c main_v3 (by decide)).trans <| (W7_of m c main_v3 (by decide)).trans <| (W6_of m c main_v3 (by decide)).trans <| (W5_of m c main_v3 (by decide)).trans <| (W4_of m c main_v3 (by decide)).trans <| (W3_of m c main_v3 (by decide)).trans <| (W2_of m c main_v3 (by decide))).trans (W1_v3 m c)
theorem W13_v20 (c : Dev nD) : W13 m c main_v20 = kInv_ee (m ((c : Thread nD τ).loc main_arg2)) :=
  ((W13_of m c main_v20 (by decide)).trans <| (W12_of m c main_v20 (by decide)).trans <| (W11_of m c main_v20 (by decide)).trans <| (W10_of m c main_v20 (by decide)).trans <| (W9_of m c main_v20 (by decide)).trans <| (W8_of m c main_v20 (by decide)).trans <| (W7_of m c main_v20 (by decide)).trans <| (W6_of m c main_v20 (by decide)).trans <| (W5_of m c main_v20 (by decide)).trans <| (W4_of m c main_v20 (by decide)).trans <| (W3_of m c main_v20 (by decide)).trans <| (W2_of m c main_v20 (by decide))).trans (W1_v20 m c)
theorem W14_v88 (c : Dev nD) : W14 m c main_v88 = kMean_ee (W10 m c main_v74) (m ((c : Thread nD τ).loc main_arg2)) := by
  have e1 := W13_v3 m c
  have e2 := W13_v20 m c
  have e3 := W13_v83 m c
  show StableHlo.after hostOps4_1 (W13 m c) (Proc.devRef .tc main_v88) = _
  generalize W13 m c = V at e1 e2 e3 ⊢
  after_results_simp
  rw [e1, e2, e3]
  rfl

theorem W14_v9 (c : Dev nD) : W14 m c main_v9 = kSrc_ce (m ((c : Thread nD τ).loc main_arg4)) :=
  ((W14_of m c main_v9 (by decide)).trans <| (W13_of m c main_v9 (by decide)).trans <| (W12_of m c main_v9 (by decide)).trans <| (W11_of m c main_v9 (by decide)).trans <| (W10_of m c main_v9 (by decide)).trans <| (W9_of m c main_v9 (by decide)).trans <| (W8_of m c main_v9 (by decide)).trans <| (W7_of m c main_v9 (by decide)).trans <| (W6_of m c main_v9 (by decide)).trans <| (W5_of m c main_v9 (by decide)).trans <| (W4_of m c main_v9 (by decide)).trans <| (W3_of m c main_v9 (by decide)).trans <| (W2_of m c main_v9 (by decide))).trans (W1_v9 m c)
theorem W14_v82 (c : Dev nD) : W14 m c main_v82 = W12 m c main_v82 :=
  (W14_of m c main_v82 (by decide)).trans <| (W13_of m c main_v82 (by decide))
theorem W15_v89 (c : Dev nD) : W15 m c main_v89 = kTake_ce (W12 m c main_v82) (kSrc_ce (m ((c : Thread nD τ).loc main_arg4))) := by
  have e1 := W14_v9 m c
  have e2 := W14_v82 m c
  show StableHlo.after hostOps4_2 (W14 m c) (Proc.devRef .tc main_v89) = _
  rw [← e1, ← e2]
  generalize W14 m c = V
  have key : (StableHlo.TRef.of main_v89 : StableHlo.TRef sig ⟨S400000x256, .f32⟩).ofBuf (StableHlo.after hostOps4_2 V (Proc.devRef .tc main_v89)) = kTake_ce (V main_v82) (V main_v9) := by
    after_results_simp
    simp only [ofBuf_toBuf]
    rfl
  generalize StableHlo.after hostOps4_2 V (Proc.devRef .tc main_v89) = A at key ⊢
  exact Eq.trans rfl key
theorem W15_v11 (c : Dev nD) : W15 m c main_v11 = kDst_ce (m ((c : Thread nD τ).loc main_arg4)) :=
  ((W15_of m c main_v11 (by decide)).trans <| (W14_of m c main_v11 (by decide)).trans <| (W13_of m c main_v11 (by decide)).trans <| (W12_of m c main_v11 (by decide)).trans <| (W11_of m c main_v11 (by decide)).trans <| (W10_of m c main_v11 (by decide)).trans <| (W9_of m c main_v11 (by decide)).trans <| (W8_of m c main_v11 (by decide)).trans <| (W7_of m c main_v11 (by decide)).trans <| (W6_of m c main_v11 (by decide)).trans <| (W5_of m c main_v11 (by decide)).trans <| (W4_of m c main_v11 (by decide)).trans <| (W3_of m c main_v11 (by decide)).trans <| (W2_of m c main_v11 (by decide))).trans (W1_v11 m c)
theorem W15_v38 (c : Dev nD) : W15 m c main_v38 = kInv_ce (m ((c : Thread nD τ).loc main_arg4)) :=
  ((W15_of m c main_v38 (by decide)).trans <| (W14_of m c main_v38 (by decide)).trans <| (W13_of m c main_v38 (by decide)).trans <| (W12_of m c main_v38 (by decide)).trans <| (W11_of m c main_v38 (by decide)).trans <| (W10_of m c main_v38 (by decide)).trans <| (W9_of m c main_v38 (by decide)).trans <| (W8_of m c main_v38 (by decide)).trans <| (W7_of m c main_v38 (by decide)).trans <| (W6_of m c main_v38 (by decide)).trans <| (W5_of m c main_v38 (by decide)).trans <| (W4_of m c main_v38 (by decide)).trans <| (W3_of m c main_v38 (by decide)).trans <| (W2_of m c main_v38 (by decide))).trans (W1_v38 m c)
theorem W16_v94 (c : Dev nD) : W16 m c main_v94 = kMean_ce (W12 m c main_v82) (m ((c : Thread nD τ).loc main_arg4)) := by
  have e1 := W15_v11 m c
  have e2 := W15_v38 m c
  have e3 := W15_v89 m c
  show StableHlo.after hostOps4_3 (W15 m c) (Proc.devRef .tc main_v94) = _
  generalize W15 m c = V at e1 e2 e3 ⊢
  after_results_simp
  rw [e1, e2, e3]
  rfl

theorem W16_v5 (c : Dev nD) : W16 m c main_v5 = kSrc_ec (m ((c : Thread nD τ).loc main_arg3)) :=
  ((W16_of m c main_v5 (by decide)).trans <| (W15_of m c main_v5 (by decide)).trans <| (W14_of m c main_v5 (by decide)).trans <| (W13_of m c main_v5 (by decide)).trans <| (W12_of m c main_v5 (by decide)).trans <| (W11_of m c main_v5 (by decide)).trans <| (W10_of m c main_v5 (by decide)).trans <| (W9_of m c main_v5 (by decide)).trans <| (W8_of m c main_v5 (by decide)).trans <| (W7_of m c main_v5 (by decide)).trans <| (W6_of m c main_v5 (by decide)).trans <| (W5_of m c main_v5 (by decide)).trans <| (W4_of m c main_v5 (by decide)).trans <| (W3_of m c main_v5 (by decide)).trans <| (W2_of m c main_v5 (by decide))).trans (W1_v5 m c)
theorem W16_v74 (c : Dev nD) : W16 m c main_v74 = W10 m c main_v74 :=
  (W16_of m c main_v74 (by decide)).trans <| (W15_of m c main_v74 (by decide)).trans <| (W14_of m c main_v74 (by decide)).trans <| (W13_of m c main_v74 (by decide)).trans <| (W12_of m c main_v74 (by decide)).trans <| (W11_of m c main_v74 (by decide))
theorem W17_v95 (c : Dev nD) : W17 m c main_v95 = kTake_ec (W10 m c main_v74) (kSrc_ec (m ((c : Thread nD τ).loc main_arg3))) := by
  have e1 := W16_v5 m c
  have e2 := W16_v74 m c
  show StableHlo.after hostOps4_4 (W16 m c) (Proc.devRef .tc main_v95) = _
  rw [← e1, ← e2]
  generalize W16 m c = V
  have key : (StableHlo.TRef.of main_v95 : StableHlo.TRef sig ⟨S400000x256, .f32⟩).ofBuf (StableHlo.after hostOps4_4 V (Proc.devRef .tc main_v95)) = kTake_ec (V main_v74) (V main_v5) := by
    after_results_simp
    simp only [ofBuf_toBuf]
    rfl
  generalize StableHlo.after hostOps4_4 V (Proc.devRef .tc main_v95) = A at key ⊢
  exact Eq.trans rfl key
theorem W17_v7 (c : Dev nD) : W17 m c main_v7 = kDst_ec (m ((c : Thread nD τ).loc main_arg3)) :=
  ((W17_of m c main_v7 (by decide)).trans <| (W16_of m c main_v7 (by decide)).trans <| (W15_of m c main_v7 (by decide)).trans <| (W14_of m c main_v7 (by decide)).trans <| (W13_of m c main_v7 (by decide)).trans <| (W12_of m c main_v7 (by decide)).trans <| (W11_of m c main_v7 (by decide)).trans <| (W10_of m c main_v7 (by decide)).trans <| (W9_of m c main_v7 (by decide)).trans <| (W8_of m c main_v7 (by decide)).trans <| (W7_of m c main_v7 (by decide)).trans <| (W6_of m c main_v7 (by decide)).trans <| (W5_of m c main_v7 (by decide)).trans <| (W4_of m c main_v7 (by decide)).trans <| (W3_of m c main_v7 (by decide)).trans <| (W2_of m c main_v7 (by decide))).trans (W1_v7 m c)
theorem W17_v29 (c : Dev nD) : W17 m c main_v29 = kInv_ec (m ((c : Thread nD τ).loc main_arg3)) :=
  ((W17_of m c main_v29 (by decide)).trans <| (W16_of m c main_v29 (by decide)).trans <| (W15_of m c main_v29 (by decide)).trans <| (W14_of m c main_v29 (by decide)).trans <| (W13_of m c main_v29 (by decide)).trans <| (W12_of m c main_v29 (by decide)).trans <| (W11_of m c main_v29 (by decide)).trans <| (W10_of m c main_v29 (by decide)).trans <| (W9_of m c main_v29 (by decide)).trans <| (W8_of m c main_v29 (by decide)).trans <| (W7_of m c main_v29 (by decide)).trans <| (W6_of m c main_v29 (by decide)).trans <| (W5_of m c main_v29 (by decide)).trans <| (W4_of m c main_v29 (by decide)).trans <| (W3_of m c main_v29 (by decide)).trans <| (W2_of m c main_v29 (by decide))).trans (W1_v29 m c)
theorem W18_v100 (c : Dev nD) : W18 m c main_v100 = kMean_ec (W10 m c main_v74) (m ((c : Thread nD τ).loc main_arg3)) := by
  have e1 := W17_v7 m c
  have e2 := W17_v29 m c
  have e3 := W17_v95 m c
  show StableHlo.after hostOps4_5 (W17 m c) (Proc.devRef .tc main_v100) = _
  generalize W17 m c = V at e1 e2 e3 ⊢
  after_results_simp
  rw [e1, e2, e3]
  rfl

theorem W8_arg7 (c : Dev nD) : W8 m c main_arg7 = (m ((c : Thread nD τ).loc main_arg7)) :=
  ((W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide))).trans rfl
theorem W10_arg7 (c : Dev nD) : W10 m c main_arg7 = (m ((c : Thread nD τ).loc main_arg7)) :=
  ((W10_of m c main_arg7 (by decide)).trans <| (W9_of m c main_arg7 (by decide))).trans (W8_arg7 m c)
theorem W8_arg8 (c : Dev nD) : W8 m c main_arg8 = (m ((c : Thread nD τ).loc main_arg8)) :=
  ((W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide))).trans rfl
theorem W10_arg8 (c : Dev nD) : W10 m c main_arg8 = (m ((c : Thread nD τ).loc main_arg8)) :=
  ((W10_of m c main_arg8 (by decide)).trans <| (W9_of m c main_arg8 (by decide))).trans (W8_arg8 m c)
theorem W8_arg9 (c : Dev nD) : W8 m c main_arg9 = (m ((c : Thread nD τ).loc main_arg9)) :=
  ((W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide))).trans rfl
theorem W10_arg9 (c : Dev nD) : W10 m c main_arg9 = (m ((c : Thread nD τ).loc main_arg9)) :=
  ((W10_of m c main_arg9 (by decide)).trans <| (W9_of m c main_arg9 (by decide))).trans (W8_arg9 m c)
theorem W17_arg10 (c : Dev nD) : W17 m c main_arg10 = (m ((c : Thread nD τ).loc main_arg10)) :=
  ((W17_of m c main_arg10 (by decide)).trans <| (W16_of m c main_arg10 (by decide)).trans <| (W15_of m c main_arg10 (by decide)).trans <| (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide))).trans rfl
theorem W19_arg10 (c : Dev nD) : W19 m c main_arg10 = (m ((c : Thread nD τ).loc main_arg10)) :=
  ((W19_of m c main_arg10 (by decide)).trans <| (W18_of m c main_arg10 (by decide))).trans (W17_arg10 m c)
theorem W17_arg11 (c : Dev nD) : W17 m c main_arg11 = (m ((c : Thread nD τ).loc main_arg11)) :=
  ((W17_of m c main_arg11 (by decide)).trans <| (W16_of m c main_arg11 (by decide)).trans <| (W15_of m c main_arg11 (by decide)).trans <| (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide))).trans rfl
theorem W19_arg11 (c : Dev nD) : W19 m c main_arg11 = (m ((c : Thread nD τ).loc main_arg11)) :=
  ((W19_of m c main_arg11 (by decide)).trans <| (W18_of m c main_arg11 (by decide))).trans (W17_arg11 m c)
theorem W17_arg12 (c : Dev nD) : W17 m c main_arg12 = (m ((c : Thread nD τ).loc main_arg12)) :=
  ((W17_of m c main_arg12 (by decide)).trans <| (W16_of m c main_arg12 (by decide)).trans <| (W15_of m c main_arg12 (by decide)).trans <| (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide))).trans rfl
theorem W19_arg12 (c : Dev nD) : W19 m c main_arg12 = (m ((c : Thread nD τ).loc main_arg12)) :=
  ((W19_of m c main_arg12 (by decide)).trans <| (W18_of m c main_arg12 (by decide))).trans (W17_arg12 m c)

theorem W9_v46 (c : Dev nD) : W9 m c main_v46 = kMean_ee (W2 m c main_v39) (m ((c : Thread nD τ).loc main_arg2)) :=
  ((W9_of m c main_v46 (by decide)).trans <| (W8_of m c main_v46 (by decide)).trans <| (W7_of m c main_v46 (by decide)).trans <| (W6_of m c main_v46 (by decide))).trans (W5_v46 m c)
theorem W9_v52 (c : Dev nD) : W9 m c main_v52 = kMean_ce (W3 m c main_v40) (m ((c : Thread nD τ).loc main_arg4)) :=
  ((W9_of m c main_v52 (by decide)).trans <| (W8_of m c main_v52 (by decide))).trans (W7_v52 m c)
theorem W9_v39 (c : Dev nD) : W9 m c main_v39 = W2 m c main_v39 :=
  (W9_of m c main_v39 (by decide)).trans <| (W8_of m c main_v39 (by decide)).trans <| (W7_of m c main_v39 (by decide)).trans <| (W6_of m c main_v39 (by decide)).trans <| (W5_of m c main_v39 (by decide)).trans <| (W4_of m c main_v39 (by decide)).trans <| (W3_of m c main_v39 (by decide))
theorem W9_v70 (c : Dev nD) :
    W9 m c main_v70 = shapeCast S256x256 (extractStridedSlice S1x256x256 ![0, 0, 0] (m ((c : Thread nD τ).loc main_arg7)) slices_S3x256x256_S1x256x256_0_0_0) shapeCasts_S1x256x256_S256x256 := by
  have a0 := W8_arg7 m c
  show StableHlo.after hostOps2_5 (W8 m c) (Proc.devRef .tc main_v70) = _
  generalize W8 m c = V at a0 ⊢
  after_results_simp
  rw [a0]
  rfl
theorem W9_v72 (c : Dev nD) :
    W9 m c main_v72 = shapeCast S256x256 (extractStridedSlice S1x256x256 ![2, 0, 0] (m ((c : Thread nD τ).loc main_arg7)) slices_S3x256x256_S1x256x256_2_0_0) shapeCasts_S1x256x256_S256x256 := by
  have a0 := W8_arg7 m c
  show StableHlo.after hostOps2_5 (W8 m c) (Proc.devRef .tc main_v72) = _
  generalize W8 m c = V at a0 ⊢
  after_results_simp
  rw [a0]
  rfl
theorem W9_v63 (c : Dev nD) :
    W9 m c main_v63 = addf (shapeCast S256x256 (extractStridedSlice S1x256x256 ![0, 0, 0] (m ((c : Thread nD τ).loc main_arg9)) slices_S3x256x256_S1x256x256_0_0_0) shapeCasts_S1x256x256_S256x256) (shapeCast S256x256 (extractStridedSlice S1x256x256 ![2, 0, 0] (m ((c : Thread nD τ).loc main_arg9)) slices_S3x256x256_S1x256x256_2_0_0) shapeCasts_S1x256x256_S256x256) := by
  have a0 := W8_arg9 m c
  show StableHlo.after hostOps2_5 (W8 m c) (Proc.devRef .tc main_v63) = _
  generalize W8 m c = V at a0 ⊢
  after_results_simp
  rw [a0]
  rfl
theorem W9_v73 (c : Dev nD) :
    W9 m c main_v73 = shapeCast S1x256 (addf (shapeCast S256 (extractStridedSlice S1x256 ![0, 0] (m ((c : Thread nD τ).loc main_arg8)) slices_S3x256_S1x256_0_0) shapeCasts_S1x256_S256) (shapeCast S256 (extractStridedSlice S1x256 ![2, 0] (m ((c : Thread nD τ).loc main_arg8)) slices_S3x256_S1x256_2_0) shapeCasts_S1x256_S256)) shapeCasts_S256_S1x256 := by
  have a0 := W8_arg8 m c
  show StableHlo.after hostOps2_5 (W8 m c) (Proc.devRef .tc main_v73) = _
  generalize W8 m c = V at a0 ⊢
  after_results_simp
  rw [a0]
  rfl

theorem W11_v58 (c : Dev nD) : W11 m c main_v58 = kMean_ec (W2 m c main_v39) (m ((c : Thread nD τ).loc main_arg3)) :=
  ((W11_of m c main_v58 (by decide)).trans <| (W10_of m c main_v58 (by decide))).trans (W9_v58 m c)
theorem W11_v40 (c : Dev nD) : W11 m c main_v40 = W3 m c main_v40 :=
  (W11_of m c main_v40 (by decide)).trans <| (W10_of m c main_v40 (by decide)).trans <| (W9_of m c main_v40 (by decide)).trans <| (W8_of m c main_v40 (by decide)).trans <| (W7_of m c main_v40 (by decide)).trans <| (W6_of m c main_v40 (by decide)).trans <| (W5_of m c main_v40 (by decide)).trans <| (W4_of m c main_v40 (by decide))
theorem W11_v76 (c : Dev nD) :
    W11 m c main_v76 = shapeCast S256x256 (extractStridedSlice S1x256x256 ![1, 0, 0] (m ((c : Thread nD τ).loc main_arg7)) slices_S3x256x256_S1x256x256_1_0_0) shapeCasts_S1x256x256_S256x256 := by
  have a0 := W10_arg7 m c
  show StableHlo.after hostOps3 (W10 m c) (Proc.devRef .tc main_v76) = _
  generalize W10 m c = V at a0 ⊢
  after_results_simp
  rw [a0]
  rfl
theorem W11_v78 (c : Dev nD) :
    W11 m c main_v78 = shapeCast S256x256 (extractStridedSlice S1x256x256 ![1, 0, 0] (m ((c : Thread nD τ).loc main_arg9)) slices_S3x256x256_S1x256x256_1_0_0) shapeCasts_S1x256x256_S256x256 := by
  have a0 := W10_arg9 m c
  show StableHlo.after hostOps3 (W10 m c) (Proc.devRef .tc main_v78) = _
  generalize W10 m c = V at a0 ⊢
  after_results_simp
  rw [a0]
  rfl
theorem W11_v81 (c : Dev nD) :
    W11 m c main_v81 = shapeCast S1x256 (shapeCast S256 (extractStridedSlice S1x256 ![1, 0] (m ((c : Thread nD τ).loc main_arg8)) slices_S3x256_S1x256_1_0) shapeCasts_S1x256_S256) shapeCasts_S256_S1x256 := by
  have a0 := W10_arg8 m c
  show StableHlo.after hostOps3 (W10 m c) (Proc.devRef .tc main_v81) = _
  generalize W10 m c = V at a0 ⊢
  after_results_simp
  rw [a0]
  rfl

theorem W18_v88 (c : Dev nD) : W18 m c main_v88 = kMean_ee (W10 m c main_v74) (m ((c : Thread nD τ).loc main_arg2)) :=
  ((W18_of m c main_v88 (by decide)).trans <| (W17_of m c main_v88 (by decide)).trans <| (W16_of m c main_v88 (by decide)).trans <| (W15_of m c main_v88 (by decide))).trans (W14_v88 m c)
theorem W18_v94 (c : Dev nD) : W18 m c main_v94 = kMean_ce (W12 m c main_v82) (m ((c : Thread nD τ).loc main_arg4)) :=
  ((W18_of m c main_v94 (by decide)).trans <| (W17_of m c main_v94 (by decide))).trans (W16_v94 m c)
theorem W18_v74 (c : Dev nD) : W18 m c main_v74 = W10 m c main_v74 :=
  (W18_of m c main_v74 (by decide)).trans <| (W17_of m c main_v74 (by decide)).trans <| (W16_of m c main_v74 (by decide)).trans <| (W15_of m c main_v74 (by decide)).trans <| (W14_of m c main_v74 (by decide)).trans <| (W13_of m c main_v74 (by decide)).trans <| (W12_of m c main_v74 (by decide)).trans <| (W11_of m c main_v74 (by decide))
theorem W18_v112 (c : Dev nD) :
    W18 m c main_v112 = shapeCast S256x256 (extractStridedSlice S1x256x256 ![0, 0, 0] (m ((c : Thread nD τ).loc main_arg10)) slices_S3x256x256_S1x256x256_0_0_0) shapeCasts_S1x256x256_S256x256 := by
  have a0 := W17_arg10 m c
  show StableHlo.after hostOps4_5 (W17 m c) (Proc.devRef .tc main_v112) = _
  generalize W17 m c = V at a0 ⊢
  after_results_simp
  rw [a0]
  rfl
theorem W18_v114 (c : Dev nD) :
    W18 m c main_v114 = shapeCast S256x256 (extractStridedSlice S1x256x256 ![2, 0, 0] (m ((c : Thread nD τ).loc main_arg10)) slices_S3x256x256_S1x256x256_2_0_0) shapeCasts_S1x256x256_S256x256 := by
  have a0 := W17_arg10 m c
  show StableHlo.after hostOps4_5 (W17 m c) (Proc.devRef .tc main_v114) = _
  generalize W17 m c = V at a0 ⊢
  after_results_simp
  rw [a0]
  rfl
theorem W18_v105 (c : Dev nD) :
    W18 m c main_v105 = addf (shapeCast S256x256 (extractStridedSlice S1x256x256 ![0, 0, 0] (m ((c : Thread nD τ).loc main_arg12)) slices_S3x256x256_S1x256x256_0_0_0) shapeCasts_S1x256x256_S256x256) (shapeCast S256x256 (extractStridedSlice S1x256x256 ![2, 0, 0] (m ((c : Thread nD τ).loc main_arg12)) slices_S3x256x256_S1x256x256_2_0_0) shapeCasts_S1x256x256_S256x256) := by
  have a0 := W17_arg12 m c
  show StableHlo.after hostOps4_5 (W17 m c) (Proc.devRef .tc main_v105) = _
  generalize W17 m c = V at a0 ⊢
  after_results_simp
  rw [a0]
  rfl
theorem W18_v115 (c : Dev nD) :
    W18 m c main_v115 = shapeCast S1x256 (addf (shapeCast S256 (extractStridedSlice S1x256 ![0, 0] (m ((c : Thread nD τ).loc main_arg11)) slices_S3x256_S1x256_0_0) shapeCasts_S1x256_S256) (shapeCast S256 (extractStridedSlice S1x256 ![2, 0] (m ((c : Thread nD τ).loc main_arg11)) slices_S3x256_S1x256_2_0) shapeCasts_S1x256_S256)) shapeCasts_S256_S1x256 := by
  have a0 := W17_arg11 m c
  show StableHlo.after hostOps4_5 (W17 m c) (Proc.devRef .tc main_v115) = _
  generalize W17 m c = V at a0 ⊢
  after_results_simp
  rw [a0]
  rfl

theorem W20_v100 (c : Dev nD) : W20 m c main_v100 = kMean_ec (W10 m c main_v74) (m ((c : Thread nD τ).loc main_arg3)) :=
  ((W20_of m c main_v100 (by decide)).trans <| (W19_of m c main_v100 (by decide))).trans (W18_v100 m c)
theorem W20_v82 (c : Dev nD) : W20 m c main_v82 = W12 m c main_v82 :=
  (W20_of m c main_v82 (by decide)).trans <| (W19_of m c main_v82 (by decide)).trans <| (W18_of m c main_v82 (by decide)).trans <| (W17_of m c main_v82 (by decide)).trans <| (W16_of m c main_v82 (by decide)).trans <| (W15_of m c main_v82 (by decide)).trans <| (W14_of m c main_v82 (by decide)).trans <| (W13_of m c main_v82 (by decide))
theorem W20_v118 (c : Dev nD) :
    W20 m c main_v118 = shapeCast S256x256 (extractStridedSlice S1x256x256 ![1, 0, 0] (m ((c : Thread nD τ).loc main_arg10)) slices_S3x256x256_S1x256x256_1_0_0) shapeCasts_S1x256x256_S256x256 := by
  have a0 := W19_arg10 m c
  show StableHlo.after hostOps5 (W19 m c) (Proc.devRef .tc main_v118) = _
  generalize W19 m c = V at a0 ⊢
  after_results_simp
  rw [a0]
  rfl
theorem W20_v120 (c : Dev nD) :
    W20 m c main_v120 = shapeCast S256x256 (extractStridedSlice S1x256x256 ![1, 0, 0] (m ((c : Thread nD τ).loc main_arg12)) slices_S3x256x256_S1x256x256_1_0_0) shapeCasts_S1x256x256_S256x256 := by
  have a0 := W19_arg12 m c
  show StableHlo.after hostOps5 (W19 m c) (Proc.devRef .tc main_v120) = _
  generalize W19 m c = V at a0 ⊢
  after_results_simp
  rw [a0]
  rfl
theorem W20_v123 (c : Dev nD) :
    W20 m c main_v123 = shapeCast S1x256 (shapeCast S256 (extractStridedSlice S1x256 ![1, 0] (m ((c : Thread nD τ).loc main_arg11)) slices_S3x256_S1x256_1_0) shapeCasts_S1x256_S256) shapeCasts_S256_S1x256 := by
  have a0 := W19_arg11 m c
  show StableHlo.after hostOps5 (W19 m c) (Proc.devRef .tc main_v123) = _
  generalize W19 m c = V at a0 ⊢
  after_results_simp
  rw [a0]
  rfl

end Cert.KernelIdeal.Hand

end
-- ==== Proof.KiChain.lean ====
import proofs.«412619_j24352464570114_1_alg».proof.Proof.KiBlocks01
import proofs.«412619_j24352464570114_1_alg».proof.Proof.KiBlocks23
import proofs.«412619_j24352464570114_1_alg».proof.Proof.KiBlocks45
import proofs.«412619_j24352464570114_1_alg».proof.Proof.KiHost
import proofs.«412619_j24352464570114_1_alg».proof.Proof.KiData
import proofs.«412619_j24352464570114_1_alg».proof.Proof.MeanDefs
import proofs.«412619_j24352464570114_1_alg».proof.Proof.Spec

set_option maxRecDepth 16384

noncomputable section

namespace Cert.KernelIdeal.Hand

open Cert.KernelIdeal Cert.KernelIdeal.Gen Cert.Sage
open Idealize.ShloMosaic Idealize.ShloMosaic.TcCoe
open Idealize.SL Idealize.SL.Sem

def kH1 (x0 : FVec Ideal S100000x768 .f32) (x5 : FVec Ideal S768x256 .f32) : FVec Ideal S100000x256 .f32 := mm x0 x5
def kC1 (x1 : FVec Ideal S50000x1024 .f32) (x6 : FVec Ideal S1024x256 .f32) : FVec Ideal S50000x256 .f32 := mm x1 x6

def kWl1_0 (x7 : FVec Ideal S3x256x256 .f32) : FVec Ideal S256x256 .f32 :=
  shapeCast S256x256 (extractStridedSlice S1x256x256 ![0, 0, 0] x7 slices_S3x256x256_S1x256x256_0_0_0) shapeCasts_S1x256x256_S256x256
def kWl1_2 (x7 : FVec Ideal S3x256x256 .f32) : FVec Ideal S256x256 .f32 :=
  shapeCast S256x256 (extractStridedSlice S1x256x256 ![2, 0, 0] x7 slices_S3x256x256_S1x256x256_2_0_0) shapeCasts_S1x256x256_S256x256
def kWr1_02 (x9 : FVec Ideal S3x256x256 .f32) : FVec Ideal S256x256 .f32 :=
  addf (shapeCast S256x256 (extractStridedSlice S1x256x256 ![0, 0, 0] x9 slices_S3x256x256_S1x256x256_0_0_0) shapeCasts_S1x256x256_S256x256)
    (shapeCast S256x256 (extractStridedSlice S1x256x256 ![2, 0, 0] x9 slices_S3x256x256_S1x256x256_2_0_0) shapeCasts_S1x256x256_S256x256)
def kB1_02 (x8 : FVec Ideal S3x256 .f32) : FVec Ideal S1x256 .f32 :=
  shapeCast S1x256 (addf (shapeCast S256 (extractStridedSlice S1x256 ![0, 0] x8 slices_S3x256_S1x256_0_0) shapeCasts_S1x256_S256)
    (shapeCast S256 (extractStridedSlice S1x256 ![2, 0] x8 slices_S3x256_S1x256_2_0) shapeCasts_S1x256_S256)) shapeCasts_S256_S1x256
def kWl1_1 (x7 : FVec Ideal S3x256x256 .f32) : FVec Ideal S256x256 .f32 :=
  shapeCast S256x256 (extractStridedSlice S1x256x256 ![1, 0, 0] x7 slices_S3x256x256_S1x256x256_1_0_0) shapeCasts_S1x256x256_S256x256
def kWr1_1 (x9 : FVec Ideal S3x256x256 .f32) : FVec Ideal S256x256 .f32 :=
  shapeCast S256x256 (extractStridedSlice S1x256x256 ![1, 0, 0] x9 slices_S3x256x256_S1x256x256_1_0_0) shapeCasts_S1x256x256_S256x256
def kB1_1 (x8 : FVec Ideal S3x256 .f32) : FVec Ideal S1x256 .f32 :=
  shapeCast S1x256 (shapeCast S256 (extractStridedSlice S1x256 ![1, 0] x8 slices_S3x256_S1x256_1_0) shapeCasts_S1x256_S256) shapeCasts_S256_S1x256
def kWl2_0 (x10 : FVec Ideal S3x256x256 .f32) : FVec Ideal S256x256 .f32 :=
  shapeCast S256x256 (extractStridedSlice S1x256x256 ![0, 0, 0] x10 slices_S3x256x256_S1x256x256_0_0_0) shapeCasts_S1x256x256_S256x256
def kWl2_2 (x10 : FVec Ideal S3x256x256 .f32) : FVec Ideal S256x256 .f32 :=
  shapeCast S256x256 (extractStridedSlice S1x256x256 ![2, 0, 0] x10 slices_S3x256x256_S1x256x256_2_0_0) shapeCasts_S1x256x256_S256x256
def kWr2_02 (x12 : FVec Ideal S3x256x256 .f32) : FVec Ideal S256x256 .f32 :=
  addf (shapeCast S256x256 (extractStridedSlice S1x256x256 ![0, 0, 0] x12 slices_S3x256x256_S1x256x256_0_0_0) shapeCasts_S1x256x256_S256x256)
    (shapeCast S256x256 (extractStridedSlice S1x256x256 ![2, 0, 0] x12 slices_S3x256x256_S1x256x256_2_0_0) shapeCasts_S1x256x256_S256x256)
def kB2_02 (x11 : FVec Ideal S3x256 .f32) : FVec Ideal S1x256 .f32 :=
  shapeCast S1x256 (addf (shapeCast S256 (extractStridedSlice S1x256 ![0, 0] x11 slices_S3x256_S1x256_0_0) shapeCasts_S1x256_S256)
    (shapeCast S256 (extractStridedSlice S1x256 ![2, 0] x11 slices_S3x256_S1x256_2_0) shapeCasts_S1x256_S256)) shapeCasts_S256_S1x256
def kWl2_1 (x10 : FVec Ideal S3x256x256 .f32) : FVec Ideal S256x256 .f32 :=
  shapeCast S256x256 (extractStridedSlice S1x256x256 ![1, 0, 0] x10 slices_S3x256x256_S1x256x256_1_0_0) shapeCasts_S1x256x256_S256x256
def kWr2_1 (x12 : FVec Ideal S3x256x256 .f32) : FVec Ideal S256x256 .f32 :=
  shapeCast S256x256 (extractStridedSlice S1x256x256 ![1, 0, 0] x12 slices_S3x256x256_S1x256x256_1_0_0) shapeCasts_S1x256x256_S256x256
def kB2_1 (x11 : FVec Ideal S3x256 .f32) : FVec Ideal S1x256 .f32 :=
  shapeCast S1x256 (shapeCast S256 (extractStridedSlice S1x256 ![1, 0] x11 slices_S3x256_S1x256_1_0) shapeCasts_S1x256_S256) shapeCasts_S256_S1x256

def kH2 (x0 : FVec Ideal S100000x768 .f32) (x1 : FVec Ideal S50000x1024 .f32) (x2 : IVec S2x800000 32) (x4 : IVec S2x400000 32)
    (x5 : FVec Ideal S768x256 .f32) (x6 : FVec Ideal S1024x256 .f32) (x7 : FVec Ideal S3x256x256 .f32) (x8 : FVec Ideal S3x256 .f32)
    (x9 : FVec Ideal S3x256x256 .f32) : FVec Ideal S100000x256 .f32 :=
  reluRes (comb3 (kMean_ee (kH1 x0 x5) x2) (kMean_ce (kC1 x1 x6) x4) (kH1 x0 x5) (kWl1_0 x7) (kWl1_2 x7) (kWr1_02 x9) (kB1_02 x8)) (kH1 x0 x5)
def kC2 (x0 : FVec Ideal S100000x768 .f32) (x1 : FVec Ideal S50000x1024 .f32) (x3 : IVec S2x400000 32)
    (x5 : FVec Ideal S768x256 .f32) (x6 : FVec Ideal S1024x256 .f32) (x7 : FVec Ideal S3x256x256 .f32) (x8 : FVec Ideal S3x256 .f32)
    (x9 : FVec Ideal S3x256x256 .f32) : FVec Ideal S50000x256 .f32 :=
  reluRes (comb2 (kMean_ec (kH1 x0 x5) x3) (kC1 x1 x6) (kWl1_1 x7) (kWr1_1 x9) (kB1_1 x8)) (kC1 x1 x6)
def kOutE (x0 : FVec Ideal S100000x768 .f32) (x1 : FVec Ideal S50000x1024 .f32) (x2 : IVec S2x800000 32) (x3 x4 : IVec S2x400000 32)
    (x5 : FVec Ideal S768x256 .f32) (x6 : FVec Ideal S1024x256 .f32) (x7 : FVec Ideal S3x256x256 .f32) (x8 : FVec Ideal S3x256 .f32)
    (x9 x10 : FVec Ideal S3x256x256 .f32) (x11 : FVec Ideal S3x256 .f32) (x12 : FVec Ideal S3x256x256 .f32) : FVec Ideal S100000x256 .f32 :=
  l2n (comb3 (kMean_ee (kH2 x0 x1 x2 x4 x5 x6 x7 x8 x9) x2) (kMean_ce (kC2 x0 x1 x3 x5 x6 x7 x8 x9) x4) (kH2 x0 x1 x2 x4 x5 x6 x7 x8 x9)
    (kWl2_0 x10) (kWl2_2 x10) (kWr2_02 x12) (kB2_02 x11))
def kOutC (x0 : FVec Ideal S100000x768 .f32) (x1 : FVec Ideal S50000x1024 .f32) (x2 : IVec S2x800000 32) (x3 x4 : IVec S2x400000 32)
    (x5 : FVec Ideal S768x256 .f32) (x6 : FVec Ideal S1024x256 .f32) (x7 : FVec Ideal S3x256x256 .f32) (x8 : FVec Ideal S3x256 .f32)
    (x9 x10 : FVec Ideal S3x256x256 .f32) (x11 : FVec Ideal S3x256 .f32) (x12 : FVec Ideal S3x256x256 .f32) : FVec Ideal S50000x256 .f32 :=
  l2n (comb2 (kMean_ec (kH2 x0 x1 x2 x4 x5 x6 x7 x8 x9) x3) (kC2 x0 x1 x3 x5 x6 x7 x8 x9) (kWl2_1 x10) (kWr2_1 x12) (kB2_1 x11))

variable (m : (ℓ : Loc nD τ sig) → Buf (Elt Ideal) ℓ) (c : Dev nD)

private theorem chain_W1_arg (r : Ref sig .tc) (h : r ∉ hostOps0_W) : W1 m c r = m ((c : Thread nD τ).loc r) := V1_of m c r h

private theorem chain_W2_of (r : Ref sig .tc) (h : r ∉ ([main_v39] : List (Ref sig .tc))) : W2 m c r = W1 m c r :=
  (congrFun (V2_eq m c) r).symm.trans (V2_of m (outs m) c r h)
private theorem chain_W3_of (r : Ref sig .tc) (h : r ∉ ([main_v40] : List (Ref sig .tc))) : W3 m c r = W2 m c r :=
  (congrFun (V3_eq m c) r).symm.trans ((V3_of m (outs m) c r h).trans (congrFun (V2_eq m c) r))

theorem H1_eq : (W2 m c main_v39 : S100000x256.Idx → EReal)
    = kH1 (m ((c : Thread nD τ).loc main_arg0)) (m ((c : Thread nD τ).loc main_arg5)) := by
  refine (Function.update_self ..).trans ((final0 (atTc (W1 m)) c).trans ?_)
  show mm (W1 m c main_arg0 : S100000x768.Idx → EReal) (W1 m c main_arg5 : S768x256.Idx → EReal) = _
  rw [chain_W1_arg m c main_arg0 (by decide), chain_W1_arg m c main_arg5 (by decide)]
  rfl

theorem C1_eq : (W3 m c main_v40 : S50000x256.Idx → EReal)
    = kC1 (m ((c : Thread nD τ).loc main_arg1)) (m ((c : Thread nD τ).loc main_arg6)) := by
  refine (Function.update_self ..).trans ((final1 (atTc (W2 m)) c).trans ?_)
  show mm (W2 m c main_arg1 : S50000x1024.Idx → EReal) (W2 m c main_arg6 : S1024x256.Idx → EReal) = _
  rw [chain_W2_of m c main_arg1 (by decide), chain_W2_of m c main_arg6 (by decide), chain_W1_arg m c main_arg1 (by decide), chain_W1_arg m c main_arg6 (by decide)]
  rfl

theorem H2_eq : (W10 m c main_v74 : S100000x256.Idx → EReal) = kH2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Function.update_self ..).trans ((final2 (atTc (W9 m)) c).trans ?_)
  show reluRes (comb3 (W9 m c main_v46 : S100000x256.Idx → EReal) (W9 m c main_v52 : S100000x256.Idx → EReal) (W9 m c main_v39 : S100000x256.Idx → EReal)
      (W9 m c main_v70 : S256x256.Idx → EReal) (W9 m c main_v72 : S256x256.Idx → EReal) (W9 m c main_v63 : S256x256.Idx → EReal) (W9 m c main_v73 : S1x256.Idx → EReal))
    (W9 m c main_v39 : S100000x256.Idx → EReal) = _
  rw [W9_v46 m c, W9_v52 m c, W9_v39 m c, W9_v70 m c, W9_v72 m c, W9_v63 m c, W9_v73 m c, H1_eq m c, C1_eq m c]
  rfl

theorem C2_eq : (W12 m c main_v82 : S50000x256.Idx → EReal) = kC2 (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine (Function.update_self ..).trans ((final3 (atTc (W11 m)) c).trans ?_)
  show reluRes (comb2 (W11 m c main_v58 : S50000x256.Idx → EReal) (W11 m c main_v40 : S50000x256.Idx → EReal)
      (W11 m c main_v76 : S256x256.Idx → EReal) (W11 m c main_v78 : S256x256.Idx → EReal) (W11 m c main_v81 : S1x256.Idx → EReal))
    (W11 m c main_v40 : S50000x256.Idx → EReal) = _
  rw [W11_v58 m c, W11_v40 m c, W11_v76 m c, W11_v78 m c, W11_v81 m c, H1_eq m c, C1_eq m c]
  rfl

theorem W21_v116 : (W21 m c main_v116 : S100000x256.Idx → EReal) = kOutE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e1 : W21 m c main_v116 = W20 m c main_v116 :=
    (congrFun (V21_eq m c) main_v116).symm.trans ((V21_of m (outs m) c main_v116 (by decide)).trans (congrFun (V20_eq m c) main_v116))
  have e2 : W20 m c main_v116 = W19 m c main_v116 :=
    (congrFun (V20_eq m c) main_v116).symm.trans ((V20_of m (outs m) c main_v116 (by decide)).trans (congrFun (V19_eq m c) main_v116))
  refine e1.trans (e2.trans ((Function.update_self ..).trans ((final4 (atTc (W18 m)) c).trans ?_)))
  show l2n (comb3 (W18 m c main_v88 : S100000x256.Idx → EReal) (W18 m c main_v94 : S100000x256.Idx → EReal) (W18 m c main_v74 : S100000x256.Idx → EReal)
      (W18 m c main_v112 : S256x256.Idx → EReal) (W18 m c main_v114 : S256x256.Idx → EReal) (W18 m c main_v105 : S256x256.Idx → EReal) (W18 m c main_v115 : S1x256.Idx → EReal)) = _
  rw [W18_v88 m c, W18_v94 m c, W18_v74 m c, W18_v112 m c, W18_v114 m c, W18_v105 m c, W18_v115 m c, H2_eq m c, C2_eq m c]
  rfl

theorem W21_v124 : (W21 m c main_v124 : S50000x256.Idx → EReal) = kOutC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (Function.update_self ..).trans ((final5 (atTc (W20 m)) c).trans ?_)
  show l2n (comb2 (W20 m c main_v100 : S50000x256.Idx → EReal) (W20 m c main_v82 : S50000x256.Idx → EReal)
      (W20 m c main_v118 : S256x256.Idx → EReal) (W20 m c main_v120 : S256x256.Idx → EReal) (W20 m c main_v123 : S1x256.Idx → EReal)) = _
  rw [W20_v100 m c, W20_v82 m c, W20_v118 m c, W20_v120 m c, W20_v123 m c, H2_eq m c, C2_eq m c]
  rfl

end Cert.KernelIdeal.Hand

end
-- ==== Proof.Mean.lean ====
import proofs.«412619_j24352464570114_1_alg».proof.Proof.MeanDefs
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Pipeline.Value
import Idealize.ShloMosaic.Lib.IdealHost

noncomputable section

namespace Cert.Mean

open Idealize.ShloMosaic Idealize.ShloMosaic.ValueIdx

variable {E Ns Nd : Nat} (w : EdgeW E Ns Nd)

theorem src_apply (x : IVec (M 2 E) 32) (e : Fin E) : src w x (ix1 e) = x (ix2 (0 : Fin 2) e) := by
  refine (shapeCast_apply _ w.c (ix1 e) (ix2 (0 : Fin 1) e) (by
    rw [Shape.rowMajor_val_two, Shape.rowMajor_val_one]; show 0 * E + e.val = e.val; omega)).trans ?_
  exact extractStridedSlice_apply ![0, 0] x w.s0 (ix2 (0 : Fin 1) e) (ix2 (0 : Fin 2) e) (fun a => match a with
    | ⟨0, _⟩ => rfl
    | ⟨1, _⟩ => by show e.val = 0 + e.val; omega)

theorem slt_zero_of_nonneg (a : BitVec 32) (h : 0 ≤ a.toInt) : IntOp.cmpi .slt a 0#32 = 0#1 := by
  have h0 : (0#32 : BitVec 32).toInt = 0 := by decide
  simp only [IntOp.cmpi, BitVec.slt, h0]
  rw [decide_eq_false (by omega)]
  rfl

theorem sge_zero_of_nonneg (a : BitVec 32) (h : 0 ≤ a.toInt) : IntOp.cmpi .sge a 0#32 = 1#1 := by
  have h0 : (0#32 : BitVec 32).toInt = 0 := by decide
  simp only [IntOp.cmpi, BitVec.sle, h0]
  rw [decide_eq_true h]
  rfl

theorem sle_of_le (a b : BitVec 32) (h : a.toInt ≤ b.toInt) : IntOp.cmpi .sle a b = 1#1 := by
  simp only [IntOp.cmpi, BitVec.sle]
  rw [decide_eq_true h]
  rfl

theorem fill_one (t : Shape) (h) : fill (F := Ideal) t h 0x3F800000#32 = fun _ => 1 := funext fun _ => Ideal.ofBits_one_f32

theorem fill_zero (t : Shape) (h) : fill (F := Ideal) t h 0x00000000#32 = fun _ => 0 :=
  funext fun _ => Ideal.ofBits_zero_f32

-- source indices lie in [0, Ns)
theorem src_rng (hNs : Ns ≤ 2 ^ 31) (x : IVec (M 2 E) 32) (hlo : ∀ e : Fin E, 0 ≤ (x (ix2 (0 : Fin 2) e)).toInt)
    (hhi : ∀ e : Fin E, (x (ix2 (0 : Fin 2) e)).toInt < Ns) (j : (V E).Idx) :
    0 ≤ (src w x j).toInt ∧ (src w x j).toInt ≤ (BitVec.ofNat 32 (Ns - 1)).toInt := by
  obtain ⟨e, rfl⟩ : ∃ e, j = ix1 e := ⟨_, eq_ix1 j⟩
  rw [src_apply, StableHlo.Predicate.toInt_ofNat_small _ (by omega)]
  have := hlo e
  have := hhi e
  omega

theorem wrap_eq (v : IVec (V E) 32) (hlo : ∀ j, 0 ≤ (v j).toInt) : wrap w v = v := by
  funext j
  show Scalar.select (IntOp.cmpi .slt (v j) 0#32) _ (v j) = v j
  rw [slt_zero_of_nonneg _ (hlo j), select_zero]

theorem reduce_and_one {s t u : Shape} {axes : List (Fin s.rank)} (hr : s.ReducesTo axes t) (hu : 0 < u.numel)
    (A : IVec s 1) (hA : ∀ j, A j = 1#1) : Host.reduce IntOp.andi A (constantI u 1 1#1) hr hu = fun _ => 1#1 := by
  obtain rfl : A = fun _ => 1#1 := funext hA
  funext j
  unfold Host.reduce
  generalize (List.filter _ _) = l
  show List.foldl (fun r n => IntOp.andi r 1#1) 1#1 l = 1#1
  induction l with
  | nil => rfl
  | cons a l ih => rw [List.foldl_cons]; exact ih

theorem mask_eq (v : IVec (V E) 32)
    (hin : ∀ j, 0 ≤ (v j).toInt ∧ (v j).toInt ≤ (BitVec.ofNat 32 (Ns - 1)).toInt) : mask w v = fun _ => 1#1 := by
  unfold mask
  rw [wrap_eq w v fun j => (hin j).1]
  refine reduce_and_one _ _ _ fun j => ?_
  show IntOp.andi (IntOp.cmpi .sge (v _) 0#32) (IntOp.cmpi .sle (v _) (BitVec.ofNat 32 (Ns - 1))) = 1#1
  rw [sge_zero_of_nonneg _ (hin _).1, sle_of_le _ _ (hin _).2]
  rfl

theorem take_eq {F : FTy → Type} [FloatOps F] (X : FVec F (M Ns 256) .f32) (v : IVec (V E) 32)
    (hin : ∀ j, 0 ≤ (v j).toInt ∧ (v j).toInt ≤ (BitVec.ofNat 32 (Ns - 1)).toInt) :
    kTake w X v = Host.gather (gd w) X (col w v) := by
  unfold kTake
  rw [mask_eq w v hin, wrap_eq w v fun j => (hin j).1]
  funext i
  exact select_one _ _

theorem sdv_start {E Nd w : Nat} (wf) (j : (V E).Idx) (idx : IVec (M E 1) w) (a : Fin 1) :
    (sdv (Nd := Nd) wf).start j idx a = (idx (ix2 (j 0) (0 : Fin 1))).toInt := by
  obtain rfl : a = 0 := Subsingleton.elim _ _
  unfold ScatterDims.start
  rw [dif_pos (List.mem_singleton.mpr rfl)]
  congr 2
  funext b
  match b with
  | ⟨0, _⟩ => rfl
  | ⟨1, _⟩ => rfl

theorem sdv_window {E Nd : Nat} (wf) (j : (V E).Idx) (a : Fin 1) : (sdv (Nd := Nd) wf).window j a = 0 := by
  obtain rfl : a = 0 := Subsingleton.elim _ _
  exact dif_neg List.not_mem_nil

-- an update lands on element i exactly when every axis' start plus window coordinate is i's
theorem resultIdx_iff {s si u : Shape} (d : ScatterDims s si u) {w : Nat} (j : u.Idx) (idx : IVec si w) (i : s.Idx) :
    d.resultIdx? j idx = some i ↔ ∀ a, d.start j idx a + (d.window j a : Int) = ((i a).val : Int) := by
  have hi := fun a => (i a).isLt
  unfold ScatterDims.resultIdx?
  split
  · next h =>
    rw [Option.some.injEq, funext_iff]
    refine forall_congr' fun a => ?_
    rw [Fin.ext_iff]
    have := h a
    show (d.start j idx a + (d.window j a : Int)).toNat = (i a).val ↔ _
    omega
  · next h =>
    refine iff_of_false (fun h' => by cases h') fun h' => h fun a => ?_
    have := h' a
    have := hi a
    omega

theorem sdv_resultIdx {E Nd w : Nat} (wf) (j : (V E).Idx) (idx : IVec (M E 1) w) (i : (V Nd).Idx) :
    (sdv wf).resultIdx? j idx = some i ↔ (idx (ix2 (j 0) (0 : Fin 1))).toInt = ((i 0).val : Int) := by
  rw [resultIdx_iff, Fin.forall_fin_one, sdv_start, sdv_window, Nat.cast_zero, add_zero]

theorem sdm_start0 {E Nd C w : Nat} (wf) (j : (M E C).Idx) (idx : IVec (M E 1) w) :
    (sdm (Nd := Nd) wf).start j idx 0 = (idx (ix2 (j 0) (0 : Fin 1))).toInt := by
  unfold ScatterDims.start
  rw [dif_pos (List.mem_singleton.mpr rfl)]
  congr 2
  funext b
  match b with
  | ⟨0, _⟩ => rfl
  | ⟨1, _⟩ => rfl

theorem sdm_start1 {E Nd C w : Nat} (wf) (j : (M E C).Idx) (idx : IVec (M E 1) w) :
    (sdm (Nd := Nd) wf).start j idx 1 = 0 :=
  dif_neg (show (1 : Fin 2) ∉ [(0 : Fin 2)] by decide)

theorem sdm_window0 {E Nd C : Nat} (wf) (j : (M E C).Idx) : (sdm (Nd := Nd) wf).window j 0 = 0 :=
  dif_neg (show (0 : Fin 2) ∉ [(1 : Fin 2)] by decide)

theorem sdm_window1 {E Nd C : Nat} (wf) (j : (M E C).Idx) : (sdm (Nd := Nd) wf).window j 1 = (j 1).val :=
  (dif_pos (show (1 : Fin 2) ∈ [(1 : Fin 2)] by decide)).trans rfl

theorem sdm_resultIdx {E Nd C w : Nat} (wf) (j : (M E C).Idx) (idx : IVec (M E 1) w) (i : (M Nd C).Idx) :
    (sdm wf).resultIdx? j idx = some i ↔
      (idx (ix2 (j 0) (0 : Fin 1))).toInt = ((i 0).val : Int) ∧ (j 1).val = (i 1).val := by
  rw [resultIdx_iff, Fin.forall_fin_two, sdm_start0, sdm_window0, sdm_start1, sdm_window1]
  omega

def colEquiv (E : Nat) : (V E).Idx ≃ (M E 1).Idx where
  toFun j := ix2 (j 0) (0 : Fin 1)
  invFun k := ix1 (k 0)
  left_inv j := (eq_ix1 j).symm
  right_inv k := by
    funext a
    match a with
    | ⟨0, _⟩ => rfl
    | ⟨1, _⟩ =>
      apply Fin.ext
      have h1 := idx2_lt1 k
      show (0 : Nat) = (k 1).val
      omega

-- counting into a vector and into a one-column matrix give the same counts
theorem count_eq {E Nd w : Nat} (wf1) (wf2) (idx : IVec (M E 1) w) (c : EReal) (n : Fin Nd) :
    Ideal.hostScatterAdd (sdv wf1) (fun _ => 0) idx (fun _ => c) (ix1 n)
      = Ideal.hostScatterAdd (sdm (C := 1) wf2) (fun _ => 0) idx (fun _ => c) (ix2 n (0 : Fin 1)) := by
  unfold Ideal.hostScatterAdd
  congr 1
  refine Finset.sum_equiv (colEquiv E) (fun j => ?_) (fun _ _ => rfl)
  simp only [Finset.mem_filter, Finset.mem_univ, true_and]
  rw [sdv_resultIdx, sdm_resultIdx]
  exact ⟨fun h => ⟨h, rfl⟩, fun h => h.1⟩

-- multiplying by the reciprocal of the clipped count is dividing by the clipped count
theorem mean_core (x : IVec (M 2 E) 32) (S : FVec Ideal (M Nd 256) .f32) :
    mulf S (broadcastInDim (M Nd 256) ![0, 1] w.nNC (kInv w x))
      = Host.divf S (broadcastInDim (M Nd 256) ![0, 1] w.nNC (rCnt w x)) := by
  funext i
  obtain ⟨p, q, rfl⟩ : ∃ p q, i = ix2 p q := ⟨_, _, eq_ix2 i⟩
  have e2 : ∀ v : (M Nd 1).Idx → EReal,
      broadcastInDim (M Nd 256) ![0, 1] w.nNC v (ix2 p q) = v (ix2 p (0 : Fin 1)) :=
    fun v => broadcastInDim_apply ![0, 1] w.nNC v (ix2 p q) (ix2 p (0 : Fin 1)) (fun a => match a with
      | ⟨0, _⟩ => by show p.val = if Nd = 1 then 0 else p.val; split <;> omega
      | ⟨1, _⟩ => by show 0 = if (1 : Nat) = 1 then 0 else q.val; rw [if_pos rfl])
  have e3 : ∀ v : (V Nd).Idx → EReal, broadcastInDim (M Nd 1) ![0] w.nN1 v (ix2 p (0 : Fin 1)) = v (ix1 p) :=
    fun v => broadcastInDim_apply ![0] w.nN1 v (ix2 p (0 : Fin 1)) (ix1 p) (fun a => match a with
      | ⟨0, _⟩ => by show p.val = if Nd = 1 then 0 else p.val; split <;> omega)
  show S (ix2 p q) * _ = Ideal.div (S (ix2 p q)) _
  rw [e2, e2]
  unfold kInv rCnt
  rw [e3]
  simp only [fill_one, fill_zero]
  show S (ix2 p q) * Ideal.div 1 (max (Ideal.hostScatterAdd (sdv w.sv) (fun _ => 0) _ (fun _ => 1) (ix1 p)) 1)
    = Ideal.div (S (ix2 p q)) (max (Ideal.hostScatterAdd (sdm w.sN1) (fun _ => 0) _ (fun _ => 1) (ix2 p (0 : Fin 1))) 1)
  rw [count_eq w.sv w.sN1 _ 1 p]
  exact Ideal.mul_one_div (ne_of_gt (lt_of_lt_of_le zero_lt_one (le_max_right _ _)))

theorem mean_eq (hNs : Ns ≤ 2 ^ 31) (X : FVec Ideal (M Ns 256) .f32) (x : IVec (M 2 E) 32)
    (hlo : ∀ e : Fin E, 0 ≤ (x (ix2 (0 : Fin 2) e)).toInt) (hhi : ∀ e : Fin E, (x (ix2 (0 : Fin 2) e)).toInt < Ns) :
    kMean w X x = rMean w X x := by
  have hin := src_rng w hNs x hlo hhi
  unfold kMean rMean rSum rCol
  rw [take_eq w X _ hin, wrap_eq w _ fun j => (hin j).1]
  exact mean_core w x _

end Cert.Mean

namespace Cert.Sage

open Idealize.ShloMosaic Idealize.ShloMosaic.ValueIdx Cert.Mean

theorem mean_ee_eq (X : FVec Ideal ⟨2, ![100000, 256]⟩ .f32) (x : IVec ⟨2, ![2, 800000]⟩ 32)
    (hlo : ∀ e : Fin 800000, 0 ≤ (x (ix2 (0 : Fin 2) e)).toInt)
    (hhi : ∀ e : Fin 800000, (x (ix2 (0 : Fin 2) e)).toInt < 100000) :
    Cert.KernelIdeal.Hand.kMean_ee X x = Cert.ReferenceIdeal.Hand.rMean_ee X x :=
  mean_eq w_ee (by norm_num) X x hlo hhi

theorem mean_ce_eq (X : FVec Ideal ⟨2, ![50000, 256]⟩ .f32) (x : IVec ⟨2, ![2, 400000]⟩ 32)
    (hlo : ∀ e : Fin 400000, 0 ≤ (x (ix2 (0 : Fin 2) e)).toInt)
    (hhi : ∀ e : Fin 400000, (x (ix2 (0 : Fin 2) e)).toInt < 50000) :
    Cert.KernelIdeal.Hand.kMean_ce X x = Cert.ReferenceIdeal.Hand.rMean_ce X x :=
  mean_eq w_ce (by norm_num) X x hlo hhi

theorem mean_ec_eq (X : FVec Ideal ⟨2, ![100000, 256]⟩ .f32) (x : IVec ⟨2, ![2, 400000]⟩ 32)
    (hlo : ∀ e : Fin 400000, 0 ≤ (x (ix2 (0 : Fin 2) e)).toInt)
    (hhi : ∀ e : Fin 400000, (x (ix2 (0 : Fin 2) e)).toInt < 100000) :
    Cert.KernelIdeal.Hand.kMean_ec X x = Cert.ReferenceIdeal.Hand.rMean_ec X x :=
  mean_eq w_ec (by norm_num) X x hlo hhi

end Cert.Sage

end
-- ==== Proof.RealClose.lean ====
import Idealize.ShloMosaic.PureOps.Ideal
import Idealize.ShloMosaic.PureOps.Ideal.Laws
import proofs.«412619_j24352464570114_1_alg».proof.Proof.Spec

noncomputable section

namespace Cert.RealClose

open Idealize.ShloMosaic

theorem real_zero : ∃ r : ℝ, (0 : EReal) = (r : EReal) := ⟨0, EReal.coe_zero.symm⟩

theorem real_of_eq {x y : EReal} (h : x = y) (hy : ∃ r : ℝ, y = (r : EReal)) : ∃ r : ℝ, x = (r : EReal) := by
  subst h
  exact hy

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem real_sum {ι : Type} (s : Finset ι) (f : ι → EReal) :
    (∀ k ∈ s, ∃ r : ℝ, f k = (r : EReal)) → ∃ r : ℝ, ∑ k ∈ s, f k = (r : EReal) :=
  Finset.sum_induction f (fun x => ∃ r : ℝ, x = (r : EReal)) (fun _ _ => real_add) real_zero

theorem real_dot {ι κ : Type} {n : Nat} (A : ι → EReal) (B : κ → EReal) (l : Fin n → ι) (r : Fin n → κ)
    (hA : ∀ j, ∃ x : ℝ, A j = (x : EReal)) (hB : ∀ j, ∃ x : ℝ, B j = (x : EReal)) :
    ∃ x : ℝ, ∑ k : Fin n, A (l k) * B (r k) = (x : EReal) :=
  real_sum Finset.univ (fun k => A (l k) * B (r k)) fun k _ => real_mul (hA (l k)) (hB (r k))

end Cert.RealClose

end
-- ==== Proof.MeanReal.lean ====
import proofs.«412619_j24352464570114_1_alg».proof.Proof.Mean
import proofs.«412619_j24352464570114_1_alg».proof.Proof.Spec
import proofs.«412619_j24352464570114_1_alg».proof.Proof.RealClose

noncomputable section

namespace Cert.Mean

open Idealize.ShloMosaic Cert.RealClose

variable {E Ns Nd : Nat} (w : EdgeW E Ns Nd)

theorem scatterAdd_real {s si su : Shape} {n : Nat} (d : ScatterDims s si su) (x : FVec Ideal s .f32) (idx : IVec si n)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) :=
  real_add (hx i) (real_sum _ upd fun j _ => hu j)

theorem div_max_one_real {a c : EReal} (ha : ∃ r : ℝ, a = (r : EReal)) (hc : ∃ r : ℝ, c = (r : EReal)) :
    ∃ r : ℝ, Ideal.div a (max c 1) = (r : EReal) := by
  obtain ⟨x, rfl⟩ := ha
  obtain ⟨y, rfl⟩ := hc
  have h1 : max (y : EReal) 1 = ((max y 1 : ℝ) : EReal) := by
    rw [← EReal.coe_one]; exact (EReal.coe_strictMono.monotone.map_max).symm
  have hne : max y 1 ≠ 0 := ne_of_gt (lt_of_lt_of_le one_pos (le_max_right y 1))
  exact ⟨x * (1 / max y 1), by rw [h1, Ideal.div_coe hne, EReal.coe_mul]⟩

-- a real sum divided by a count clipped below at one is real
theorem mean_real {s sc : Shape} {dims : Fin sc.rank → Fin s.rank} (hb : sc.BroadcastsInDim s dims)
    (sum : FVec Ideal s .f32) (cnt one : FVec Ideal sc .f32) (hsum : ∀ i, ∃ r : ℝ, sum i = (r : EReal))
    (hcnt : ∀ j, ∃ r : ℝ, cnt j = (r : EReal)) (hone : ∀ j, one j = 1) (i : s.Idx) :
    ∃ r : ℝ, Host.divf sum (broadcastInDim s dims hb (maximumf cnt one)) i = (r : EReal) := by
  show ∃ r : ℝ, Ideal.div (sum i) (max (cnt _) (one _)) = (r : EReal)
  rw [hone]
  exact div_max_one_real (hsum i) (hcnt _)

theorem rMean_real (X : FVec Ideal (M Ns 256) .f32) (x : IVec (M 2 E) 32) (hX : ∀ i, ∃ r : ℝ, X i = (r : EReal))
    (i : (M Nd 256).Idx) : ∃ r : ℝ, rMean w X x i = (r : EReal) := by
  have z : ∀ t h j, ∃ r : ℝ, fill (F := Ideal) t h 0x00000000#32 j = (r : EReal) :=
    fun t h j => real_of_eq (congrFun (fill_zero t h) j) real_zero
  have o : ∀ t h j, ∃ r : ℝ, fill (F := Ideal) t h 0x3F800000#32 j = (r : EReal) :=
    fun t h j => real_of_eq (congrFun (fill_one t h) j) ⟨1, EReal.coe_one.symm⟩
  unfold rMean rCnt rSum
  exact mean_real _ _ _ _ (fun k => scatterAdd_real _ _ _ _ (z _ _) (fun _ => hX _) k)
    (fun k => scatterAdd_real _ _ _ _ (z _ _) (o _ _) k) (fun k => congrFun (fill_one _ _) k) i

end Cert.Mean

namespace Cert.ReferenceIdeal.Hand

open Cert.ReferenceIdeal Cert.Mean Idealize.ShloMosaic

theorem rMean_ee_real (X : FVec Ideal S100000x256 .f32) (x : IVec S2x800000 32) (hX : Cert.Sage.IsReal X) :
    Cert.Sage.IsReal (rMean_ee (F := Ideal) X x) :=
  rMean_real w_ee X x hX

theorem rMean_ce_real (X : FVec Ideal S50000x256 .f32) (x : IVec S2x400000 32) (hX : Cert.Sage.IsReal X) :
    Cert.Sage.IsReal (rMean_ce (F := Ideal) X x) :=
  rMean_real w_ce X x hX

end Cert.ReferenceIdeal.Hand

end
-- ==== Proof.RefAlg.lean ====
import proofs.«412619_j24352464570114_1_alg».proof.Proof.Spec

noncomputable section

namespace Cert.Sage

open Idealize.ShloMosaic Idealize.ShloMosaic.ValueIdx

theorem sum_eq_mm {n k p : Nat} (X : Arr n k) (W : Arr k p) (i : (⟨2, ![n, p]⟩ : Shape).Idx)
    (li : Fin k → (⟨2, ![n, k]⟩ : Shape).Idx) (ri : Fin k → (⟨2, ![k, p]⟩ : Shape).Idx)
    (hl : ∀ q, li q = ix2 (row i) q) (hr : ∀ q, ri q = ix2 q (col i)) :
    ∑ q : Fin k, X (li q) * W (ri q) = mm X W i := by
  show _ = ∑ q : Fin k, X (ix2 (row i) q) * W (ix2 q (col i))
  exact Finset.sum_congr rfl fun q _ => by rw [hl q, hr q]

theorem sum_mul_add_of_real {ι : Type} [Fintype ι] (h a b : ι → EReal)
    (hh : ∀ k, ∃ r : ℝ, h k = (r : EReal)) (ha : ∀ k, ∃ r : ℝ, a k = (r : EReal))
    (hb : ∀ k, ∃ r : ℝ, b k = (r : EReal)) :
    ∑ k, h k * (a k + b k) = ∑ k, h k * a k + ∑ k, h k * b k := by
  rw [← Finset.sum_add_distrib]
  refine Finset.sum_congr rfl fun k _ => ?_
  obtain ⟨x, hx⟩ := hh k
  obtain ⟨y, hy⟩ := ha k
  obtain ⟨z, hz⟩ := hb k
  rw [hx, hy, hz, ← EReal.coe_add, ← EReal.coe_mul, ← EReal.coe_mul, ← EReal.coe_mul, ← EReal.coe_add, mul_add]

theorem mm_add_right {n : Nat} (H : Arr n 256) (W1 W2 : Arr 256 256) (hH : IsReal H) (h1 : IsReal W1) (h2 : IsReal W2)
    (i : (⟨2, ![n, 256]⟩ : Shape).Idx) :
    mm H (fun j => W1 j + W2 j) i = mm H W1 i + mm H W2 i := by
  show ∑ q : Fin 256, H (ix2 (row i) q) * (W1 (ix2 q (col i)) + W2 (ix2 q (col i)))
      = ∑ q : Fin 256, H (ix2 (row i) q) * W1 (ix2 q (col i)) + ∑ q : Fin 256, H (ix2 (row i) q) * W2 (ix2 q (col i))
  exact sum_mul_add_of_real (fun q => H (ix2 (row i) q)) (fun q => W1 (ix2 q (col i))) (fun q => W2 (ix2 q (col i)))
    (fun q => hH _) (fun q => h1 _) (fun q => h2 _)

theorem add_six (a b1 h1 c b2 h2 : EReal) :
    ((a + b1) + h1) + ((c + b2) + h2) = ((a + c) + (h1 + h2)) + (b1 + b2) := by
  rw [add_right_comm a b1 h1, add_right_comm c b2 h2, add_add_add_comm (a + h1) b1 (c + h2) b2,
    add_add_add_comm a h1 c h2]

theorem two_terms_eq_comb3 {n : Nat} (A B H : Arr n 256) (Wa Wb W1 W2 : Arr 256 256) (β1 β2 : Fin 256 → EReal)
    (hH : IsReal H) (h1 : IsReal W1) (h2 : IsReal W2) (i : (⟨2, ![n, 256]⟩ : Shape).Idx) :
    ((mm A Wa i + β1 (col i)) + mm H W1 i) + ((mm B Wb i + β2 (col i)) + mm H W2 i)
      = comb3 A B H Wa Wb (fun j => W1 j + W2 j) (fun j => β1 (col j) + β2 (col j)) i := by
  show _ = ((mm A Wa i + mm B Wb i) + mm H (fun j => W1 j + W2 j) i) + (β1 (col i) + β2 (col i))
  rw [mm_add_right H W1 W2 hH h1 h2 i]
  exact add_six _ _ _ _ _ _

theorem one_term_eq_comb2 {n : Nat} (A H : Arr n 256) (Wa Wc : Arr 256 256) (β : Fin 256 → EReal)
    (i : (⟨2, ![n, 256]⟩ : Shape).Idx) :
    (mm A Wa i + β (col i)) + mm H Wc i = comb2 A H Wa Wc (fun j => β (col j)) i := by
  show _ = (mm A Wa i + mm H Wc i) + β (col i)
  exact add_right_comm _ _ _

theorem div_eq_l2n {n : Nat} (acc : Arr n 256) (i : (⟨2, ![n, 256]⟩ : Shape).Idx)
    (ji : Fin 256 → (⟨2, ![n, 256]⟩ : Shape).Idx) (hj : ∀ q, ji q = ix2 (row i) q) :
    Ideal.div (acc i) (max (Ideal.sqrt (0 + ∑ q : Fin 256, acc (ji q) * acc (ji q))) epsWord) = l2n acc i := by
  show _ = Ideal.div (acc i) (max (Ideal.sqrt (∑ j : Fin 256, acc (ix2 (row i) j) * acc (ix2 (row i) j))) epsWord)
  rw [zero_add]
  exact congrArg (fun s => Ideal.div (acc i) (max (Ideal.sqrt s) epsWord))
    (Finset.sum_congr rfl fun q _ => by rw [hj q])

end Cert.Sage

end
-- ==== Proof.RefStages.lean ====
import proofs.«412619_j24352464570114_1_alg».proof.Proof.RefRead
import proofs.«412619_j24352464570114_1_alg».proof.Proof.Spec
import proofs.«412619_j24352464570114_1_alg».proof.Proof.MeanDefs
import proofs.«412619_j24352464570114_1_alg».proof.Proof.RefAlg
import Idealize.ShloMosaic.PureOps.Ideal.Laws

noncomputable section

namespace Cert.ReferenceIdeal.Hand

open Cert.ReferenceIdeal Cert.ReferenceIdeal.Gen Cert.ReferenceIdeal.Read Cert.Sage
open Idealize.ShloMosaic Idealize.ShloMosaic.ValueIdx

variable (x0 : (⟨S100000x768, .f32⟩ : BufTy).Contents (Elt Ideal)) (x1 : (⟨S50000x1024, .f32⟩ : BufTy).Contents (Elt Ideal))
  (x2 : (⟨S2x800000, .i32⟩ : BufTy).Contents (Elt Ideal)) (x3 x4 : (⟨S2x400000, .i32⟩ : BufTy).Contents (Elt Ideal))
  (x5 : (⟨S768x256, .f32⟩ : BufTy).Contents (Elt Ideal)) (x6 : (⟨S1024x256, .f32⟩ : BufTy).Contents (Elt Ideal))
  (x7 : (⟨S3x256x256, .f32⟩ : BufTy).Contents (Elt Ideal)) (x8 : (⟨S3x256, .f32⟩ : BufTy).Contents (Elt Ideal))
  (x9 x10 : (⟨S3x256x256, .f32⟩ : BufTy).Contents (Elt Ideal)) (x11 : (⟨S3x256, .f32⟩ : BufTy).Contents (Elt Ideal))
  (x12 : (⟨S3x256x256, .f32⟩ : BufTy).Contents (Elt Ideal))

-- a stage whose element is the sum over q of X at (row, q) times W at (q, column) is the matrix product
theorem eq_mm {n k p : Nat} {V : Arr n p} {X : Arr n k} {W : Arr k p}
    {li : (⟨2, ![n, p]⟩ : Shape).Idx → Fin k → (⟨2, ![n, k]⟩ : Shape).Idx}
    {ri : (⟨2, ![n, p]⟩ : Shape).Idx → Fin k → (⟨2, ![k, p]⟩ : Shape).Idx}
    (h : ∀ i, V i = ∑ q : Fin k, X (li i q) * W (ri i q))
    (hl : ∀ i q, li i q = ix2 (row i) q := by exact fun _ _ => eq_ix2 _)
    (hr : ∀ i q, ri i q = ix2 q (col i) := by exact fun _ _ => eq_ix2 _) : V = mm X W :=
  funext fun i => (h i).trans (sum_eq_mm X W i _ _ (hl i) (hr i))

-- two reads in a row, the second landing on column (col i) of a vector
theorem bias_eq {ι κ : Type} {f : ι → EReal} {g : κ → EReal} {v : (⟨1, ![256]⟩ : Shape).Idx → EReal} {a : ι → κ}
    {b : κ → (⟨1, ![256]⟩ : Shape).Idx} (e1 : ∀ i, f i = g (a i)) (e2 : ∀ j, g j = v (b j)) (i : ι) {c : Fin 256}
    (hb : b (a i) = ix1 c := by exact eq_ix1 _) : f i = v (ix1 c) := by
  rw [e1, e2, hb]

-- two reads in a row of a real array are real
theorem real_read2 {ι κ μ : Type} {f : ι → EReal} {g : κ → EReal} {x : μ → EReal} {a : ι → κ} {b : κ → μ}
    (e1 : ∀ i, f i = g (a i)) (e2 : ∀ j, g j = x (b j)) (h : ∀ i, ∃ r : ℝ, x i = (r : EReal)) (i : ι) :
    ∃ r : ℝ, f i = (r : EReal) := by
  rw [e1, e2]; exact h _

theorem ref_v0 : val_main_v0 x0 x5 = mm (n := 100000) (k := 768) (p := 256) x0 x5 :=
  eq_mm (val_main_v0_apply x0 x5)

theorem ref_v1 : val_main_v1 x1 x6 = mm (n := 50000) (k := 1024) (p := 256) x1 x6 :=
  eq_mm (val_main_v1_apply x1 x6)

private theorem real_v7 (h : ∀ i, ∃ r : ℝ, x9 i = (r : EReal)) : IsReal (r := 256) (c := 256) (val_main_v7 x9) :=
  real_read2 (val_main_v7_apply x9) (val_main_v6_apply x9) h

private theorem real_v43 (h : ∀ i, ∃ r : ℝ, x9 i = (r : EReal)) : IsReal (r := 256) (c := 256) (val_main_v43 x9) :=
  real_read2 (val_main_v43_apply x9) (val_main_v42_apply x9) h

private theorem real_v120 (h : ∀ i, ∃ r : ℝ, x12 i = (r : EReal)) : IsReal (r := 256) (c := 256) (val_main_v120 x12) :=
  real_read2 (val_main_v120_apply x12) (val_main_v119_apply x12) h

private theorem real_v156 (h : ∀ i, ∃ r : ℝ, x12 i = (r : EReal)) : IsReal (r := 256) (c := 256) (val_main_v156 x12) :=
  real_read2 (val_main_v156_apply x12) (val_main_v155_apply x12) h

theorem ref_v112 (hH : IsReal (r := 100000) (c := 256) (val_main_v0 x0 x5)) (h9 : ∀ i, ∃ r : ℝ, x9 i = (r : EReal)) :
    val_main_v112 x0 x1 x2 x4 x5 x6 x7 x8 x9 = reluRes (n := 100000) (comb3 (n := 100000) (val_main_v31 x0 x2 x5) (val_main_v67 x1 x4 x6) (val_main_v0 x0 x5) (val_main_v3 x7) (val_main_v39 x7)
      (fun i => val_main_v7 x9 i + val_main_v43 x9 i : Arr 256 256)
      (fun i => val_main_v5 x8 (ix1 (col i)) + val_main_v41 x8 (ix1 (col i)) : Arr 1 256)) (val_main_v0 x0 x5) := by
  funext i
  rw [val_main_v112_apply, val_main_v111_apply, val_main_v74_apply, val_main_v37_apply, val_main_v35_apply,
    val_main_v73_apply, val_main_v71_apply, bias_eq (val_main_v34_apply x8) (val_main_v33_apply x8) i (c := col i),
    bias_eq (val_main_v70_apply x8) (val_main_v69_apply x8) i (c := col i), eq_mm (val_main_v32_apply x0 x2 x5 x7),
    eq_mm (val_main_v36_apply x0 x5 x9), eq_mm (val_main_v68_apply x1 x4 x6 x7), eq_mm (val_main_v72_apply x0 x5 x9),
    val_main_call0_v0_apply, val_main_call0_cst_apply, Ideal.ofBits_def, Ideal.ofBits_zero_f32]
  repeat rw [Ideal.addf_def]
  rw [Ideal.maximumf_def, two_terms_eq_comb3 _ _ _ _ _ _ _ (fun c => val_main_v5 x8 (ix1 c))
    (fun c => val_main_v41 x8 (ix1 c)) hH (real_v7 x9 h9) (real_v43 x9 h9) i]
  rfl

theorem ref_v114 :
    val_main_v114 x0 x1 x3 x5 x6 x7 x8 x9 = reluRes (n := 50000) (comb2 (n := 50000) (val_main_v104 x0 x3 x5) (val_main_v1 x1 x6) (val_main_v76 x7) (val_main_v80 x9)
      (fun i => val_main_v78 x8 (ix1 (col i)) : Arr 1 256)) (val_main_v1 x1 x6) := by
  funext i
  rw [val_main_v114_apply, val_main_v113_apply, val_main_v110_apply, val_main_v108_apply,
    bias_eq (val_main_v107_apply x8) (val_main_v106_apply x8) i (c := col i),
    eq_mm (val_main_v105_apply x0 x3 x5 x7),
    eq_mm (val_main_v109_apply x1 x6 x9), val_main_call1_v0_apply, val_main_call1_cst_apply, Ideal.ofBits_def,
    Ideal.ofBits_zero_f32]
  repeat rw [Ideal.addf_def]
  rw [Ideal.maximumf_def, one_term_eq_comb2 _ _ _ _ (fun c => val_main_v78 x8 (ix1 c)) i]
  rfl

theorem norm_v231 : val_main_v231 x0 x1 x2 x3 x4 x5 x6 x7 x8 x9 x10 x11 x12 = l2n (n := 100000) (val_main_v187 x0 x1 x2 x3 x4 x5 x6 x7 x8 x9 x10 x11 x12) := by
  funext i
  rw [val_main_v231_apply, val_main_v230_apply, val_main_v229_apply, val_main_v227_apply, val_main_v226_apply,
    val_main_v225_apply, val_main_v228_apply, val_main_cst_35_apply, val_main_cst_34_apply,
    Ideal.hostDivf_def, Ideal.maximumf_def, Ideal.hostUnary_sqrt_def, Ideal.ofBits_def, Ideal.ofBits_def,
    Ideal.ofBits_zero_f32,
    Finset.sum_congr rfl fun k _ => (val_main_v224_apply x0 x1 x2 x3 x4 x5 x6 x7 x8 x9 x10 x11 x12 (idx_main_v225 (idx_main_v226 (idx_main_v230 i)) k)).trans (Ideal.mulf_def _ _)]
  exact div_eq_l2n _ i _ fun _ => eq_ix2 _

theorem ref_v231 (hH : IsReal (r := 100000) (c := 256) (val_main_v112 x0 x1 x2 x4 x5 x6 x7 x8 x9)) (h12 : ∀ i, ∃ r : ℝ, x12 i = (r : EReal)) :
    val_main_v231 x0 x1 x2 x3 x4 x5 x6 x7 x8 x9 x10 x11 x12 = l2n (n := 100000) (comb3 (n := 100000) (val_main_v144 x0 x1 x2 x4 x5 x6 x7 x8 x9) (val_main_v180 x0 x1 x3 x4 x5 x6 x7 x8 x9) (val_main_v112 x0 x1 x2 x4 x5 x6 x7 x8 x9) (val_main_v116 x10) (val_main_v152 x10)
      (fun i => val_main_v120 x12 i + val_main_v156 x12 i : Arr 256 256)
      (fun i => val_main_v118 x11 (ix1 (col i)) + val_main_v154 x11 (ix1 (col i)) : Arr 1 256)) := by
  rw [norm_v231]
  refine congrArg _ (funext fun i => ?_)
  rw [val_main_v187_apply, val_main_v150_apply, val_main_v148_apply, val_main_v186_apply, val_main_v184_apply,
    bias_eq (val_main_v147_apply x11) (val_main_v146_apply x11) i (c := col i),
    bias_eq (val_main_v183_apply x11) (val_main_v182_apply x11) i (c := col i),
    eq_mm (val_main_v145_apply x0 x1 x2 x4 x5 x6 x7 x8 x9 x10),
    eq_mm (val_main_v149_apply x0 x1 x2 x4 x5 x6 x7 x8 x9 x12),
    eq_mm (val_main_v181_apply x0 x1 x3 x4 x5 x6 x7 x8 x9 x10),
    eq_mm (val_main_v185_apply x0 x1 x2 x4 x5 x6 x7 x8 x9 x12)]
  repeat rw [Ideal.addf_def]
  exact two_terms_eq_comb3 _ _ _ _ _ _ _ (fun c => val_main_v118 x11 (ix1 c))
    (fun c => val_main_v154 x11 (ix1 c)) hH (real_v120 x12 h12) (real_v156 x12 h12) i

theorem norm_v239 : val_main_v239 x0 x1 x2 x3 x4 x5 x6 x7 x8 x9 x10 x11 x12 = l2n (n := 50000) (val_main_v223 x0 x1 x2 x3 x4 x5 x6 x7 x8 x9 x10 x11 x12) := by
  funext i
  rw [val_main_v239_apply, val_main_v238_apply, val_main_v237_apply, val_main_v235_apply, val_main_v234_apply,
    val_main_v233_apply, val_main_v236_apply, val_main_cst_37_apply, val_main_cst_36_apply,
    Ideal.hostDivf_def, Ideal.maximumf_def, Ideal.hostUnary_sqrt_def, Ideal.ofBits_def, Ideal.ofBits_def,
    Ideal.ofBits_zero_f32,
    Finset.sum_congr rfl fun k _ => (val_main_v232_apply x0 x1 x2 x3 x4 x5 x6 x7 x8 x9 x10 x11 x12 (idx_main_v233 (idx_main_v234 (idx_main_v238 i)) k)).trans (Ideal.mulf_def _ _)]
  exact div_eq_l2n _ i _ fun _ => eq_ix2 _

theorem ref_v239 :
    val_main_v239 x0 x1 x2 x3 x4 x5 x6 x7 x8 x9 x10 x11 x12 = l2n (n := 50000) (comb2 (n := 50000) (val_main_v217 x0 x1 x2 x3 x4 x5 x6 x7 x8 x9) (val_main_v114 x0 x1 x3 x5 x6 x7 x8 x9) (val_main_v189 x10) (val_main_v193 x12)
      (fun i => val_main_v191 x11 (ix1 (col i)) : Arr 1 256)) := by
  rw [norm_v239]
  refine congrArg _ (funext fun i => ?_)
  rw [val_main_v223_apply, val_main_v221_apply, bias_eq (val_main_v220_apply x11) (val_main_v219_apply x11) i (c := col i),
    eq_mm (val_main_v218_apply x0 x1 x2 x3 x4 x5 x6 x7 x8 x9 x10),
    eq_mm (val_main_v222_apply x0 x1 x3 x5 x6 x7 x8 x9 x12)]
  repeat rw [Ideal.addf_def]
  exact one_term_eq_comb2 _ _ _ _ (fun c => val_main_v191 x11 (ix1 c)) i

theorem mean_v31 : val_main_v31 x0 x2 x5 = rMean_ee (val_main_v0 x0 x5) x2 := rfl

theorem mean_v67 : val_main_v67 x1 x4 x6 = rMean_ce (val_main_v1 x1 x6) x4 := rfl

theorem mean_v104 : val_main_v104 x0 x3 x5 = rMean_ec (val_main_v0 x0 x5) x3 := rfl

theorem mean_v144 : val_main_v144 x0 x1 x2 x4 x5 x6 x7 x8 x9 = rMean_ee (val_main_v112 x0 x1 x2 x4 x5 x6 x7 x8 x9) x2 := rfl

theorem mean_v180 : val_main_v180 x0 x1 x3 x4 x5 x6 x7 x8 x9 = rMean_ce (val_main_v114 x0 x1 x3 x5 x6 x7 x8 x9) x4 := rfl

theorem mean_v217 : val_main_v217 x0 x1 x2 x3 x4 x5 x6 x7 x8 x9 = rMean_ec (val_main_v112 x0 x1 x2 x4 x5 x6 x7 x8 x9) x3 := rfl

end Cert.ReferenceIdeal.Hand

end
-- ==== Proof.RefReal.lean ====
import proofs.«412619_j24352464570114_1_alg».proof.Proof.RefRead
import proofs.«412619_j24352464570114_1_alg».proof.Proof.Spec
import proofs.«412619_j24352464570114_1_alg».proof.Proof.RealClose
import Idealize.ShloMosaic.PureOps.Ideal
import Idealize.ShloMosaic.PureOps.Ideal.Laws

noncomputable section

namespace Cert.ReferenceIdeal.Hand

open Cert.ReferenceIdeal Cert.ReferenceIdeal.Gen Cert.ReferenceIdeal.Read Idealize.ShloMosaic Cert.Sage Cert.RealClose

variable {x0 : (⟨S100000x768, .f32⟩ : BufTy).Contents (Elt Ideal)}
  {x1 : (⟨S50000x1024, .f32⟩ : BufTy).Contents (Elt Ideal)}
  {x2 : (⟨S2x800000, .i32⟩ : BufTy).Contents (Elt Ideal)}
  {x4 : (⟨S2x400000, .i32⟩ : BufTy).Contents (Elt Ideal)}
  {x5 : (⟨S768x256, .f32⟩ : BufTy).Contents (Elt Ideal)}
  {x6 : (⟨S1024x256, .f32⟩ : BufTy).Contents (Elt Ideal)}
  {x7 : (⟨S3x256x256, .f32⟩ : BufTy).Contents (Elt Ideal)}
  {x8 : (⟨S3x256, .f32⟩ : BufTy).Contents (Elt Ideal)}
  {x9 : (⟨S3x256x256, .f32⟩ : BufTy).Contents (Elt Ideal)}

theorem real_v0 (h0 : IsReal (r := 100000) (c := 768) x0) (h5 : IsReal (r := 768) (c := 256) x5) :
    IsReal (r := 100000) (c := 256) (val_main_v0 x0 x5) :=
  fun i => real_of_eq (val_main_v0_apply x0 x5 i) (real_dot x0 x5 _ _ h0 h5)

theorem real_v1 (h1 : IsReal (r := 50000) (c := 1024) x1) (h6 : IsReal (r := 1024) (c := 256) x6) :
    IsReal (r := 50000) (c := 256) (val_main_v1 x1 x6) :=
  fun i => real_of_eq (val_main_v1_apply x1 x6 i) (real_dot x1 x6 _ _ h1 h6)

theorem real_v3 (h7 : ∀ i, ∃ r : ℝ, x7 i = (r : EReal)) : ∀ i, ∃ r : ℝ, val_main_v3 x7 i = (r : EReal) :=
  fun i => real_of_eq ((val_main_v3_apply x7 i).trans (val_main_v2_apply x7 _)) (h7 _)
theorem real_v7 (h9 : ∀ i, ∃ r : ℝ, x9 i = (r : EReal)) : ∀ i, ∃ r : ℝ, val_main_v7 x9 i = (r : EReal) :=
  fun i => real_of_eq ((val_main_v7_apply x9 i).trans (val_main_v6_apply x9 _)) (h9 _)
theorem real_v39 (h7 : ∀ i, ∃ r : ℝ, x7 i = (r : EReal)) : ∀ i, ∃ r : ℝ, val_main_v39 x7 i = (r : EReal) :=
  fun i => real_of_eq ((val_main_v39_apply x7 i).trans (val_main_v38_apply x7 _)) (h7 _)
theorem real_v43 (h9 : ∀ i, ∃ r : ℝ, x9 i = (r : EReal)) : ∀ i, ∃ r : ℝ, val_main_v43 x9 i = (r : EReal) :=
  fun i => real_of_eq ((val_main_v43_apply x9 i).trans (val_main_v42_apply x9 _)) (h9 _)

-- every stage up to v112 adds, multiplies or takes the larger of real numbers
theorem real_v112 (hmee : IsReal (r := 100000) (c := 256) (val_main_v31 x0 x2 x5)) (hmce : IsReal (r := 100000) (c := 256) (val_main_v67 x1 x4 x6)) (hH : IsReal (r := 100000) (c := 256) (val_main_v0 x0 x5)) (h7 : ∀ i, ∃ r : ℝ, x7 i = (r : EReal)) (h8 : ∀ i, ∃ r : ℝ, x8 i = (r : EReal)) (h9 : ∀ i, ∃ r : ℝ, x9 i = (r : EReal)) :
    IsReal (r := 100000) (c := 256) (val_main_v112 x0 x1 x2 x4 x5 x6 x7 x8 x9) := fun i => by
  rw [val_main_v112_apply, val_main_v111_apply, val_main_v74_apply, val_main_v37_apply, val_main_v35_apply,
    val_main_v73_apply, val_main_v71_apply, val_main_v32_apply, val_main_v36_apply, val_main_v68_apply,
    val_main_v72_apply, val_main_v34_apply, val_main_v33_apply, val_main_v5_apply, val_main_v4_apply,
    val_main_v70_apply, val_main_v69_apply, val_main_v41_apply, val_main_v40_apply, val_main_call0_v0_apply,
    val_main_call0_cst_apply]
  exact real_add (real_max (real_add
      (real_add (real_add (real_dot _ _ _ _ hmee (real_v3 h7)) (h8 _)) (real_dot _ _ _ _ hH (real_v7 h9)))
      (real_add (real_add (real_dot _ _ _ _ hmce (real_v39 h7)) (h8 _)) (real_dot _ _ _ _ hH (real_v43 h9))))
    (real_of_eq Ideal.ofBits_zero_f32 real_zero)) (hH i)

end Cert.ReferenceIdeal.Hand

end
-- ==== Proof.PreFacts.lean ====
import proofs.«412619_j24352464570114_1_alg».proof.Pre_finite_inputs
import proofs.«412619_j24352464570114_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs Cert.Pre_finite_inputs.Gen

instance subsingleton_scalar_idx : Subsingleton S_.Idx := ⟨fun a b => funext fun d => d.elim0⟩

theorem inf_bits : Ideal.ofBits .f32 0x7F800000#32 = (⊤ : EReal) := by simp [Ideal.ofBits, Ideal.ieee]

theorem real_of_abs_lt_top (x : EReal) (h : Ideal.cmp .olt (max x (-x)) (Ideal.ofBits .f32 0x7F800000#32) = 1#1) :
    ∃ r : ℝ, x = (r : EReal) := by
  rw [inf_bits] at h
  have hlt : max x (-x) < ⊤ := by
    have := (StableHlo.Predicate.ofBool_eq_one_iff _).1 h
    exact of_decide_eq_true this
  rw [max_lt_iff] at hlt
  induction x using EReal.rec with
  | bot => exact absurd hlt.2 (by simp)
  | coe r => exact ⟨r, rfl⟩
  | top => exact absurd hlt.1 (by simp)

theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf (F := Ideal) x) (broadcastInDim s ![] hb (constant (F := Ideal) S_ .f32 0x7F800000#32)))
          init hr hu ix0 = 1#1)
    (i : s.Idx) : ∃ r : ℝ, x i = (r : EReal) :=
  real_of_abs_lt_top (x i) (Host.reduce_andi_all _ init hr hu ix0 e i)

theorem toInt_nonneg_of_sge {a : BitVec 32} (h : IntOp.cmpi .sge a 0#32 = 1#1) : 0 ≤ a.toInt := by
  unfold IntOp.cmpi at h
  have := (StableHlo.Predicate.ofBool_eq_one_iff _).1 h
  simpa [BitVec.sle] using this

theorem toInt_lt_of_slt {a : BitVec 32} (b : ℕ) (hb : b < 2 ^ 31) (h : IntOp.cmpi .slt a (BitVec.ofNat 32 b) = 1#1) :
    a.toInt < (b : ℤ) := by
  unfold IntOp.cmpi at h
  have := (StableHlo.Predicate.ofBool_eq_one_iff _).1 h
  simp only [BitVec.slt, decide_eq_true_eq, StableHlo.Predicate.toInt_ofNat_small b hb] at this
  exact this

theorem row0_read {n : Nat} (x : IVec ⟨2, ![2, n]⟩ 32)
    (hs : (⟨2, ![2, n]⟩ : Shape).Slices ![0, 0] ⟨2, ![1, n]⟩) (hc : (⟨2, ![1, n]⟩ : Shape).ShapeCasts ⟨1, ![n]⟩)
    (q : Fin n) :
    ∃ j : (⟨1, ![n]⟩ : Shape).Idx,
      shapeCast ⟨1, ![n]⟩ (extractStridedSlice ⟨2, ![1, n]⟩ ![0, 0] x hs) hc j = x (ix2 (0 : Fin 2) q) := by
  refine ⟨(Shape.reshapeEquiv hc).symm (ix2 (0 : Fin 1) q), ?_⟩
  unfold shapeCast
  rw [Equiv.apply_symm_apply]
  unfold extractStridedSlice
  congr 1
  funext a
  match a with
  | ⟨0, _⟩ => rfl
  | ⟨1, _⟩ => exact Fin.ext (Nat.zero_add _)

theorem row0_all {n : Nat} {axes : List (Fin (⟨1, ![n]⟩ : Shape).rank)} (p : CmpIPredicate) (c : BitVec 32) (x : IVec ⟨2, ![2, n]⟩ 32)
    (hs : (⟨2, ![2, n]⟩ : Shape).Slices ![0, 0] ⟨2, ![1, n]⟩) (hc : (⟨2, ![1, n]⟩ : Shape).ShapeCasts ⟨1, ![n]⟩)
    (hb : S_.BroadcastsInDim ⟨1, ![n]⟩ (![] : Fin 0 → Fin (⟨1, ![n]⟩ : Shape).rank))
    (hr : (⟨1, ![n]⟩ : Shape).ReducesTo axes S_) (hu : 0 < S_.numel) (init : IVec S_ 1)
    (e : Host.reduce IntOp.andi
          (cmpi p (shapeCast ⟨1, ![n]⟩ (extractStridedSlice ⟨2, ![1, n]⟩ ![0, 0] x hs) hc)
            (broadcastInDim ⟨1, ![n]⟩ ![] hb (constantI S_ 32 c)))
          init hr hu ix0 = 1#1)
    (q : Fin n) : IntOp.cmpi p (x (ix2 (0 : Fin 2) q)) c = 1#1 := by
  obtain ⟨j, hj⟩ := row0_read x hs hc q
  rw [← hj]
  exact Host.reduce_andi_all _ init hr hu ix0 e j

variable (x0 : FVec Ideal S100000x768 .f32) (x1 : FVec Ideal S50000x1024 .f32) (x2 : IVec S2x800000 32) (x3 x4 : IVec S2x400000 32)
  (x5 : FVec Ideal S768x256 .f32) (x6 : FVec Ideal S1024x256 .f32) (x7 : FVec Ideal S3x256x256 .f32) (x8 : FVec Ideal S3x256 .f32)
  (x9 x10 : FVec Ideal S3x256x256 .f32) (x11 : FVec Ideal S3x256 .f32) (x12 : FVec Ideal S3x256x256 .f32)

structure Decoded : Prop where
  real_x0 : ∀ i : S100000x768.Idx, ∃ r : ℝ, x0 i = (r : EReal)
  real_x1 : ∀ i : S50000x1024.Idx, ∃ r : ℝ, x1 i = (r : EReal)
  real_x5 : ∀ i : S768x256.Idx, ∃ r : ℝ, x5 i = (r : EReal)
  real_x6 : ∀ i : S1024x256.Idx, ∃ r : ℝ, x6 i = (r : EReal)
  real_x7 : ∀ i : S3x256x256.Idx, ∃ r : ℝ, x7 i = (r : EReal)
  real_x8 : ∀ i : S3x256.Idx, ∃ r : ℝ, x8 i = (r : EReal)
  real_x9 : ∀ i : S3x256x256.Idx, ∃ r : ℝ, x9 i = (r : EReal)
  real_x10 : ∀ i : S3x256x256.Idx, ∃ r : ℝ, x10 i = (r : EReal)
  real_x11 : ∀ i : S3x256.Idx, ∃ r : ℝ, x11 i = (r : EReal)
  real_x12 : ∀ i : S3x256x256.Idx, ∃ r : ℝ, x12 i = (r : EReal)
  ee_lo : ∀ e : Fin 800000, 0 ≤ (x2 (ix2 (0 : Fin 2) e)).toInt
  ee_hi : ∀ e : Fin 800000, (x2 (ix2 (0 : Fin 2) e)).toInt < 100000
  ec_lo : ∀ e : Fin 400000, 0 ≤ (x3 (ix2 (0 : Fin 2) e)).toInt
  ec_hi : ∀ e : Fin 400000, (x3 (ix2 (0 : Fin 2) e)).toInt < 100000
  ce_lo : ∀ e : Fin 400000, 0 ≤ (x4 (ix2 (0 : Fin 2) e)).toInt
  ce_hi : ∀ e : Fin 400000, (x4 (ix2 (0 : Fin 2) e)).toInt < 50000

theorem decode
    (h : Cert.Pre_finite_inputs.fn (F := Ideal) x0 x1 x2 x3 x4 x5 x6 x7 x8 x9 x10 x11 x12 = fun _ => 1#1) :
    Decoded x0 x1 x2 x3 x4 x5 x6 x7 x8 x9 x10 x11 x12 := by
  have h0 := congrFun h ix0
  dsimp only [Cert.Pre_finite_inputs.fn, fn_part1, fn_part2, fn_part3, fn_part4, andi] at h0
  obtain ⟨h0, c4hi⟩ := IntOp.andi_eq_one.1 h0
  obtain ⟨h0, c4lo⟩ := IntOp.andi_eq_one.1 h0
  obtain ⟨h0, c3hi⟩ := IntOp.andi_eq_one.1 h0
  obtain ⟨h0, c3lo⟩ := IntOp.andi_eq_one.1 h0
  obtain ⟨h0, c2hi⟩ := IntOp.andi_eq_one.1 h0
  obtain ⟨h0, c2lo⟩ := IntOp.andi_eq_one.1 h0
  obtain ⟨h0, f12⟩ := IntOp.andi_eq_one.1 h0
  obtain ⟨h0, f11⟩ := IntOp.andi_eq_one.1 h0
  obtain ⟨h0, f10⟩ := IntOp.andi_eq_one.1 h0
  obtain ⟨h0, f9⟩ := IntOp.andi_eq_one.1 h0
  obtain ⟨h0, f8⟩ := IntOp.andi_eq_one.1 h0
  obtain ⟨h0, f7⟩ := IntOp.andi_eq_one.1 h0
  obtain ⟨h0, f6⟩ := IntOp.andi_eq_one.1 h0
  obtain ⟨h0, f5⟩ := IntOp.andi_eq_one.1 h0
  obtain ⟨f0, f1⟩ := IntOp.andi_eq_one.1 h0
  exact
    { real_x0 := real_of_all x0 _ _ _ _ f0
      real_x1 := real_of_all x1 _ _ _ _ f1
      real_x5 := real_of_all x5 _ _ _ _ f5
      real_x6 := real_of_all x6 _ _ _ _ f6
      real_x7 := real_of_all x7 _ _ _ _ f7
      real_x8 := real_of_all x8 _ _ _ _ f8
      real_x9 := real_of_all x9 _ _ _ _ f9
      real_x10 := real_of_all x10 _ _ _ _ f10
      real_x11 := real_of_all x11 _ _ _ _ f11
      real_x12 := real_of_all x12 _ _ _ _ f12
      ee_lo := fun q => toInt_nonneg_of_sge (row0_all _ _ x2 _ _ _ _ _ _ c2lo q)
      ee_hi := fun q => toInt_lt_of_slt 100000 (by norm_num) (row0_all _ _ x2 _ _ _ _ _ _ c2hi q)
      ec_lo := fun q => toInt_nonneg_of_sge (row0_all _ _ x3 _ _ _ _ _ _ c3lo q)
      ec_hi := fun q => toInt_lt_of_slt 100000 (by norm_num) (row0_all _ _ x3 _ _ _ _ _ _ c3hi q)
      ce_lo := fun q => toInt_nonneg_of_sge (row0_all _ _ x4 _ _ _ _ _ _ c4lo q)
      ce_hi := fun q => toInt_lt_of_slt 50000 (by norm_num) (row0_all _ _ x4 _ _ _ _ _ _ c4hi q) }

end Cert.PreFacts

end
-- ==== Proof.Bridge.lean ====
import proofs.«412619_j24352464570114_1_alg».proof.Proof.KiChain
import proofs.«412619_j24352464570114_1_alg».proof.Proof.Mean
import proofs.«412619_j24352464570114_1_alg».proof.Proof.MeanReal
import proofs.«412619_j24352464570114_1_alg».proof.Proof.RefStages
import proofs.«412619_j24352464570114_1_alg».proof.Proof.RefReal
import proofs.«412619_j24352464570114_1_alg».proof.Proof.PreFacts
import Idealize.ShloMosaic.Lib.Pipeline.Value
import Idealize.ShloMosaic.Lib.ValueIdx
import Idealize.ShloMosaic.Lib.ValueLayout

noncomputable section

namespace Cert.Bridge

open Cert.Sage Cert.KernelIdeal.Hand Cert.ReferenceIdeal.Hand Cert.ReferenceIdeal.Read
open Idealize.ShloMosaic Idealize.ShloMosaic.ValueIdx

variable (x0 : FVec Ideal ⟨2, ![100000, 768]⟩ .f32) (x1 : FVec Ideal ⟨2, ![50000, 1024]⟩ .f32) (x2 : IVec ⟨2, ![2, 800000]⟩ 32)
  (x3 x4 : IVec ⟨2, ![2, 400000]⟩ 32) (x5 : FVec Ideal ⟨2, ![768, 256]⟩ .f32) (x6 : FVec Ideal ⟨2, ![1024, 256]⟩ .f32)
  (x7 : FVec Ideal ⟨3, ![3, 256, 256]⟩ .f32) (x8 : FVec Ideal ⟨2, ![3, 256]⟩ .f32) (x9 x10 : FVec Ideal ⟨3, ![3, 256, 256]⟩ .f32)
  (x11 : FVec Ideal ⟨2, ![3, 256]⟩ .f32) (x12 : FVec Ideal ⟨3, ![3, 256, 256]⟩ .f32)

theorem wl1_0 : kWl1_0 x7 = val_main_v3 (F := Ideal) x7 := rfl
theorem wl1_2 : kWl1_2 x7 = val_main_v39 (F := Ideal) x7 := rfl
theorem wl1_1 : kWl1_1 x7 = val_main_v76 (F := Ideal) x7 := rfl
theorem wr1_1 : kWr1_1 x9 = val_main_v80 (F := Ideal) x9 := rfl
theorem wl2_0 : kWl2_0 x10 = val_main_v116 (F := Ideal) x10 := rfl
theorem wl2_2 : kWl2_2 x10 = val_main_v152 (F := Ideal) x10 := rfl
theorem wl2_1 : kWl2_1 x10 = val_main_v189 (F := Ideal) x10 := rfl
theorem wr2_1 : kWr2_1 x12 = val_main_v193 (F := Ideal) x12 := rfl

theorem wr1_02 : (kWr1_02 x9 : Arr 256 256) = fun i => val_main_v7 (F := Ideal) x9 i + val_main_v43 (F := Ideal) x9 i := rfl
theorem wr2_02 : (kWr2_02 x12 : Arr 256 256) = fun i => val_main_v120 (F := Ideal) x12 i + val_main_v156 (F := Ideal) x12 i := rfl

theorem row_cast (v : FVec Ideal ⟨1, ![256]⟩ .f32) (h : (⟨1, ![256]⟩ : Shape).ShapeCasts ⟨2, ![1, 256]⟩) (i : (⟨2, ![1, 256]⟩ : Shape).Idx) :
    shapeCast ⟨2, ![1, 256]⟩ v h i = v (ix1 (col i)) :=
  (congrArg (shapeCast ⟨2, ![1, 256]⟩ v h) (eq_row_col i)).trans (shapeCast_a_1a_apply v h (row i) (col i))

theorem b1_02 : (kB1_02 x8 : Arr 1 256) = fun i => val_main_v5 (F := Ideal) x8 (ix1 (col i)) + val_main_v41 (F := Ideal) x8 (ix1 (col i)) := by
  funext i
  exact row_cast _ _ i
theorem b2_02 : (kB2_02 x11 : Arr 1 256) = fun i => val_main_v118 (F := Ideal) x11 (ix1 (col i)) + val_main_v154 (F := Ideal) x11 (ix1 (col i)) := by
  funext i
  exact row_cast _ _ i
theorem b1_1 : (kB1_1 x8 : Arr 1 256) = fun i => val_main_v78 (F := Ideal) x8 (ix1 (col i)) := by
  funext i
  exact row_cast _ _ i
theorem b2_1 : (kB2_1 x11 : Arr 1 256) = fun i => val_main_v191 (F := Ideal) x11 (ix1 (col i)) := by
  funext i
  exact row_cast _ _ i

variable (hd : Cert.PreFacts.Decoded x0 x1 x2 x3 x4 x5 x6 x7 x8 x9 x10 x11 x12)
include hd

theorem H1 : kH1 x0 x5 = val_main_v0 (F := Ideal) x0 x5 := (ref_v0 x0 x5).symm
theorem C1 : kC1 x1 x6 = val_main_v1 (F := Ideal) x1 x6 := (ref_v1 x1 x6).symm

theorem realH1 : IsReal (r := 100000) (c := 256) (val_main_v0 (F := Ideal) x0 x5) := real_v0 hd.real_x0 hd.real_x5
theorem realC1 : IsReal (r := 50000) (c := 256) (val_main_v1 (F := Ideal) x1 x6) := real_v1 hd.real_x1 hd.real_x6

theorem Mee1 : kMean_ee (kH1 x0 x5) x2 = val_main_v31 (F := Ideal) x0 x2 x5 := by
  rw [H1 (hd := hd), mean_v31]; exact mean_ee_eq _ x2 hd.ee_lo hd.ee_hi
theorem Mce1 : kMean_ce (kC1 x1 x6) x4 = val_main_v67 (F := Ideal) x1 x4 x6 := by
  rw [C1 (hd := hd), mean_v67]; exact mean_ce_eq _ x4 hd.ce_lo hd.ce_hi
theorem Mec1 : kMean_ec (kH1 x0 x5) x3 = val_main_v104 (F := Ideal) x0 x3 x5 := by
  rw [H1 (hd := hd), mean_v104]; exact mean_ec_eq _ x3 hd.ec_lo hd.ec_hi

theorem H2 : kH2 x0 x1 x2 x4 x5 x6 x7 x8 x9 = val_main_v112 (F := Ideal) x0 x1 x2 x4 x5 x6 x7 x8 x9 := by
  rw [ref_v112 x0 x1 x2 x4 x5 x6 x7 x8 x9 (realH1 (hd := hd)) hd.real_x9]
  unfold kH2
  rw [Mee1 (hd := hd), Mce1 (hd := hd), H1 (hd := hd), wl1_0, wl1_2, wr1_02, b1_02]

theorem C2 : kC2 x0 x1 x3 x5 x6 x7 x8 x9 = val_main_v114 (F := Ideal) x0 x1 x3 x5 x6 x7 x8 x9 := by
  rw [ref_v114 x0 x1 x3 x5 x6 x7 x8 x9]
  unfold kC2
  rw [Mec1 (hd := hd), C1 (hd := hd), wl1_1, wr1_1, b1_1]

theorem realH2 : IsReal (r := 100000) (c := 256) (val_main_v112 (F := Ideal) x0 x1 x2 x4 x5 x6 x7 x8 x9) :=
  real_v112 (by rw [mean_v31]; exact rMean_ee_real _ x2 (realH1 (hd := hd))) (by rw [mean_v67]; exact rMean_ce_real _ x4 (realC1 (hd := hd)))
    (realH1 (hd := hd)) hd.real_x7 hd.real_x8 hd.real_x9

theorem Mee2 : kMean_ee (kH2 x0 x1 x2 x4 x5 x6 x7 x8 x9) x2 = val_main_v144 (F := Ideal) x0 x1 x2 x4 x5 x6 x7 x8 x9 := by
  rw [H2 (hd := hd), mean_v144]; exact mean_ee_eq _ x2 hd.ee_lo hd.ee_hi
theorem Mce2 : kMean_ce (kC2 x0 x1 x3 x5 x6 x7 x8 x9) x4 = val_main_v180 (F := Ideal) x0 x1 x3 x4 x5 x6 x7 x8 x9 := by
  rw [C2 (hd := hd), mean_v180]; exact mean_ce_eq _ x4 hd.ce_lo hd.ce_hi
theorem Mec2 : kMean_ec (kH2 x0 x1 x2 x4 x5 x6 x7 x8 x9) x3 = val_main_v217 (F := Ideal) x0 x1 x2 x3 x4 x5 x6 x7 x8 x9 := by
  rw [H2 (hd := hd), mean_v217]; exact mean_ec_eq _ x3 hd.ec_lo hd.ec_hi

theorem outE : kOutE x0 x1 x2 x3 x4 x5 x6 x7 x8 x9 x10 x11 x12 = val_main_v231 (F := Ideal) x0 x1 x2 x3 x4 x5 x6 x7 x8 x9 x10 x11 x12 := by
  rw [ref_v231 x0 x1 x2 x3 x4 x5 x6 x7 x8 x9 x10 x11 x12 (realH2 (hd := hd)) hd.real_x12]
  unfold kOutE
  rw [Mee2 (hd := hd), Mce2 (hd := hd), H2 (hd := hd), wl2_0, wl2_2, wr2_02, b2_02]

theorem outC : kOutC x0 x1 x2 x3 x4 x5 x6 x7 x8 x9 x10 x11 x12 = val_main_v239 (F := Ideal) x0 x1 x2 x3 x4 x5 x6 x7 x8 x9 x10 x11 x12 := by
  rw [ref_v239 x0 x1 x2 x3 x4 x5 x6 x7 x8 x9 x10 x11 x12]
  unfold kOutC
  rw [Mec2 (hd := hd), C2 (hd := hd), wl2_1, wr2_1, b2_1]

end Cert.Bridge

end
-- ==== Proof.RefVb.lean ====
import proofs.«412619_j24352464570114_1_alg».proof.Proof.RefOps
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def Vb1 (V0 : Valuation τ sig (Elt F)) : Valuation τ sig (Elt F) := after ops_part0 V0
def Vb2 (V0 : Valuation τ sig (Elt F)) : Valuation τ sig (Elt F) := after ops_part1 (Vb1 V0)
def Vb3 (V0 : Valuation τ sig (Elt F)) : Valuation τ sig (Elt F) := after ops_part2 (Vb2 V0)
def Vb4 (V0 : Valuation τ sig (Elt F)) : Valuation τ sig (Elt F) := after ops_part3 (Vb3 V0)
def Vb5 (V0 : Valuation τ sig (Elt F)) : Valuation τ sig (Elt F) := after ops_part4 (Vb4 V0)

theorem after_ops_eq_Vb5 (V0 : Valuation τ sig (Elt F)) : after ops V0 = Vb5 V0 := by
  simp only [ops, after_append]
  rfl

end Cert.ReferenceIdeal.Hand

end
-- ==== Proof.RefVals0.lean ====
/-
  Window 0 of the reference program (operations 1 … 60 of its 284): it writes no argument array, and each buffer it writes that a
  later window reads holds the stage of the argument arrays that its operation's definition composes.
-/
import proofs.«412619_j24352464570114_1_alg».proof.Proof.RefVb
import proofs.«412619_j24352464570114_1_alg».proof.Proof.RefRead
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window 0's operations write. -/
abbrev written0 : List (Ref sig .tc) := [main_v0, main_v1, main_v2, main_v3, main_v4, main_v5, main_v6, main_v7, main_v8, main_v9, main_c, main_v10, main_v11, main_c_0, main_v12, main_v13, main_v14, main_v15, main_v16, main_v17, main_v18, main_cst, main_v19, main_v20, main_v21, main_cst_1, main_v22, main_v23, main_v24, main_cst_2, main_v25, main_v26, main_v27, main_cst_3, main_v28, main_v29, main_v30, main_v31, main_v32, main_v33, main_v34, main_v35, main_v36, main_v37, main_v38, main_v39, main_v40, main_v41, main_v42, main_v43, main_v44, main_v45, main_c_4, main_v46, main_v47, main_c_5, main_v48, main_v49, main_v50, main_v51]

set_option maxRecDepth 8192 in
set_option maxHeartbeats 2000000 in
/-- Every operation of window 0 writes one of them. -/
theorem written0_sub : (ops_part0 : List (HloOp τ sig (Elt F))).Forall fun op => op.writes ⊆ (written0.map (Proc.devRef (τ := τ) .tc)).toFinset := by
  simp only [ops_part0, List.Forall]
  repeat' apply And.intro
  all_goals
    simp only [nullary_writes, unary_writes, binary_writes, ternary_writes, reshape_writes, Finset.singleton_subset_iff, List.mem_toFinset]
    exact List.mem_map_of_mem (by decide)

/-- A buffer that window 0 does not write keeps its contents through it. -/
theorem Vb1_keep (V0 : Valuation τ sig (Elt F)) (r : Ref sig .tc) (h : r ∉ written0) :
    Vb1 V0 (Proc.devRef .tc r) = V0 (Proc.devRef .tc r) :=
  after_of_writes_sub ops_part0 _ written0_sub h

theorem V1_arg0 (V0 : Valuation τ sig (Elt F)) : Vb1 V0 (no_index (Proc.devRef .tc main_arg0)) = V0 (Proc.devRef .tc main_arg0) :=
  Vb1_keep V0 main_arg0 (by decide)
theorem V1_arg1 (V0 : Valuation τ sig (Elt F)) : Vb1 V0 (no_index (Proc.devRef .tc main_arg1)) = V0 (Proc.devRef .tc main_arg1) :=
  Vb1_keep V0 main_arg1 (by decide)
theorem V1_arg2 (V0 : Valuation τ sig (Elt F)) : Vb1 V0 (no_index (Proc.devRef .tc main_arg2)) = V0 (Proc.devRef .tc main_arg2) :=
  Vb1_keep V0 main_arg2 (by decide)
theorem V1_arg3 (V0 : Valuation τ sig (Elt F)) : Vb1 V0 (no_index (Proc.devRef .tc main_arg3)) = V0 (Proc.devRef .tc main_arg3) :=
  Vb1_keep V0 main_arg3 (by decide)
theorem V1_arg4 (V0 : Valuation τ sig (Elt F)) : Vb1 V0 (no_index (Proc.devRef .tc main_arg4)) = V0 (Proc.devRef .tc main_arg4) :=
  Vb1_keep V0 main_arg4 (by decide)
theorem V1_arg5 (V0 : Valuation τ sig (Elt F)) : Vb1 V0 (no_index (Proc.devRef .tc main_arg5)) = V0 (Proc.devRef .tc main_arg5) :=
  Vb1_keep V0 main_arg5 (by decide)
theorem V1_arg6 (V0 : Valuation τ sig (Elt F)) : Vb1 V0 (no_index (Proc.devRef .tc main_arg6)) = V0 (Proc.devRef .tc main_arg6) :=
  Vb1_keep V0 main_arg6 (by decide)
theorem V1_arg7 (V0 : Valuation τ sig (Elt F)) : Vb1 V0 (no_index (Proc.devRef .tc main_arg7)) = V0 (Proc.devRef .tc main_arg7) :=
  Vb1_keep V0 main_arg7 (by decide)
theorem V1_arg8 (V0 : Valuation τ sig (Elt F)) : Vb1 V0 (no_index (Proc.devRef .tc main_arg8)) = V0 (Proc.devRef .tc main_arg8) :=
  Vb1_keep V0 main_arg8 (by decide)
theorem V1_arg9 (V0 : Valuation τ sig (Elt F)) : Vb1 V0 (no_index (Proc.devRef .tc main_arg9)) = V0 (Proc.devRef .tc main_arg9) :=
  Vb1_keep V0 main_arg9 (by decide)
theorem V1_arg10 (V0 : Valuation τ sig (Elt F)) : Vb1 V0 (no_index (Proc.devRef .tc main_arg10)) = V0 (Proc.devRef .tc main_arg10) :=
  Vb1_keep V0 main_arg10 (by decide)
theorem V1_arg11 (V0 : Valuation τ sig (Elt F)) : Vb1 V0 (no_index (Proc.devRef .tc main_arg11)) = V0 (Proc.devRef .tc main_arg11) :=
  Vb1_keep V0 main_arg11 (by decide)
theorem V1_arg12 (V0 : Valuation τ sig (Elt F)) : Vb1 V0 (no_index (Proc.devRef .tc main_arg12)) = V0 (Proc.devRef .tc main_arg12) :=
  Vb1_keep V0 main_arg12 (by decide)

set_option maxRecDepth 8192 in
set_option maxHeartbeats 2000000 in
theorem V1_v0 (V0 : Valuation τ sig (Elt F)) : Vb1 V0 (no_index (Proc.devRef .tc main_v0)) = Read.val_main_v0 (V0 (Proc.devRef .tc main_arg0)) (V0 (Proc.devRef .tc main_arg5)) := by
  unfold Vb1
  simp only [ops_part0]
  after_results_simp
  rfl

set_option maxRecDepth 8192 in
set_option maxHeartbeats 2000000 in
theorem V1_v1 (V0 : Valuation τ sig (Elt F)) : Vb1 V0 (no_index (Proc.devRef .tc main_v1)) = Read.val_main_v1 (V0 (Proc.devRef .tc main_arg1)) (V0 (Proc.devRef .tc main_arg6)) := by
  unfold Vb1
  simp only [ops_part0]
  after_results_simp
  rfl

set_option maxRecDepth 8192 in
set_option maxHeartbeats 2000000 in
theorem V1_v37 (V0 : Valuation τ sig (Elt F)) : Vb1 V0 (no_index (Proc.devRef .tc main_v37)) = Read.val_main_v37 (V0 (Proc.devRef .tc main_arg0)) (V0 (Proc.devRef .tc main_arg2)) (V0 (Proc.devRef .tc main_arg5)) (V0 (Proc.devRef .tc main_arg7)) (V0 (Proc.devRef .tc main_arg8)) (V0 (Proc.devRef .tc main_arg9)) := by
  unfold Vb1
  simp only [ops_part0]
  after_results_simp
  rfl

set_option maxRecDepth 8192 in
set_option maxHeartbeats 2000000 in
theorem V1_v39 (V0 : Valuation τ sig (Elt F)) : Vb1 V0 (no_index (Proc.devRef .tc main_v39)) = Read.val_main_v39 (V0 (Proc.devRef .tc main_arg7)) := by
  unfold Vb1
  simp only [ops_part0]
  after_results_simp
  rfl

set_option maxRecDepth 8192 in
set_option maxHeartbeats 2000000 in
theorem V1_v41 (V0 : Valuation τ sig (Elt F)) : Vb1 V0 (no_index (Proc.devRef .tc main_v41)) = Read.val_main_v41 (V0 (Proc.devRef .tc main_arg8)) := by
  unfold Vb1
  simp only [ops_part0]
  after_results_simp
  rfl

set_option maxRecDepth 8192 in
set_option maxHeartbeats 2000000 in
theorem V1_v43 (V0 : Valuation τ sig (Elt F)) : Vb1 V0 (no_index (Proc.devRef .tc main_v43)) = Read.val_main_v43 (V0 (Proc.devRef .tc main_arg9)) := by
  unfold Vb1
  simp only [ops_part0]
  after_results_simp
  rfl

set_option maxRecDepth 8192 in
set_option maxHeartbeats 2000000 in
theorem V1_v51 (V0 : Valuation τ sig (Elt F)) : Vb1 V0 (no_index (Proc.devRef .tc main_v51)) = Read.val_main_v51 (V0 (Proc.devRef .tc main_arg4)) := by
  unfold Vb1
  simp only [ops_part0]
  after_results_simp
  rfl

end Cert.ReferenceIdeal.Hand

end
-- ==== Proof.RefVals1.lean ====
/-
  Window 1 of the reference program (operations 61 … 120 of its 284): it writes no argument array, and each buffer it writes that a
  later window reads holds the stage of the argument arrays that its operation's definition composes.
-/
import proofs.«412619_j24352464570114_1_alg».proof.Proof.RefVals0
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window 1's operations write. -/
abbrev written1 : List (Ref sig .tc) := [main_v52, main_v53, main_v54, main_cst_6, main_v55, main_v56, main_v57, main_cst_7, main_v58, main_v59, main_v60, main_cst_8, main_v61, main_v62, main_v63, main_cst_9, main_v64, main_v65, main_v66, main_v67, main_v68, main_v69, main_v70, main_v71, main_v72, main_v73, main_v74, main_v75, main_v76, main_v77, main_v78, main_v79, main_v80, main_v81, main_v82, main_c_10, main_v83, main_v84, main_c_11, main_v85, main_v86, main_v87, main_v88, main_v89, main_v90, main_v91, main_cst_12, main_v92, main_v93, main_v94, main_cst_13, main_v95, main_v96, main_v97, main_cst_14, main_v98, main_v99, main_v100, main_cst_15, main_v101]

set_option maxRecDepth 8192 in
set_option maxHeartbeats 2000000 in
/-- Every operation of window 1 writes one of them. -/
theorem written1_sub : (ops_part1 : List (HloOp τ sig (Elt F))).Forall fun op => op.writes ⊆ (written1.map (Proc.devRef (τ := τ) .tc)).toFinset := by
  simp only [ops_part1, List.Forall]
  repeat' apply And.intro
  all_goals
    simp only [nullary_writes, unary_writes, binary_writes, ternary_writes, reshape_writes, Finset.singleton_subset_iff, List.mem_toFinset]
    exact List.mem_map_of_mem (by decide)

/-- A buffer that window 1 does not write keeps its contents through it. -/
theorem Vb2_keep (V0 : Valuation τ sig (Elt F)) (r : Ref sig .tc) (h : r ∉ written1) :
    Vb2 V0 (Proc.devRef .tc r) = Vb1 V0 (Proc.devRef .tc r) :=
  after_of_writes_sub ops_part1 _ written1_sub h

theorem V2_arg0 (V0 : Valuation τ sig (Elt F)) : Vb2 V0 (no_index (Proc.devRef .tc main_arg0)) = V0 (Proc.devRef .tc main_arg0) :=
  (Vb2_keep V0 main_arg0 (by decide)).trans (V1_arg0 V0)
theorem V2_arg1 (V0 : Valuation τ sig (Elt F)) : Vb2 V0 (no_index (Proc.devRef .tc main_arg1)) = V0 (Proc.devRef .tc main_arg1) :=
  (Vb2_keep V0 main_arg1 (by decide)).trans (V1_arg1 V0)
theorem V2_arg2 (V0 : Valuation τ sig (Elt F)) : Vb2 V0 (no_index (Proc.devRef .tc main_arg2)) = V0 (Proc.devRef .tc main_arg2) :=
  (Vb2_keep V0 main_arg2 (by decide)).trans (V1_arg2 V0)
theorem V2_arg3 (V0 : Valuation τ sig (Elt F)) : Vb2 V0 (no_index (Proc.devRef .tc main_arg3)) = V0 (Proc.devRef .tc main_arg3) :=
  (Vb2_keep V0 main_arg3 (by decide)).trans (V1_arg3 V0)
theorem V2_arg4 (V0 : Valuation τ sig (Elt F)) : Vb2 V0 (no_index (Proc.devRef .tc main_arg4)) = V0 (Proc.devRef .tc main_arg4) :=
  (Vb2_keep V0 main_arg4 (by decide)).trans (V1_arg4 V0)
theorem V2_arg5 (V0 : Valuation τ sig (Elt F)) : Vb2 V0 (no_index (Proc.devRef .tc main_arg5)) = V0 (Proc.devRef .tc main_arg5) :=
  (Vb2_keep V0 main_arg5 (by decide)).trans (V1_arg5 V0)
theorem V2_arg6 (V0 : Valuation τ sig (Elt F)) : Vb2 V0 (no_index (Proc.devRef .tc main_arg6)) = V0 (Proc.devRef .tc main_arg6) :=
  (Vb2_keep V0 main_arg6 (by decide)).trans (V1_arg6 V0)
theorem V2_arg7 (V0 : Valuation τ sig (Elt F)) : Vb2 V0 (no_index (Proc.devRef .tc main_arg7)) = V0 (Proc.devRef .tc main_arg7) :=
  (Vb2_keep V0 main_arg7 (by decide)).trans (V1_arg7 V0)
theorem V2_arg8 (V0 : Valuation τ sig (Elt F)) : Vb2 V0 (no_index (Proc.devRef .tc main_arg8)) = V0 (Proc.devRef .tc main_arg8) :=
  (Vb2_keep V0 main_arg8 (by decide)).trans (V1_arg8 V0)
theorem V2_arg9 (V0 : Valuation τ sig (Elt F)) : Vb2 V0 (no_index (Proc.devRef .tc main_arg9)) = V0 (Proc.devRef .tc main_arg9) :=
  (Vb2_keep V0 main_arg9 (by decide)).trans (V1_arg9 V0)
theorem V2_arg10 (V0 : Valuation τ sig (Elt F)) : Vb2 V0 (no_index (Proc.devRef .tc main_arg10)) = V0 (Proc.devRef .tc main_arg10) :=
  (Vb2_keep V0 main_arg10 (by decide)).trans (V1_arg10 V0)
theorem V2_arg11 (V0 : Valuation τ sig (Elt F)) : Vb2 V0 (no_index (Proc.devRef .tc main_arg11)) = V0 (Proc.devRef .tc main_arg11) :=
  (Vb2_keep V0 main_arg11 (by decide)).trans (V1_arg11 V0)
theorem V2_arg12 (V0 : Valuation τ sig (Elt F)) : Vb2 V0 (no_index (Proc.devRef .tc main_arg12)) = V0 (Proc.devRef .tc main_arg12) :=
  (Vb2_keep V0 main_arg12 (by decide)).trans (V1_arg12 V0)

theorem V2_v0 (V0 : Valuation τ sig (Elt F)) : Vb2 V0 (no_index (Proc.devRef .tc main_v0)) = Read.val_main_v0 (V0 (Proc.devRef .tc main_arg0)) (V0 (Proc.devRef .tc main_arg5)) :=
  (Vb2_keep V0 main_v0 (by decide)).trans (V1_v0 V0)
theorem V2_v1 (V0 : Valuation τ sig (Elt F)) : Vb2 V0 (no_index (Proc.devRef .tc main_v1)) = Read.val_main_v1 (V0 (Proc.devRef .tc main_arg1)) (V0 (Proc.devRef .tc main_arg6)) :=
  (Vb2_keep V0 main_v1 (by decide)).trans (V1_v1 V0)

set_option maxRecDepth 8192 in
set_option maxHeartbeats 2000000 in
theorem V2_v74 (V0 : Valuation τ sig (Elt F)) : Vb2 V0 (no_index (Proc.devRef .tc main_v74)) = Read.val_main_v74 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold Vb2
  simp only [ops_part1]
  after_results_simp
  simp only [V1_v0, V1_v1, V1_v37, V1_v39, V1_v41, V1_v43, V1_v51, V1_arg4] <;> rfl

set_option maxRecDepth 8192 in
set_option maxHeartbeats 2000000 in
theorem V2_v76 (V0 : Valuation τ sig (Elt F)) : Vb2 V0 (no_index (Proc.devRef .tc main_v76)) = Read.val_main_v76 (V0 (Proc.devRef .tc main_arg7)) := by
  unfold Vb2
  simp only [ops_part1]
  after_results_simp
  simp only [V1_arg7] <;> rfl

set_option maxRecDepth 8192 in
set_option maxHeartbeats 2000000 in
theorem V2_v78 (V0 : Valuation τ sig (Elt F)) : Vb2 V0 (no_index (Proc.devRef .tc main_v78)) = Read.val_main_v78 (V0 (Proc.devRef .tc main_arg8)) := by
  unfold Vb2
  simp only [ops_part1]
  after_results_simp
  simp only [V1_arg8] <;> rfl

set_option maxRecDepth 8192 in
set_option maxHeartbeats 2000000 in
theorem V2_v80 (V0 : Valuation τ sig (Elt F)) : Vb2 V0 (no_index (Proc.devRef .tc main_v80)) = Read.val_main_v80 (V0 (Proc.devRef .tc main_arg9)) := by
  unfold Vb2
  simp only [ops_part1]
  after_results_simp
  simp only [V1_arg9] <;> rfl

set_option maxRecDepth 8192 in
set_option maxHeartbeats 2000000 in
theorem V2_v94 (V0 : Valuation τ sig (Elt F)) : Vb2 V0 (no_index (Proc.devRef .tc main_v94)) = Read.val_main_v94 (V0 (Proc.devRef .tc main_arg0)) (V0 (Proc.devRef .tc main_arg3)) (V0 (Proc.devRef .tc main_arg5)) := by
  unfold Vb2
  simp only [ops_part1]
  after_results_simp
  simp only [V1_v0, V1_arg3] <;> rfl

set_option maxRecDepth 8192 in
set_option maxHeartbeats 2000000 in
theorem V2_v100 (V0 : Valuation τ sig (Elt F)) : Vb2 V0 (no_index (Proc.devRef .tc main_v100)) = Read.val_main_v100 (V0 (Proc.devRef .tc main_arg3)) := by
  unfold Vb2
  simp only [ops_part1]
  after_results_simp
  simp only [V1_arg3] <;> rfl

set_option maxRecDepth 8192 in
set_option maxHeartbeats 2000000 in
theorem V2_v101 (V0 : Valuation τ sig (Elt F)) : Vb2 V0 (no_index (Proc.devRef .tc main_v101)) = Read.val_main_v101 (F := F) := by
  unfold Vb2
  simp only [ops_part1]
  after_results_simp
  rfl

end Cert.ReferenceIdeal.Hand

end
-- ==== Proof.RefVals2.lean ====
/-
  Window 2 of the reference program (operations 121 … 184 of its 284): it writes no argument array, and each buffer it writes that a
  later window reads holds the stage of the argument arrays that its operation's definition composes.
-/
import proofs.«412619_j24352464570114_1_alg».proof.Proof.RefVals1
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window 2's operations write. -/
abbrev written2 : List (Ref sig .tc) := [main_v102, main_v103, main_v104, main_v105, main_v106, main_v107, main_v108, main_v109, main_v110, main_call0_cst, main_call0_v0, main_v111, main_v112, main_call1_cst, main_call1_v0, main_v113, main_v114, main_v115, main_v116, main_v117, main_v118, main_v119, main_v120, main_v121, main_v122, main_c_16, main_v123, main_v124, main_c_17, main_v125, main_v126, main_v127, main_v128, main_v129, main_v130, main_v131, main_cst_18, main_v132, main_v133, main_v134, main_cst_19, main_v135, main_v136, main_v137, main_cst_20, main_v138, main_v139, main_v140, main_cst_21, main_v141, main_v142, main_v143, main_v144, main_v145, main_v146, main_v147, main_v148, main_v149, main_v150, main_v151, main_v152, main_v153, main_v154, main_v155]

set_option maxRecDepth 8192 in
set_option maxHeartbeats 2000000 in
/-- Every operation of window 2 writes one of them. -/
theorem written2_sub : (ops_part2 : List (HloOp τ sig (Elt F))).Forall fun op => op.writes ⊆ (written2.map (Proc.devRef (τ := τ) .tc)).toFinset := by
  simp only [ops_part2, List.Forall]
  repeat' apply And.intro
  all_goals
    simp only [nullary_writes, unary_writes, binary_writes, ternary_writes, reshape_writes, Finset.singleton_subset_iff, List.mem_toFinset]
    exact List.mem_map_of_mem (by decide)

/-- A buffer that window 2 does not write keeps its contents through it. -/
theorem Vb3_keep (V0 : Valuation τ sig (Elt F)) (r : Ref sig .tc) (h : r ∉ written2) :
    Vb3 V0 (Proc.devRef .tc r) = Vb2 V0 (Proc.devRef .tc r) :=
  after_of_writes_sub ops_part2 _ written2_sub h

theorem V3_arg0 (V0 : Valuation τ sig (Elt F)) : Vb3 V0 (no_index (Proc.devRef .tc main_arg0)) = V0 (Proc.devRef .tc main_arg0) :=
  (Vb3_keep V0 main_arg0 (by decide)).trans (V2_arg0 V0)
theorem V3_arg1 (V0 : Valuation τ sig (Elt F)) : Vb3 V0 (no_index (Proc.devRef .tc main_arg1)) = V0 (Proc.devRef .tc main_arg1) :=
  (Vb3_keep V0 main_arg1 (by decide)).trans (V2_arg1 V0)
theorem V3_arg2 (V0 : Valuation τ sig (Elt F)) : Vb3 V0 (no_index (Proc.devRef .tc main_arg2)) = V0 (Proc.devRef .tc main_arg2) :=
  (Vb3_keep V0 main_arg2 (by decide)).trans (V2_arg2 V0)
theorem V3_arg3 (V0 : Valuation τ sig (Elt F)) : Vb3 V0 (no_index (Proc.devRef .tc main_arg3)) = V0 (Proc.devRef .tc main_arg3) :=
  (Vb3_keep V0 main_arg3 (by decide)).trans (V2_arg3 V0)
theorem V3_arg4 (V0 : Valuation τ sig (Elt F)) : Vb3 V0 (no_index (Proc.devRef .tc main_arg4)) = V0 (Proc.devRef .tc main_arg4) :=
  (Vb3_keep V0 main_arg4 (by decide)).trans (V2_arg4 V0)
theorem V3_arg5 (V0 : Valuation τ sig (Elt F)) : Vb3 V0 (no_index (Proc.devRef .tc main_arg5)) = V0 (Proc.devRef .tc main_arg5) :=
  (Vb3_keep V0 main_arg5 (by decide)).trans (V2_arg5 V0)
theorem V3_arg6 (V0 : Valuation τ sig (Elt F)) : Vb3 V0 (no_index (Proc.devRef .tc main_arg6)) = V0 (Proc.devRef .tc main_arg6) :=
  (Vb3_keep V0 main_arg6 (by decide)).trans (V2_arg6 V0)
theorem V3_arg7 (V0 : Valuation τ sig (Elt F)) : Vb3 V0 (no_index (Proc.devRef .tc main_arg7)) = V0 (Proc.devRef .tc main_arg7) :=
  (Vb3_keep V0 main_arg7 (by decide)).trans (V2_arg7 V0)
theorem V3_arg8 (V0 : Valuation τ sig (Elt F)) : Vb3 V0 (no_index (Proc.devRef .tc main_arg8)) = V0 (Proc.devRef .tc main_arg8) :=
  (Vb3_keep V0 main_arg8 (by decide)).trans (V2_arg8 V0)
theorem V3_arg9 (V0 : Valuation τ sig (Elt F)) : Vb3 V0 (no_index (Proc.devRef .tc main_arg9)) = V0 (Proc.devRef .tc main_arg9) :=
  (Vb3_keep V0 main_arg9 (by decide)).trans (V2_arg9 V0)
theorem V3_arg10 (V0 : Valuation τ sig (Elt F)) : Vb3 V0 (no_index (Proc.devRef .tc main_arg10)) = V0 (Proc.devRef .tc main_arg10) :=
  (Vb3_keep V0 main_arg10 (by decide)).trans (V2_arg10 V0)
theorem V3_arg11 (V0 : Valuation τ sig (Elt F)) : Vb3 V0 (no_index (Proc.devRef .tc main_arg11)) = V0 (Proc.devRef .tc main_arg11) :=
  (Vb3_keep V0 main_arg11 (by decide)).trans (V2_arg11 V0)
theorem V3_arg12 (V0 : Valuation τ sig (Elt F)) : Vb3 V0 (no_index (Proc.devRef .tc main_arg12)) = V0 (Proc.devRef .tc main_arg12) :=
  (Vb3_keep V0 main_arg12 (by decide)).trans (V2_arg12 V0)

set_option maxRecDepth 8192 in
set_option maxHeartbeats 2000000 in
theorem V3_v112 (V0 : Valuation τ sig (Elt F)) : Vb3 V0 (no_index (Proc.devRef .tc main_v112)) = Read.val_main_v112 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold Vb3
  simp only [ops_part2]
  after_results_simp
  simp only [V2_v0, V2_v74] <;> rfl

set_option maxRecDepth 8192 in
set_option maxHeartbeats 2000000 in
theorem V3_v114 (V0 : Valuation τ sig (Elt F)) : Vb3 V0 (no_index (Proc.devRef .tc main_v114)) = Read.val_main_v114 (V0 (Proc.devRef .tc main_arg0)) (V0 (Proc.devRef .tc main_arg1)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) := by
  unfold Vb3
  simp only [ops_part2]
  after_results_simp
  simp only [V2_v1, V2_v76, V2_v78, V2_v80, V2_v94, V2_v100, V2_v101] <;> rfl

set_option maxRecDepth 8192 in
set_option maxHeartbeats 2000000 in
theorem V3_v150 (V0 : Valuation τ sig (Elt F)) : Vb3 V0 (no_index (Proc.devRef .tc main_v150)) = Read.val_main_v150 (V0 (Proc.devRef .tc main_arg0)) (V0 (Proc.devRef .tc main_arg1)) (V0 (Proc.devRef .tc main_arg2)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold Vb3
  simp only [ops_part2]
  after_results_simp
  simp only [V2_v0, V2_v74, V2_arg2, V2_arg10, V2_arg11, V2_arg12] <;> rfl

set_option maxRecDepth 8192 in
set_option maxHeartbeats 2000000 in
theorem V3_v152 (V0 : Valuation τ sig (Elt F)) : Vb3 V0 (no_index (Proc.devRef .tc main_v152)) = Read.val_main_v152 (V0 (Proc.devRef .tc main_arg10)) := by
  unfold Vb3
  simp only [ops_part2]
  after_results_simp
  simp only [V2_arg10] <;> rfl

set_option maxRecDepth 8192 in
set_option maxHeartbeats 2000000 in
theorem V3_v154 (V0 : Valuation τ sig (Elt F)) : Vb3 V0 (no_index (Proc.devRef .tc main_v154)) = Read.val_main_v154 (V0 (Proc.devRef .tc main_arg11)) := by
  unfold Vb3
  simp only [ops_part2]
  after_results_simp
  simp only [V2_arg11] <;> rfl

set_option maxRecDepth 8192 in
set_option maxHeartbeats 2000000 in
theorem V3_v155 (V0 : Valuation τ sig (Elt F)) : Vb3 V0 (no_index (Proc.devRef .tc main_v155)) = Read.val_main_v155 (V0 (Proc.devRef .tc main_arg12)) := by
  unfold Vb3
  simp only [ops_part2]
  after_results_simp
  simp only [V2_arg12] <;> rfl

end Cert.ReferenceIdeal.Hand

end
-- ==== Proof.RefVals3.lean ====
/-
  Window 3 of the reference program (operations 185 … 244 of its 284): it writes no argument array, and each buffer it writes that a
  later window reads holds the stage of the argument arrays that its operation's definition composes.
-/
import proofs.«412619_j24352464570114_1_alg».proof.Proof.RefVals2
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window 3's operations write. -/
abbrev written3 : List (Ref sig .tc) := [main_v156, main_v157, main_v158, main_c_22, main_v159, main_v160, main_c_23, main_v161, main_v162, main_v163, main_v164, main_v165, main_v166, main_v167, main_cst_24, main_v168, main_v169, main_v170, main_cst_25, main_v171, main_v172, main_v173, main_cst_26, main_v174, main_v175, main_v176, main_cst_27, main_v177, main_v178, main_v179, main_v180, main_v181, main_v182, main_v183, main_v184, main_v185, main_v186, main_v187, main_v188, main_v189, main_v190, main_v191, main_v192, main_v193, main_v194, main_v195, main_c_28, main_v196, main_v197, main_c_29, main_v198, main_v199, main_v200, main_v201, main_v202, main_v203, main_v204, main_cst_30, main_v205, main_v206]

set_option maxRecDepth 8192 in
set_option maxHeartbeats 2000000 in
/-- Every operation of window 3 writes one of them. -/
theorem written3_sub : (ops_part3 : List (HloOp τ sig (Elt F))).Forall fun op => op.writes ⊆ (written3.map (Proc.devRef (τ := τ) .tc)).toFinset := by
  simp only [ops_part3, List.Forall]
  repeat' apply And.intro
  all_goals
    simp only [nullary_writes, unary_writes, binary_writes, ternary_writes, reshape_writes, Finset.singleton_subset_iff, List.mem_toFinset]
    exact List.mem_map_of_mem (by decide)

/-- A buffer that window 3 does not write keeps its contents through it. -/
theorem Vb4_keep (V0 : Valuation τ sig (Elt F)) (r : Ref sig .tc) (h : r ∉ written3) :
    Vb4 V0 (Proc.devRef .tc r) = Vb3 V0 (Proc.devRef .tc r) :=
  after_of_writes_sub ops_part3 _ written3_sub h

theorem V4_arg0 (V0 : Valuation τ sig (Elt F)) : Vb4 V0 (no_index (Proc.devRef .tc main_arg0)) = V0 (Proc.devRef .tc main_arg0) :=
  (Vb4_keep V0 main_arg0 (by decide)).trans (V3_arg0 V0)
theorem V4_arg1 (V0 : Valuation τ sig (Elt F)) : Vb4 V0 (no_index (Proc.devRef .tc main_arg1)) = V0 (Proc.devRef .tc main_arg1) :=
  (Vb4_keep V0 main_arg1 (by decide)).trans (V3_arg1 V0)
theorem V4_arg2 (V0 : Valuation τ sig (Elt F)) : Vb4 V0 (no_index (Proc.devRef .tc main_arg2)) = V0 (Proc.devRef .tc main_arg2) :=
  (Vb4_keep V0 main_arg2 (by decide)).trans (V3_arg2 V0)
theorem V4_arg3 (V0 : Valuation τ sig (Elt F)) : Vb4 V0 (no_index (Proc.devRef .tc main_arg3)) = V0 (Proc.devRef .tc main_arg3) :=
  (Vb4_keep V0 main_arg3 (by decide)).trans (V3_arg3 V0)
theorem V4_arg4 (V0 : Valuation τ sig (Elt F)) : Vb4 V0 (no_index (Proc.devRef .tc main_arg4)) = V0 (Proc.devRef .tc main_arg4) :=
  (Vb4_keep V0 main_arg4 (by decide)).trans (V3_arg4 V0)
theorem V4_arg5 (V0 : Valuation τ sig (Elt F)) : Vb4 V0 (no_index (Proc.devRef .tc main_arg5)) = V0 (Proc.devRef .tc main_arg5) :=
  (Vb4_keep V0 main_arg5 (by decide)).trans (V3_arg5 V0)
theorem V4_arg6 (V0 : Valuation τ sig (Elt F)) : Vb4 V0 (no_index (Proc.devRef .tc main_arg6)) = V0 (Proc.devRef .tc main_arg6) :=
  (Vb4_keep V0 main_arg6 (by decide)).trans (V3_arg6 V0)
theorem V4_arg7 (V0 : Valuation τ sig (Elt F)) : Vb4 V0 (no_index (Proc.devRef .tc main_arg7)) = V0 (Proc.devRef .tc main_arg7) :=
  (Vb4_keep V0 main_arg7 (by decide)).trans (V3_arg7 V0)
theorem V4_arg8 (V0 : Valuation τ sig (Elt F)) : Vb4 V0 (no_index (Proc.devRef .tc main_arg8)) = V0 (Proc.devRef .tc main_arg8) :=
  (Vb4_keep V0 main_arg8 (by decide)).trans (V3_arg8 V0)
theorem V4_arg9 (V0 : Valuation τ sig (Elt F)) : Vb4 V0 (no_index (Proc.devRef .tc main_arg9)) = V0 (Proc.devRef .tc main_arg9) :=
  (Vb4_keep V0 main_arg9 (by decide)).trans (V3_arg9 V0)
theorem V4_arg10 (V0 : Valuation τ sig (Elt F)) : Vb4 V0 (no_index (Proc.devRef .tc main_arg10)) = V0 (Proc.devRef .tc main_arg10) :=
  (Vb4_keep V0 main_arg10 (by decide)).trans (V3_arg10 V0)
theorem V4_arg11 (V0 : Valuation τ sig (Elt F)) : Vb4 V0 (no_index (Proc.devRef .tc main_arg11)) = V0 (Proc.devRef .tc main_arg11) :=
  (Vb4_keep V0 main_arg11 (by decide)).trans (V3_arg11 V0)
theorem V4_arg12 (V0 : Valuation τ sig (Elt F)) : Vb4 V0 (no_index (Proc.devRef .tc main_arg12)) = V0 (Proc.devRef .tc main_arg12) :=
  (Vb4_keep V0 main_arg12 (by decide)).trans (V3_arg12 V0)

theorem V4_v114 (V0 : Valuation τ sig (Elt F)) : Vb4 V0 (no_index (Proc.devRef .tc main_v114)) = Read.val_main_v114 (V0 (Proc.devRef .tc main_arg0)) (V0 (Proc.devRef .tc main_arg1)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) :=
  (Vb4_keep V0 main_v114 (by decide)).trans (V3_v114 V0)

set_option maxRecDepth 8192 in
set_option maxHeartbeats 2000000 in
theorem V4_v187 (V0 : Valuation τ sig (Elt F)) : Vb4 V0 (no_index (Proc.devRef .tc main_v187)) = Read.val_main_v187 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold Vb4
  simp only [ops_part3]
  after_results_simp
  simp only [V3_v112, V3_v114, V3_v150, V3_v152, V3_v154, V3_v155, V3_arg4] <;> rfl

set_option maxRecDepth 8192 in
set_option maxHeartbeats 2000000 in
theorem V4_v189 (V0 : Valuation τ sig (Elt F)) : Vb4 V0 (no_index (Proc.devRef .tc main_v189)) = Read.val_main_v189 (V0 (Proc.devRef .tc main_arg10)) := by
  unfold Vb4
  simp only [ops_part3]
  after_results_simp
  simp only [V3_arg10] <;> rfl

set_option maxRecDepth 8192 in
set_option maxHeartbeats 2000000 in
theorem V4_v191 (V0 : Valuation τ sig (Elt F)) : Vb4 V0 (no_index (Proc.devRef .tc main_v191)) = Read.val_main_v191 (V0 (Proc.devRef .tc main_arg11)) := by
  unfold Vb4
  simp only [ops_part3]
  after_results_simp
  simp only [V3_arg11] <;> rfl

set_option maxRecDepth 8192 in
set_option maxHeartbeats 2000000 in
theorem V4_v193 (V0 : Valuation τ sig (Elt F)) : Vb4 V0 (no_index (Proc.devRef .tc main_v193)) = Read.val_main_v193 (V0 (Proc.devRef .tc main_arg12)) := by
  unfold Vb4
  simp only [ops_part3]
  after_results_simp
  simp only [V3_arg12] <;> rfl

set_option maxRecDepth 8192 in
set_option maxHeartbeats 2000000 in
theorem V4_v202 (V0 : Valuation τ sig (Elt F)) : Vb4 V0 (no_index (Proc.devRef .tc main_v202)) = Read.val_main_v202 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold Vb4
  simp only [ops_part3]
  after_results_simp
  simp only [V3_v112, V3_arg3] <;> rfl

set_option maxRecDepth 8192 in
set_option maxHeartbeats 2000000 in
theorem V4_v205 (V0 : Valuation τ sig (Elt F)) : Vb4 V0 (no_index (Proc.devRef .tc main_v205)) = Read.val_main_v205 (F := F) := by
  unfold Vb4
  simp only [ops_part3]
  after_results_simp
  rfl

set_option maxRecDepth 8192 in
set_option maxHeartbeats 2000000 in
theorem V4_v206 (V0 : Valuation τ sig (Elt F)) : Vb4 V0 (no_index (Proc.devRef .tc main_v206)) = Read.val_main_v206 (V0 (Proc.devRef .tc main_arg3)) := by
  unfold Vb4
  simp only [ops_part3]
  after_results_simp
  simp only [V3_arg3] <;> rfl

end Cert.ReferenceIdeal.Hand

end
-- ==== Proof.RefVals4.lean ====
/-
  Window 4 of the reference program (operations 245 … 284 of its 284): it writes no argument array, and each buffer it writes that a
  later window reads or the program returns holds the stage of the argument arrays that its operation's definition composes.
-/
import proofs.«412619_j24352464570114_1_alg».proof.Proof.RefVals3
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that window 4's operations write. -/
abbrev written4 : List (Ref sig .tc) := [main_v207, main_cst_31, main_v208, main_v209, main_v210, main_cst_32, main_v211, main_v212, main_v213, main_cst_33, main_v214, main_v215, main_v216, main_v217, main_v218, main_v219, main_v220, main_v221, main_v222, main_v223, main_v224, main_cst_34, main_v225, main_v226, main_v227, main_cst_35, main_v228, main_v229, main_v230, main_v231, main_v232, main_cst_36, main_v233, main_v234, main_v235, main_cst_37, main_v236, main_v237, main_v238, main_v239]

set_option maxRecDepth 8192 in
set_option maxHeartbeats 2000000 in
/-- Every operation of window 4 writes one of them. -/
theorem written4_sub : (ops_part4 : List (HloOp τ sig (Elt F))).Forall fun op => op.writes ⊆ (written4.map (Proc.devRef (τ := τ) .tc)).toFinset := by
  simp only [ops_part4, List.Forall]
  repeat' apply And.intro
  all_goals
    simp only [nullary_writes, unary_writes, binary_writes, ternary_writes, reshape_writes, Finset.singleton_subset_iff, List.mem_toFinset]
    exact List.mem_map_of_mem (by decide)

/-- A buffer that window 4 does not write keeps its contents through it. -/
theorem Vb5_keep (V0 : Valuation τ sig (Elt F)) (r : Ref sig .tc) (h : r ∉ written4) :
    Vb5 V0 (Proc.devRef .tc r) = Vb4 V0 (Proc.devRef .tc r) :=
  after_of_writes_sub ops_part4 _ written4_sub h

theorem V5_arg0 (V0 : Valuation τ sig (Elt F)) : Vb5 V0 (no_index (Proc.devRef .tc main_arg0)) = V0 (Proc.devRef .tc main_arg0) :=
  (Vb5_keep V0 main_arg0 (by decide)).trans (V4_arg0 V0)
theorem V5_arg1 (V0 : Valuation τ sig (Elt F)) : Vb5 V0 (no_index (Proc.devRef .tc main_arg1)) = V0 (Proc.devRef .tc main_arg1) :=
  (Vb5_keep V0 main_arg1 (by decide)).trans (V4_arg1 V0)
theorem V5_arg2 (V0 : Valuation τ sig (Elt F)) : Vb5 V0 (no_index (Proc.devRef .tc main_arg2)) = V0 (Proc.devRef .tc main_arg2) :=
  (Vb5_keep V0 main_arg2 (by decide)).trans (V4_arg2 V0)
theorem V5_arg3 (V0 : Valuation τ sig (Elt F)) : Vb5 V0 (no_index (Proc.devRef .tc main_arg3)) = V0 (Proc.devRef .tc main_arg3) :=
  (Vb5_keep V0 main_arg3 (by decide)).trans (V4_arg3 V0)
theorem V5_arg4 (V0 : Valuation τ sig (Elt F)) : Vb5 V0 (no_index (Proc.devRef .tc main_arg4)) = V0 (Proc.devRef .tc main_arg4) :=
  (Vb5_keep V0 main_arg4 (by decide)).trans (V4_arg4 V0)
theorem V5_arg5 (V0 : Valuation τ sig (Elt F)) : Vb5 V0 (no_index (Proc.devRef .tc main_arg5)) = V0 (Proc.devRef .tc main_arg5) :=
  (Vb5_keep V0 main_arg5 (by decide)).trans (V4_arg5 V0)
theorem V5_arg6 (V0 : Valuation τ sig (Elt F)) : Vb5 V0 (no_index (Proc.devRef .tc main_arg6)) = V0 (Proc.devRef .tc main_arg6) :=
  (Vb5_keep V0 main_arg6 (by decide)).trans (V4_arg6 V0)
theorem V5_arg7 (V0 : Valuation τ sig (Elt F)) : Vb5 V0 (no_index (Proc.devRef .tc main_arg7)) = V0 (Proc.devRef .tc main_arg7) :=
  (Vb5_keep V0 main_arg7 (by decide)).trans (V4_arg7 V0)
theorem V5_arg8 (V0 : Valuation τ sig (Elt F)) : Vb5 V0 (no_index (Proc.devRef .tc main_arg8)) = V0 (Proc.devRef .tc main_arg8) :=
  (Vb5_keep V0 main_arg8 (by decide)).trans (V4_arg8 V0)
theorem V5_arg9 (V0 : Valuation τ sig (Elt F)) : Vb5 V0 (no_index (Proc.devRef .tc main_arg9)) = V0 (Proc.devRef .tc main_arg9) :=
  (Vb5_keep V0 main_arg9 (by decide)).trans (V4_arg9 V0)
theorem V5_arg10 (V0 : Valuation τ sig (Elt F)) : Vb5 V0 (no_index (Proc.devRef .tc main_arg10)) = V0 (Proc.devRef .tc main_arg10) :=
  (Vb5_keep V0 main_arg10 (by decide)).trans (V4_arg10 V0)
theorem V5_arg11 (V0 : Valuation τ sig (Elt F)) : Vb5 V0 (no_index (Proc.devRef .tc main_arg11)) = V0 (Proc.devRef .tc main_arg11) :=
  (Vb5_keep V0 main_arg11 (by decide)).trans (V4_arg11 V0)
theorem V5_arg12 (V0 : Valuation τ sig (Elt F)) : Vb5 V0 (no_index (Proc.devRef .tc main_arg12)) = V0 (Proc.devRef .tc main_arg12) :=
  (Vb5_keep V0 main_arg12 (by decide)).trans (V4_arg12 V0)

set_option maxRecDepth 8192 in
set_option maxHeartbeats 2000000 in
theorem V5_v231 (V0 : Valuation τ sig (Elt F)) : Vb5 V0 (no_index (Proc.devRef .tc main_v231)) = Read.val_main_v231 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold Vb5
  simp only [ops_part4]
  after_results_simp
  simp only [V4_v187] <;> rfl

set_option maxRecDepth 8192 in
set_option maxHeartbeats 2000000 in
theorem V5_v239 (V0 : Valuation τ sig (Elt F)) : Vb5 V0 (no_index (Proc.devRef .tc main_v239)) = Read.val_main_v239 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold Vb5
  simp only [ops_part4]
  after_results_simp
  simp only [V4_v114, V4_v189, V4_v191, V4_v193, V4_v202, V4_v205, V4_v206, V4_arg3] <;> rfl

end Cert.ReferenceIdeal.Hand

end
-- ==== Proof.RefVals.lean ====
/-
  The reference program's run, read: every weakly fair execution terminates with its two result arrays at the last
  stages of the argument arrays and the thirteen argument arrays unchanged. The fold of the whole operation list is the
  fold of the five windows one after the other; the last window leaves the two results at their stages, and every window
  passes every argument through.
-/
import proofs.«412619_j24352464570114_1_alg».proof.Proof.RefVals4
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- After the whole program the first result array holds its stage of the arguments. -/
theorem after_v231 (V0 : Valuation τ sig (Elt F)) :
    after ops V0 (Proc.devRef .tc main_v231) = Read.val_main_v231 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [after_ops_eq_Vb5]
  exact V5_v231 V0

/-- After the whole program the second result array holds its stage of the arguments. -/
theorem after_v239 (V0 : Valuation τ sig (Elt F)) :
    after ops V0 (Proc.devRef .tc main_v239) = Read.val_main_v239 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [after_ops_eq_Vb5]
  exact V5_v239 V0

/-- No operation writes argument 0. -/
theorem after_arg0 (V0 : Valuation τ sig (Elt F)) :
    after ops V0 (Proc.devRef .tc main_arg0) = V0 (Proc.devRef .tc main_arg0) := by
  rw [after_ops_eq_Vb5]
  exact V5_arg0 V0

/-- No operation writes argument 1. -/
theorem after_arg1 (V0 : Valuation τ sig (Elt F)) :
    after ops V0 (Proc.devRef .tc main_arg1) = V0 (Proc.devRef .tc main_arg1) := by
  rw [after_ops_eq_Vb5]
  exact V5_arg1 V0

/-- No operation writes argument 2. -/
theorem after_arg2 (V0 : Valuation τ sig (Elt F)) :
    after ops V0 (Proc.devRef .tc main_arg2) = V0 (Proc.devRef .tc main_arg2) := by
  rw [after_ops_eq_Vb5]
  exact V5_arg2 V0

/-- No operation writes argument 3. -/
theorem after_arg3 (V0 : Valuation τ sig (Elt F)) :
    after ops V0 (Proc.devRef .tc main_arg3) = V0 (Proc.devRef .tc main_arg3) := by
  rw [after_ops_eq_Vb5]
  exact V5_arg3 V0

/-- No operation writes argument 4. -/
theorem after_arg4 (V0 : Valuation τ sig (Elt F)) :
    after ops V0 (Proc.devRef .tc main_arg4) = V0 (Proc.devRef .tc main_arg4) := by
  rw [after_ops_eq_Vb5]
  exact V5_arg4 V0

/-- No operation writes argument 5. -/
theorem after_arg5 (V0 : Valuation τ sig (Elt F)) :
    after ops V0 (Proc.devRef .tc main_arg5) = V0 (Proc.devRef .tc main_arg5) := by
  rw [after_ops_eq_Vb5]
  exact V5_arg5 V0

/-- No operation writes argument 6. -/
theorem after_arg6 (V0 : Valuation τ sig (Elt F)) :
    after ops V0 (Proc.devRef .tc main_arg6) = V0 (Proc.devRef .tc main_arg6) := by
  rw [after_ops_eq_Vb5]
  exact V5_arg6 V0

/-- No operation writes argument 7. -/
theorem after_arg7 (V0 : Valuation τ sig (Elt F)) :
    after ops V0 (Proc.devRef .tc main_arg7) = V0 (Proc.devRef .tc main_arg7) := by
  rw [after_ops_eq_Vb5]
  exact V5_arg7 V0

/-- No operation writes argument 8. -/
theorem after_arg8 (V0 : Valuation τ sig (Elt F)) :
    after ops V0 (Proc.devRef .tc main_arg8) = V0 (Proc.devRef .tc main_arg8) := by
  rw [after_ops_eq_Vb5]
  exact V5_arg8 V0

/-- No operation writes argument 9. -/
theorem after_arg9 (V0 : Valuation τ sig (Elt F)) :
    after ops V0 (Proc.devRef .tc main_arg9) = V0 (Proc.devRef .tc main_arg9) := by
  rw [after_ops_eq_Vb5]
  exact V5_arg9 V0

/-- No operation writes argument 10. -/
theorem after_arg10 (V0 : Valuation τ sig (Elt F)) :
    after ops V0 (Proc.devRef .tc main_arg10) = V0 (Proc.devRef .tc main_arg10) := by
  rw [after_ops_eq_Vb5]
  exact V5_arg10 V0

/-- No operation writes argument 11. -/
theorem after_arg11 (V0 : Valuation τ sig (Elt F)) :
    after ops V0 (Proc.devRef .tc main_arg11) = V0 (Proc.devRef .tc main_arg11) := by
  rw [after_ops_eq_Vb5]
  exact V5_arg11 V0

/-- No operation writes argument 12. -/
theorem after_arg12 (V0 : Valuation τ sig (Elt F)) :
    after ops V0 (Proc.devRef .tc main_arg12) = V0 (Proc.devRef .tc main_arg12) := by
  rw [after_ops_eq_Vb5]
  exact V5_arg12 V0

/-- On every device, for any float values, from any memory with zero counters: every weakly fair execution of the
    program terminates with the two results at their stages of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v231) = Read.val_main_v231 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v239) = Read.val_main_v239 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c main_v231).trans (after_v231 (launchContents m c)),
      (h c main_v239).trans (after_v239 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c)),
      (h c main_arg12).trans (after_arg12 (launchContents m c))⟩)
    (run_after m ρ)

end Cert.ReferenceIdeal.Hand

end
-- ==== Proof.lean ====
import proofs.«412619_j24352464570114_1_alg».proof.Defs
import proofs.«412619_j24352464570114_1_alg».proof.Proof.Gen.Kernel
import proofs.«412619_j24352464570114_1_alg».proof.Proof.Gen.KernelIdeal
import proofs.«412619_j24352464570114_1_alg».proof.Proof.Gen.ReferenceIdeal
import proofs.«412619_j24352464570114_1_alg».proof.Proof.Gen.Pre_finite_inputs
import proofs.«412619_j24352464570114_1_alg».proof.Proof.KRun
import proofs.«412619_j24352464570114_1_alg».proof.Proof.KiRun
import proofs.«412619_j24352464570114_1_alg».proof.Proof.KiChain
import proofs.«412619_j24352464570114_1_alg».proof.Proof.Bridge
import proofs.«412619_j24352464570114_1_alg».proof.Proof.RefVals
import proofs.«412619_j24352464570114_1_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Hand.run (F := Ideal) m ρ)

theorem algebraic : Cert.algebraic_KernelIdeal_ReferenceIdeal := by
  intro m ρ m' ρ' hpre hagree
  refine ⟨fun c => Cert.KernelIdeal.Hand.W21 m c Cert.KernelIdeal.main_v116, fun c => Cert.KernelIdeal.Hand.W21 m c Cert.KernelIdeal.main_v124,
    (θ_run Cert.KernelIdeal.defs _ _).mono (fun r h c => ?_) (Cert.KernelIdeal.Hand.run_all m ρ),
    (θ_run Cert.ReferenceIdeal.defs _ _).mono (fun r h c => ?_) (Cert.ReferenceIdeal.Hand.run (F := Ideal) m' ρ')⟩
  · have hb : ∀ (b : Ref Cert.KernelIdeal.sig .tc), ¬ (Proc.devRef .tc b : DevRef Cert.KernelIdeal.τ Cert.KernelIdeal.sig).isScoped →
        r.2.mem ((c.tc : Thread Cert.KernelIdeal.nD Cert.KernelIdeal.τ).loc b) = Cert.KernelIdeal.Hand.W21 m c b :=
      fun b hs => h c _ (Finset.mem_filter.mpr ⟨StableHlo.devRef_mem_tcRefs b, hs⟩)
    have a : ∀ (b : Ref Cert.KernelIdeal.sig .tc) hs, Cert.KernelIdeal.Gen.V21 m (Cert.KernelIdeal.Hand.outs m) c b = m ((c.tc : Thread Cert.KernelIdeal.nD Cert.KernelIdeal.τ).loc b) →
        r.2.mem ((c.tc : Thread Cert.KernelIdeal.nD Cert.KernelIdeal.τ).loc b) = m ((c.tc : Thread Cert.KernelIdeal.nD Cert.KernelIdeal.τ).loc b) :=
      fun b hs e => (hb b hs).trans ((congrFun (Cert.KernelIdeal.Hand.V21_eq m c) b).symm.trans e)
    exact ⟨hb _ (by decide), hb _ (by decide),
      a _ (by decide) (Cert.KernelIdeal.Gen.V21_main_arg0 m _ c), a _ (by decide) (Cert.KernelIdeal.Gen.V21_main_arg1 m _ c),
      a _ (by decide) (Cert.KernelIdeal.Gen.V21_main_arg2 m _ c), a _ (by decide) (Cert.KernelIdeal.Gen.V21_main_arg3 m _ c),
      a _ (by decide) (Cert.KernelIdeal.Gen.V21_main_arg4 m _ c), a _ (by decide) (Cert.KernelIdeal.Gen.V21_main_arg5 m _ c),
      a _ (by decide) (Cert.KernelIdeal.Gen.V21_main_arg6 m _ c), a _ (by decide) (Cert.KernelIdeal.Gen.V21_main_arg7 m _ c),
      a _ (by decide) (Cert.KernelIdeal.Gen.V21_main_arg8 m _ c), a _ (by decide) (Cert.KernelIdeal.Gen.V21_main_arg9 m _ c),
      a _ (by decide) (Cert.KernelIdeal.Gen.V21_main_arg10 m _ c), a _ (by decide) (Cert.KernelIdeal.Gen.V21_main_arg11 m _ c),
      a _ (by decide) (Cert.KernelIdeal.Gen.V21_main_arg12 m _ c)⟩
  have hd := Cert.PreFacts.decode _ _ _ _ _ _ _ _ _ _ _ _ _ (hpre c)
  obtain ⟨h231, h239, hargs⟩ := h c
  obtain ⟨a0, a1, a2, a3, a4, a5, a6, a7, a8, a9, a10, a11, a12⟩ := hagree c
  refine ⟨h231.trans ?_, h239.trans ?_, hargs⟩ <;> rw [a0, a1, a2, a3, a4, a5, a6, a7, a8, a9, a10, a11, a12]
  · exact ((Cert.KernelIdeal.Hand.W21_v116 m c).trans (Cert.Bridge.outE _ _ _ _ _ _ _ _ _ _ _ _ _ hd)).symm
  · exact ((Cert.KernelIdeal.Hand.W21_v124 m c).trans (Cert.Bridge.outC _ _ _ _ _ _ _ _ _ _ _ _ _ hd)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
